-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S4096x2048 : Shape := ⟨2, ![4096, 2048]⟩
abbrev S32 : Shape := ⟨1, ![32]⟩
abbrev S96 : Shape := ⟨1, ![96]⟩
abbrev S128 : Shape := ⟨1, ![128]⟩
abbrev S4096 : Shape := ⟨1, ![4096]⟩
abbrev S32x3 : Shape := ⟨2, ![32, 3]⟩
abbrev S96x4 : Shape := ⟨2, ![96, 4]⟩
abbrev S128x5 : Shape := ⟨2, ![128, 5]⟩
abbrev S_ : Shape := ⟨0, ![]⟩
abbrev S32x2 : Shape := ⟨2, ![32, 2]⟩
abbrev S96x3 : Shape := ⟨2, ![96, 3]⟩
abbrev S128x4 : Shape := ⟨2, ![128, 4]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S32 : S_.BroadcastsInDim S32 (![] : Fin 0 → Fin S32.rank)
  reducesTo_S32_S_d0 : S32.ReducesTo [0] S_
  bcast_S_S96 : S_.BroadcastsInDim S96 (![] : Fin 0 → Fin S96.rank)
  reducesTo_S96_S_d0 : S96.ReducesTo [0] S_
  bcast_S_S128 : S_.BroadcastsInDim S128 (![] : Fin 0 → Fin S128.rank)
  reducesTo_S128_S_d0 : S128.ReducesTo [0] S_
  bcast_S_S4096 : S_.BroadcastsInDim S4096 (![] : Fin 0 → Fin S4096.rank)
  reducesTo_S4096_S_d0 : S4096.ReducesTo [0] S_
  slices_S32x3_S32x2_0_0 : S32x3.Slices ![0, 0] S32x2
  bcast_S_S32x2 : S_.BroadcastsInDim S32x2 (![] : Fin 0 → Fin S32x2.rank)
  reducesTo_S32x2_S_d0_1 : S32x2.ReducesTo [0, 1] S_
  slices_S96x4_S96x3_0_0 : S96x4.Slices ![0, 0] S96x3
  bcast_S_S96x3 : S_.BroadcastsInDim S96x3 (![] : Fin 0 → Fin S96x3.rank)
  reducesTo_S96x3_S_d0_1 : S96x3.ReducesTo [0, 1] S_
  slices_S128x5_S128x4_0_0 : S128x5.Slices ![0, 0] S128x4
  bcast_S_S128x4 : S_.BroadcastsInDim S128x4 (![] : Fin 0 → Fin S128x4.rank)
  reducesTo_S128x4_S_d0_1 : S128x4.ReducesTo [0, 1] S_

variable [Facts]

def fn_part3 {F : FTy → Type} [FloatOps F] (main_arg8 : IVec S128x5 32) (main_v48 : IVec S_ 1) (main_v51 : IVec S128x4 1) : IVec S_ 1 :=
  let main_v52 : IVec S128x4 32 := (extractStridedSlice S128x4 ![0, 0] · slices_S128x5_S128x4_0_0) main_arg8
  let main_c_18 : IVec S_ 32 := constantI S_ 32 16#32
  let main_v53 : IVec S128x4 32 := broadcastInDim S128x4 ![] bcast_S_S128x4 main_c_18
  let main_v54 : IVec S128x4 1 := cmpi .slt main_v52 main_v53
  let main_v55 : IVec S128x4 1 := andi main_v51 main_v54
  let main_c_19 : IVec S_ 1 := constantI S_ 1 1#1
  let main_v56 : IVec S_ 1 := (fun x v => Host.reduce IntOp.andi x v reducesTo_S128x4_S_d0_1 h_S_) main_v55 main_c_19
  let main_v57 : IVec S_ 1 := andi main_v48 main_v56
  main_v57

def fn_part2 {F : FTy → Type} [FloatOps F] (main_arg6 : IVec S32x3 32) (main_arg7 : IVec S96x4 32) (main_arg8 : IVec S128x5 32) (main_v30 : IVec S_ 1) (main_v33 : IVec S32x2 1) : IVec S_ 1 :=
  let main_v34 : IVec S32x2 32 := (extractStridedSlice S32x2 ![0, 0] · slices_S32x3_S32x2_0_0) main_arg6
  let main_c_12 : IVec S_ 32 := constantI S_ 32 16#32
  let main_v35 : IVec S32x2 32 := broadcastInDim S32x2 ![] bcast_S_S32x2 main_c_12
  let main_v36 : IVec S32x2 1 := cmpi .slt main_v34 main_v35
  let main_v37 : IVec S32x2 1 := andi main_v33 main_v36
  let main_c_13 : IVec S_ 1 := constantI S_ 1 1#1
  let main_v38 : IVec S_ 1 := (fun x v => Host.reduce IntOp.andi x v reducesTo_S32x2_S_d0_1 h_S_) main_v37 main_c_13
  let main_v39 : IVec S_ 1 := andi main_v30 main_v38
  let main_v40 : IVec S96x3 32 := (extractStridedSlice S96x3 ![0, 0] · slices_S96x4_S96x3_0_0) main_arg7
  let main_c_14 : IVec S_ 32 := constantI S_ 32 0#32
  let main_v41 : IVec S96x3 32 := broadcastInDim S96x3 ![] bcast_S_S96x3 main_c_14
  let main_v42 : IVec S96x3 1 := cmpi .sge main_v40 main_v41
  let main_v43 : IVec S96x3 32 := (extractStridedSlice S96x3 ![0, 0] · slices_S96x4_S96x3_0_0) main_arg7
  let main_c_15 : IVec S_ 32 := constantI S_ 32 16#32
  let main_v44 : IVec S96x3 32 := broadcastInDim S96x3 ![] bcast_S_S96x3 main_c_15
  let main_v45 : IVec S96x3 1 := cmpi .slt main_v43 main_v44
  let main_v46 : IVec S96x3 1 := andi main_v42 main_v45
  let main_c_16 : IVec S_ 1 := constantI S_ 1 1#1
  let main_v47 : IVec S_ 1 := (fun x v => Host.reduce IntOp.andi x v reducesTo_S96x3_S_d0_1 h_S_) main_v46 main_c_16
  let main_v48 : IVec S_ 1 := andi main_v39 main_v47
  let main_v49 : IVec S128x4 32 := (extractStridedSlice S128x4 ![0, 0] · slices_S128x5_S128x4_0_0) main_arg8
  let main_c_17 : IVec S_ 32 := constantI S_ 32 0#32
  let main_v50 : IVec S128x4 32 := broadcastInDim S128x4 ![] bcast_S_S128x4 main_c_17
  let main_v51 : IVec S128x4 1 := cmpi .sge main_v49 main_v50
  fn_part3 (F := F) main_arg8 main_v48 main_v51

def fn_part1 {F : FTy → Type} [FloatOps F] (main_arg4 : FVec F S128 .f32) (main_arg5 : IVec S4096 32) (main_arg6 : IVec S32x3 32) (main_arg7 : IVec S96x4 32) (main_arg8 : IVec S128x5 32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg5 main_v24
  let main_c_9 : IVec S_ 32 := constantI S_ 32 64#32
  let main_v26 : IVec S4096 32 := broadcastInDim S4096 ![] bcast_S_S4096 main_c_9
  let main_v27 : IVec S4096 1 := cmpi .slt main_arg5 main_v26
  let main_v28 : IVec S4096 1 := andi main_v25 main_v27
  let main_c_10 : IVec S_ 1 := constantI S_ 1 1#1
  let main_v29 : IVec S_ 1 := (fun x v => Host.reduce IntOp.andi x v reducesTo_S4096_S_d0 h_S_) main_v28 main_c_10
  let main_v30 : IVec S_ 1 := andi main_v23 main_v29
  let main_v31 : IVec S32x2 32 := (extractStridedSlice S32x2 ![0, 0] · slices_S32x3_S32x2_0_0) main_arg6
  let main_c_11 : IVec S_ 32 := constantI S_ 32 0#32
  let main_v32 : IVec S32x2 32 := broadcastInDim S32x2 ![] bcast_S_S32x2 main_c_11
  let main_v33 : IVec S32x2 1 := cmpi .sge main_v31 main_v32
  fn_part2 (F := F) main_arg6 main_arg7 main_arg8 main_v30 main_v33

def fn {F : FTy → Type} [FloatOps F] (main_arg0 : FVec F S64x2048 .f32) (main_arg1 : FVec F S4096x2048 .f32) (main_arg2 : FVec F S32 .f32) (main_arg3 : FVec F S96 .f32) (main_arg4 : FVec F S128 .f32) (main_arg5 : IVec S4096 32) (main_arg6 : IVec S32x3 32) (main_arg7 : IVec S96x4 32) (main_arg8 : IVec S128x5 32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_arg5 main_arg6 main_arg7 main_arg8 main_v13 main_v16
-- ==== Kernel.lean ====
abbrev S64x2048 : Shape := ⟨2, ![64, 2048]⟩
abbrev S4096x2048 : Shape := ⟨2, ![4096, 2048]⟩
abbrev S32 : Shape := ⟨1, ![32]⟩
abbrev S96 : Shape := ⟨1, ![96]⟩
abbrev S128 : Shape := ⟨1, ![128]⟩
abbrev S4096 : Shape := ⟨1, ![4096]⟩
abbrev S32x3 : Shape := ⟨2, ![32, 3]⟩
abbrev S96x4 : Shape := ⟨2, ![96, 4]⟩
abbrev S128x5 : Shape := ⟨2, ![128, 5]⟩
abbrev S4096x1 : Shape := ⟨2, ![4096, 1]⟩
abbrev S1x64 : Shape := ⟨2, ![1, 64]⟩
abbrev S4096x64 : Shape := ⟨2, ![4096, 64]⟩
abbrev S_ : Shape := ⟨0, ![]⟩
abbrev S128x128 : Shape := ⟨2, ![128, 128]⟩
abbrev S32x1 : Shape := ⟨2, ![32, 1]⟩
abbrev S1x16 : Shape := ⟨2, ![1, 16]⟩
abbrev S32x16 : Shape := ⟨2, ![32, 16]⟩
abbrev S16x32 : Shape := ⟨2, ![16, 32]⟩
abbrev S16x1x32x1 : Shape := ⟨4, ![16, 1, 32, 1]⟩
abbrev S1x128x1x128 : Shape := ⟨4, ![1, 128, 1, 128]⟩
abbrev S16x128x32x128 : Shape := ⟨4, ![16, 128, 32, 128]⟩
abbrev S2048x4096 : Shape := ⟨2, ![2048, 4096]⟩
abbrev S32x1x16x1 : Shape := ⟨4, ![32, 1, 16, 1]⟩
abbrev S32x128x16x128 : Shape := ⟨4, ![32, 128, 16, 128]⟩
abbrev S512x2048 : Shape := ⟨2, ![512, 2048]⟩
abbrev S512x64 : Shape := ⟨2, ![512, 64]⟩
abbrev S2048x256 : Shape := ⟨2, ![2048, 256]⟩
abbrev S256x2048 : Shape := ⟨2, ![256, 2048]⟩
abbrev S512x256 : Shape := ⟨2, ![512, 256]⟩
abbrev S96x1 : Shape := ⟨2, ![96, 1]⟩
abbrev S96x16 : Shape := ⟨2, ![96, 16]⟩
abbrev S16x96 : Shape := ⟨2, ![16, 96]⟩
abbrev S16x1x96x1 : Shape := ⟨4, ![16, 1, 96, 1]⟩
abbrev S16x128x96x128 : Shape := ⟨4, ![16, 128, 96, 128]⟩
abbrev S2048x12288 : Shape := ⟨2, ![2048, 12288]⟩
abbrev S96x1x16x1 : Shape := ⟨4, ![96, 1, 16, 1]⟩
abbrev S96x128x16x128 : Shape := ⟨4, ![96, 128, 16, 128]⟩
abbrev S12288x2048 : Shape := ⟨2, ![12288, 2048]⟩
abbrev S128x1 : Shape := ⟨2, ![128, 1]⟩
abbrev S128x16 : Shape := ⟨2, ![128, 16]⟩
abbrev S16x128 : Shape := ⟨2, ![16, 128]⟩
abbrev S16x1x128x1 : Shape := ⟨4, ![16, 1, 128, 1]⟩
abbrev S16x128x128x128 : Shape := ⟨4, ![16, 128, 128, 128]⟩
abbrev S2048x16384 : Shape := ⟨2, ![2048, 16384]⟩
abbrev S128x1x16x1 : Shape := ⟨4, ![128, 1, 16, 1]⟩
abbrev S128x128x16x128 : Shape := ⟨4, ![128, 128, 16, 128]⟩
abbrev S16384x2048 : Shape := ⟨2, ![16384, 2048]⟩

abbrev nBuf : Space → Nat
  | .hbm => 244
  | .vmem => 45
  | .smem => 0
  | _ => 0

abbrev hbmTy0_0 (i : Nat) : BufTy := match i % 128 with
  | 0 => ⟨S64x2048, .f32⟩
  | 1 => ⟨S4096x2048, .f32⟩
  | 2 => ⟨S32, .f32⟩
  | 3 => ⟨S96, .f32⟩
  | 4 => ⟨S128, .f32⟩
  | 5 => ⟨S4096, .i32⟩
  | 6 => ⟨S32x3, .i32⟩
  | 7 => ⟨S96x4, .i32⟩
  | 8 => ⟨S128x5, .i32⟩
  | 9 => ⟨S4096x2048, .bf16⟩
  | 10 => ⟨S64x2048, .bf16⟩
  | 11 => ⟨S4096x1, .i32⟩
  | 12 => ⟨S1x64, .i32⟩
  | 13 => ⟨S4096x64, .i32⟩
  | 14 => ⟨S4096x64, .i32⟩
  | 15 => ⟨S4096x64, .i1⟩
  | 16 => ⟨S4096x64, .bf16⟩
  | 17 => ⟨S_, .f32⟩
  | 18 => ⟨S4096x2048, .f32⟩
  | 19 => ⟨S128x128, .i32⟩
  | 20 => ⟨S128x128, .i32⟩
  | 21 => ⟨S_, .i32⟩
  | 22 => ⟨S128x128, .i32⟩
  | 23 => ⟨S128x128, .i32⟩
  | 24 => ⟨S128x128, .i1⟩
  | 25 => ⟨S128x128, .f32⟩
  | 26 => ⟨S32x1, .i32⟩
  | 27 => ⟨S32, .i32⟩
  | 28 => ⟨S32x1, .i32⟩
  | 29 => ⟨S1x16, .i32⟩
  | 30 => ⟨S32x16, .i32⟩
  | 31 => ⟨S32x16, .i32⟩
  | 32 => ⟨S32x16, .i1⟩
  | 33 => ⟨S32x16, .f32⟩
  | 34 => ⟨S16x32, .f32⟩
  | 35 => ⟨S16x1x32x1, .f32⟩
  | 36 => ⟨S1x128x1x128, .f32⟩
  | 37 => ⟨S16x128x32x128, .f32⟩
  | 38 => ⟨S16x128x32x128, .f32⟩
  | 39 => ⟨S16x128x32x128, .f32⟩
  | 40 => ⟨S2048x4096, .f32⟩
  | 41 => ⟨S2048x4096, .bf16⟩
  | 42 => ⟨S32x1, .i32⟩
  | 43 => ⟨S32, .i32⟩
  | 44 => ⟨S32x1, .i32⟩
  | 45 => ⟨S1x16, .i32⟩
  | 46 => ⟨S32x16, .i32⟩
  | 47 => ⟨S32x16, .i32⟩
  | 48 => ⟨S32x16, .i1⟩
  | 49 => ⟨S32x16, .f32⟩
  | 50 => ⟨S32x1, .f32⟩
  | 51 => ⟨S32x16, .f32⟩
  | 52 => ⟨S32x16, .f32⟩
  | 53 => ⟨S16x32, .f32⟩
  | 54 => ⟨S16x1x32x1, .f32⟩
  | 55 => ⟨S1x128x1x128, .f32⟩
  | 56 => ⟨S16x128x32x128, .f32⟩
  | 57 => ⟨S16x128x32x128, .f32⟩
  | 58 => ⟨S16x128x32x128, .f32⟩
  | 59 => ⟨S2048x4096, .f32⟩
  | 60 => ⟨S2048x4096, .bf16⟩
  | 61 => ⟨S32x1, .i32⟩
  | 62 => ⟨S32, .i32⟩
  | 63 => ⟨S32x1, .i32⟩
  | 64 => ⟨S1x16, .i32⟩
  | 65 => ⟨S32x16, .i32⟩
  | 66 => ⟨S32x16, .i32⟩
  | 67 => ⟨S32x16, .i1⟩
  | 68 => ⟨S32x16, .f32⟩
  | 69 => ⟨S32x1x16x1, .f32⟩
  | 70 => ⟨S1x128x1x128, .f32⟩
  | 71 => ⟨S32x128x16x128, .f32⟩
  | 72 => ⟨S32x128x16x128, .f32⟩
  | 73 => ⟨S32x128x16x128, .f32⟩
  | 74 => ⟨S4096x2048, .f32⟩
  | 75 => ⟨S4096x2048, .bf16⟩
  | 76 => ⟨S4096x2048, .f32⟩
  | 77 => ⟨S4096x2048, .f32⟩
  | 78 => ⟨S128x128, .i32⟩
  | 79 => ⟨S128x128, .i32⟩
  | 80 => ⟨S_, .i32⟩
  | 81 => ⟨S128x128, .i32⟩
  | 82 => ⟨S128x128, .i32⟩
  | 83 => ⟨S128x128, .i1⟩
  | 84 => ⟨S128x128, .f32⟩
  | 85 => ⟨S96x1, .i32⟩
  | 86 => ⟨S96, .i32⟩
  | 87 => ⟨S96x1, .i32⟩
  | 88 => ⟨S1x16, .i32⟩
  | 89 => ⟨S96x16, .i32⟩
  | 90 => ⟨S96x16, .i32⟩
  | 91 => ⟨S96x16, .i1⟩
  | 92 => ⟨S96x16, .f32⟩
  | 93 => ⟨S16x96, .f32⟩
  | 94 => ⟨S16x1x96x1, .f32⟩
  | 95 => ⟨S1x128x1x128, .f32⟩
  | 96 => ⟨S16x128x96x128, .f32⟩
  | 97 => ⟨S16x128x96x128, .f32⟩
  | 98 => ⟨S16x128x96x128, .f32⟩
  | 99 => ⟨S2048x12288, .f32⟩
  | 100 => ⟨S2048x12288, .bf16⟩
  | 101 => ⟨S96x1, .i32⟩
  | 102 => ⟨S96, .i32⟩
  | 103 => ⟨S96x1, .i32⟩
  | 104 => ⟨S1x16, .i32⟩
  | 105 => ⟨S96x16, .i32⟩
  | 106 => ⟨S96x16, .i32⟩
  | 107 => ⟨S96x16, .i1⟩
  | 108 => ⟨S96x16, .f32⟩
  | 109 => ⟨S16x96, .f32⟩
  | 110 => ⟨S16x1x96x1, .f32⟩
  | 111 => ⟨S1x128x1x128, .f32⟩
  | 112 => ⟨S16x128x96x128, .f32⟩
  | 113 => ⟨S16x128x96x128, .f32⟩
  | 114 => ⟨S16x128x96x128, .f32⟩
  | 115 => ⟨S2048x12288, .f32⟩
  | 116 => ⟨S2048x12288, .bf16⟩
  | 117 => ⟨S96x1, .i32⟩
  | 118 => ⟨S96, .i32⟩
  | 119 => ⟨S96x1, .i32⟩
  | 120 => ⟨S1x16, .i32⟩
  | 121 => ⟨S96x16, .i32⟩
  | 122 => ⟨S96x16, .i32⟩
  | 123 => ⟨S96x16, .i1⟩
  | 124 => ⟨S96x16, .f32⟩
  | 125 => ⟨S96x1, .f32⟩
  | 126 => ⟨S96x16, .f32⟩
  | 127 => ⟨S96x16, .f32⟩
  | _ => ⟨S64x2048, .f32⟩

abbrev hbmTy0_1 (i : Nat) : BufTy := match i % 128 with
  | 0 => ⟨S16x96, .f32⟩
  | 1 => ⟨S16x1x96x1, .f32⟩
  | 2 => ⟨S1x128x1x128, .f32⟩
  | 3 => ⟨S16x128x96x128, .f32⟩
  | 4 => ⟨S16x128x96x128, .f32⟩
  | 5 => ⟨S16x128x96x128, .f32⟩
  | 6 => ⟨S2048x12288, .f32⟩
  | 7 => ⟨S2048x12288, .bf16⟩
  | 8 => ⟨S96x1, .i32⟩
  | 9 => ⟨S96, .i32⟩
  | 10 => ⟨S96x1, .i32⟩
  | 11 => ⟨S1x16, .i32⟩
  | 12 => ⟨S96x16, .i32⟩
  | 13 => ⟨S96x16, .i32⟩
  | 14 => ⟨S96x16, .i1⟩
  | 15 => ⟨S96x16, .f32⟩
  | 16 => ⟨S96x1x16x1, .f32⟩
  | 17 => ⟨S1x128x1x128, .f32⟩
  | 18 => ⟨S96x128x16x128, .f32⟩
  | 19 => ⟨S96x128x16x128, .f32⟩
  | 20 => ⟨S96x128x16x128, .f32⟩
  | 21 => ⟨S12288x2048, .f32⟩
  | 22 => ⟨S12288x2048, .bf16⟩
  | 23 => ⟨S4096x2048, .f32⟩
  | 24 => ⟨S4096x2048, .f32⟩
  | 25 => ⟨S128x128, .i32⟩
  | 26 => ⟨S128x128, .i32⟩
  | 27 => ⟨S_, .i32⟩
  | 28 => ⟨S128x128, .i32⟩
  | 29 => ⟨S128x128, .i32⟩
  | 30 => ⟨S128x128, .i1⟩
  | 31 => ⟨S128x128, .f32⟩
  | 32 => ⟨S128x1, .i32⟩
  | 33 => ⟨S128, .i32⟩
  | 34 => ⟨S128x1, .i32⟩
  | 35 => ⟨S1x16, .i32⟩
  | 36 => ⟨S128x16, .i32⟩
  | 37 => ⟨S128x16, .i32⟩
  | 38 => ⟨S128x16, .i1⟩
  | 39 => ⟨S128x16, .f32⟩
  | 40 => ⟨S16x128, .f32⟩
  | 41 => ⟨S16x1x128x1, .f32⟩
  | 42 => ⟨S1x128x1x128, .f32⟩
  | 43 => ⟨S16x128x128x128, .f32⟩
  | 44 => ⟨S16x128x128x128, .f32⟩
  | 45 => ⟨S16x128x128x128, .f32⟩
  | 46 => ⟨S2048x16384, .f32⟩
  | 47 => ⟨S2048x16384, .bf16⟩
  | 48 => ⟨S128x1, .i32⟩
  | 49 => ⟨S128, .i32⟩
  | 50 => ⟨S128x1, .i32⟩
  | 51 => ⟨S1x16, .i32⟩
  | 52 => ⟨S128x16, .i32⟩
  | 53 => ⟨S128x16, .i32⟩
  | 54 => ⟨S128x16, .i1⟩
  | 55 => ⟨S128x16, .f32⟩
  | 56 => ⟨S16x128, .f32⟩
  | 57 => ⟨S16x1x128x1, .f32⟩
  | 58 => ⟨S1x128x1x128, .f32⟩
  | 59 => ⟨S16x128x128x128, .f32⟩
  | 60 => ⟨S16x128x128x128, .f32⟩
  | 61 => ⟨S16x128x128x128, .f32⟩
  | 62 => ⟨S2048x16384, .f32⟩
  | 63 => ⟨S2048x16384, .bf16⟩
  | 64 => ⟨S128x1, .i32⟩
  | 65 => ⟨S128, .i32⟩
  | 66 => ⟨S128x1, .i32⟩
  | 67 => ⟨S1x16, .i32⟩
  | 68 => ⟨S128x16, .i32⟩
  | 69 => ⟨S128x16, .i32⟩
  | 70 => ⟨S128x16, .i1⟩
  | 71 => ⟨S128x16, .f32⟩
  | 72 => ⟨S16x128, .f32⟩
  | 73 => ⟨S16x1x128x1, .f32⟩
  | 74 => ⟨S1x128x1x128, .f32⟩
  | 75 => ⟨S16x128x128x128, .f32⟩
  | 76 => ⟨S16x128x128x128, .f32⟩
  | 77 => ⟨S16x128x128x128, .f32⟩
  | 78 => ⟨S2048x16384, .f32⟩
  | 79 => ⟨S2048x16384, .bf16⟩
  | 80 => ⟨S128x1, .i32⟩
  | 81 => ⟨S128, .i32⟩
  | 82 => ⟨S128x1, .i32⟩
  | 83 => ⟨S1x16, .i32⟩
  | 84 => ⟨S128x16, .i32⟩
  | 85 => ⟨S128x16, .i32⟩
  | 86 => ⟨S128x16, .i1⟩
  | 87 => ⟨S128x16, .f32⟩
  | 88 => ⟨S128x1, .f32⟩
  | 89 => ⟨S128x16, .f32⟩
  | 90 => ⟨S128x16, .f32⟩
  | 91 => ⟨S16x128, .f32⟩
  | 92 => ⟨S16x1x128x1, .f32⟩
  | 93 => ⟨S1x128x1x128, .f32⟩
  | 94 => ⟨S16x128x128x128, .f32⟩
  | 95 => ⟨S16x128x128x128, .f32⟩
  | 96 => ⟨S16x128x128x128, .f32⟩
  | 97 => ⟨S2048x16384, .f32⟩
  | 98 => ⟨S2048x16384, .bf16⟩
  | 99 => ⟨S128x1, .i32⟩
  | 100 => ⟨S128, .i32⟩
  | 101 => ⟨S128x1, .i32⟩
  | 102 => ⟨S1x16, .i32⟩
  | 103 => ⟨S128x16, .i32⟩
  | 104 => ⟨S128x16, .i32⟩
  | 105 => ⟨S128x16, .i1⟩
  | 106 => ⟨S128x16, .f32⟩
  | 107 => ⟨S128x1x16x1, .f32⟩
  | 108 => ⟨S1x128x1x128, .f32⟩
  | 109 => ⟨S128x128x16x128, .f32⟩
  | 110 => ⟨S128x128x16x128, .f32⟩
  | 111 => ⟨S128x128x16x128, .f32⟩
  | 112 => ⟨S16384x2048, .f32⟩
  | 113 => ⟨S16384x2048, .bf16⟩
  | 114 => ⟨S4096x2048, .f32⟩
  | 115 => ⟨S4096x2048, .f32⟩
  | _ => ⟨S64x2048, .f32⟩

abbrev hbmTy (i : Nat) : BufTy := match i / 128 with
  | 0 => hbmTy0_0 i
  | 1 => hbmTy0_1 i
  | _ => ⟨S64x2048, .f32⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S512x64, .bf16⟩
  | .local _ .vmem, ⟨3, _⟩ => ⟨S64x2048, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S256x2048, .bf16⟩
  | .local _ .vmem, ⟨9, _⟩ => ⟨S256x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x64, .bf16⟩
  | .local _ .vmem, ⟨16, _⟩ => ⟨S64x2048, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S256x2048, .bf16⟩
  | .local _ .vmem, ⟨24, _⟩ => ⟨S256x2048, .bf16⟩
  | .local _ .vmem, ⟨25, _⟩ => ⟨S512x2048, .f32⟩
  | .local _ .vmem, ⟨26, _⟩ => ⟨S512x2048, .f32⟩
  | .local _ .vmem, ⟨27, _⟩ => ⟨S512x2048, .bf16⟩
  | .local _ .vmem, ⟨28, _⟩ => ⟨S512x2048, .bf16⟩
  | .local _ .vmem, ⟨29, _⟩ => ⟨S512x2048, .bf16⟩
  | .local _ .vmem, ⟨30, _⟩ => ⟨S512x64, .bf16⟩
  | .local _ .vmem, ⟨31, _⟩ => ⟨S64x2048, .bf16⟩
  | .local _ .vmem, ⟨32, _⟩ => ⟨S2048x256, .bf16⟩
  | .local _ .vmem, ⟨33, _⟩ => ⟨S2048x256, .bf16⟩
  | .local _ .vmem, ⟨34, _⟩ => ⟨S2048x256, .bf16⟩
  | .local _ .vmem, ⟨35, _⟩ => ⟨S2048x256, .bf16⟩
  | .local _ .vmem, ⟨36, _⟩ => ⟨S2048x256, .bf16⟩
  | .local _ .vmem, ⟨37, _⟩ => ⟨S2048x256, .bf16⟩
  | .local _ .vmem, ⟨38, _⟩ => ⟨S2048x256, .bf16⟩
  | .local _ .vmem, ⟨39, _⟩ => ⟨S2048x256, .bf16⟩
  | .local _ .vmem, ⟨40, _⟩ => ⟨S256x2048, .bf16⟩
  | .local _ .vmem, ⟨41, _⟩ => ⟨S256x2048, .bf16⟩
  | .local _ .vmem, ⟨42, _⟩ => ⟨S512x2048, .f32⟩
  | .local _ .vmem, ⟨43, _⟩ => ⟨S512x2048, .f32⟩
  | .local _ .vmem, ⟨44, _⟩ => ⟨S512x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v12 : Ref sig .tc := ⟨.hbm, 33, rfl⟩
abbrev main_v13 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_call4_v0 : Ref sig .tc := ⟨.hbm, 54, rfl⟩
abbrev main_call4_v1 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_call5_v0 : Ref sig .tc := ⟨.hbm, 63, rfl⟩
abbrev main_call5_v1 : Ref sig .tc := ⟨.hbm, 64, rfl⟩
abbrev main_call5_v2 : Ref sig .tc := ⟨.hbm, 65, rfl⟩
abbrev main_call5_v3 : Ref sig .tc := ⟨.hbm, 66, rfl⟩
abbrev main_call5_v4 : Ref sig .tc := ⟨.hbm, 67, rfl⟩
abbrev main_v27 : Ref sig .tc := ⟨.hbm, 68, rfl⟩
abbrev main_call6_v0 : Ref sig .tc := ⟨.hbm, 69, rfl⟩
abbrev main_call6_v1 : Ref sig .tc := ⟨.hbm, 70, rfl⟩
abbrev main_call6_v2 : Ref sig .tc := ⟨.hbm, 71, rfl⟩
abbrev main_call6_v3 : Ref sig .tc := ⟨.hbm, 72, rfl⟩
abbrev main_call6_v4 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_c_0 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_call7_v0 : Ref sig .tc := ⟨.hbm, 87, rfl⟩
abbrev main_call7_v1 : Ref sig .tc := ⟨.hbm, 88, rfl⟩
abbrev main_call7_v2 : Ref sig .tc := ⟨.hbm, 89, rfl⟩
abbrev main_call7_v3 : Ref sig .tc := ⟨.hbm, 90, rfl⟩
abbrev main_call7_v4 : Ref sig .tc := ⟨.hbm, 91, rfl⟩
abbrev main_v40 : Ref sig .tc := ⟨.hbm, 92, rfl⟩
abbrev main_v41 : Ref sig .tc := ⟨.hbm, 93, rfl⟩
abbrev main_call8_v0 : Ref sig .tc := ⟨.hbm, 94, rfl⟩
abbrev main_call8_v1 : Ref sig .tc := ⟨.hbm, 95, rfl⟩
abbrev main_call8_v2 : Ref sig .tc := ⟨.hbm, 96, rfl⟩
abbrev main_call8_v3 : Ref sig .tc := ⟨.hbm, 97, rfl⟩
abbrev main_call8_v4 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_call9_v0 : Ref sig .tc := ⟨.hbm, 103, rfl⟩
abbrev main_call9_v1 : Ref sig .tc := ⟨.hbm, 104, rfl⟩
abbrev main_call9_v2 : Ref sig .tc := ⟨.hbm, 105, rfl⟩
abbrev main_call9_v3 : Ref sig .tc := ⟨.hbm, 106, rfl⟩
abbrev main_call9_v4 : Ref sig .tc := ⟨.hbm, 107, rfl⟩
abbrev main_v46 : Ref sig .tc := ⟨.hbm, 108, rfl⟩
abbrev main_v47 : Ref sig .tc := ⟨.hbm, 109, rfl⟩
abbrev main_call10_v0 : Ref sig .tc := ⟨.hbm, 110, rfl⟩
abbrev main_call10_v1 : Ref sig .tc := ⟨.hbm, 111, rfl⟩
abbrev main_call10_v2 : Ref sig .tc := ⟨.hbm, 112, rfl⟩
abbrev main_call10_v3 : Ref sig .tc := ⟨.hbm, 113, rfl⟩
abbrev main_call10_v4 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_call11_v0 : Ref sig .tc := ⟨.hbm, 119, rfl⟩
abbrev main_call11_v1 : Ref sig .tc := ⟨.hbm, 120, rfl⟩
abbrev main_call11_v2 : Ref sig .tc := ⟨.hbm, 121, rfl⟩
abbrev main_call11_v3 : Ref sig .tc := ⟨.hbm, 122, rfl⟩
abbrev main_call11_v4 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_call12_v0 : Ref sig .tc := ⟨.hbm, 129, rfl⟩
abbrev main_call12_v1 : Ref sig .tc := ⟨.hbm, 130, rfl⟩
abbrev main_call12_v2 : Ref sig .tc := ⟨.hbm, 131, rfl⟩
abbrev main_call12_v3 : Ref sig .tc := ⟨.hbm, 132, rfl⟩
abbrev main_call12_v4 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_call13_v0 : Ref sig .tc := ⟨.hbm, 138, rfl⟩
abbrev main_call13_v1 : Ref sig .tc := ⟨.hbm, 139, rfl⟩
abbrev main_call13_v2 : Ref sig .tc := ⟨.hbm, 140, rfl⟩
abbrev main_call13_v3 : Ref sig .tc := ⟨.hbm, 141, rfl⟩
abbrev main_call13_v4 : Ref sig .tc := ⟨.hbm, 142, rfl⟩
abbrev main_v61 : Ref sig .tc := ⟨.hbm, 143, rfl⟩
abbrev main_call14_v0 : Ref sig .tc := ⟨.hbm, 144, rfl⟩
abbrev main_call14_v1 : Ref sig .tc := ⟨.hbm, 145, rfl⟩
abbrev main_call14_v2 : Ref sig .tc := ⟨.hbm, 146, rfl⟩
abbrev main_call14_v3 : Ref sig .tc := ⟨.hbm, 147, rfl⟩
abbrev main_call14_v4 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_c_1 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_call15_v0 : Ref sig .tc := ⟨.hbm, 162, rfl⟩
abbrev main_call15_v1 : Ref sig .tc := ⟨.hbm, 163, rfl⟩
abbrev main_call15_v2 : Ref sig .tc := ⟨.hbm, 164, rfl⟩
abbrev main_call15_v3 : Ref sig .tc := ⟨.hbm, 165, rfl⟩
abbrev main_call15_v4 : Ref sig .tc := ⟨.hbm, 166, rfl⟩
abbrev main_v74 : Ref sig .tc := ⟨.hbm, 167, rfl⟩
abbrev main_v75 : Ref sig .tc := ⟨.hbm, 168, rfl⟩
abbrev main_call16_v0 : Ref sig .tc := ⟨.hbm, 169, rfl⟩
abbrev main_call16_v1 : Ref sig .tc := ⟨.hbm, 170, rfl⟩
abbrev main_call16_v2 : Ref sig .tc := ⟨.hbm, 171, rfl⟩
abbrev main_call16_v3 : Ref sig .tc := ⟨.hbm, 172, rfl⟩
abbrev main_call16_v4 : Ref sig .tc := ⟨.hbm, 173, rfl⟩
abbrev main_v76 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_call17_v0 : Ref sig .tc := ⟨.hbm, 178, rfl⟩
abbrev main_call17_v1 : Ref sig .tc := ⟨.hbm, 179, rfl⟩
abbrev main_call17_v2 : Ref sig .tc := ⟨.hbm, 180, rfl⟩
abbrev main_call17_v3 : Ref sig .tc := ⟨.hbm, 181, rfl⟩
abbrev main_call17_v4 : Ref sig .tc := ⟨.hbm, 182, rfl⟩
abbrev main_v80 : Ref sig .tc := ⟨.hbm, 183, rfl⟩
abbrev main_v81 : Ref sig .tc := ⟨.hbm, 184, rfl⟩
abbrev main_call18_v0 : Ref sig .tc := ⟨.hbm, 185, rfl⟩
abbrev main_call18_v1 : Ref sig .tc := ⟨.hbm, 186, rfl⟩
abbrev main_call18_v2 : Ref sig .tc := ⟨.hbm, 187, rfl⟩
abbrev main_call18_v3 : Ref sig .tc := ⟨.hbm, 188, rfl⟩
abbrev main_call18_v4 : Ref sig .tc := ⟨.hbm, 189, rfl⟩
abbrev main_v82 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_call19_v0 : Ref sig .tc := ⟨.hbm, 194, rfl⟩
abbrev main_call19_v1 : Ref sig .tc := ⟨.hbm, 195, rfl⟩
abbrev main_call19_v2 : Ref sig .tc := ⟨.hbm, 196, rfl⟩
abbrev main_call19_v3 : Ref sig .tc := ⟨.hbm, 197, rfl⟩
abbrev main_call19_v4 : Ref sig .tc := ⟨.hbm, 198, rfl⟩
abbrev main_v86 : Ref sig .tc := ⟨.hbm, 199, rfl⟩
abbrev main_v87 : Ref sig .tc := ⟨.hbm, 200, rfl⟩
abbrev main_call20_v0 : Ref sig .tc := ⟨.hbm, 201, rfl⟩
abbrev main_call20_v1 : Ref sig .tc := ⟨.hbm, 202, rfl⟩
abbrev main_call20_v2 : Ref sig .tc := ⟨.hbm, 203, rfl⟩
abbrev main_call20_v3 : Ref sig .tc := ⟨.hbm, 204, rfl⟩
abbrev main_call20_v4 : Ref sig .tc := ⟨.hbm, 205, rfl⟩
abbrev main_v88 : Ref sig .tc := ⟨.hbm, 206, rfl⟩
abbrev main_v89 : Ref sig .tc := ⟨.hbm, 207, rfl⟩
abbrev main_v90 : Ref sig .tc := ⟨.hbm, 208, rfl⟩
abbrev main_v91 : Ref sig .tc := ⟨.hbm, 209, rfl⟩
abbrev main_call21_v0 : Ref sig .tc := ⟨.hbm, 210, rfl⟩
abbrev main_call21_v1 : Ref sig .tc := ⟨.hbm, 211, rfl⟩
abbrev main_call21_v2 : Ref sig .tc := ⟨.hbm, 212, rfl⟩
abbrev main_call21_v3 : Ref sig .tc := ⟨.hbm, 213, rfl⟩
abbrev main_call21_v4 : Ref sig .tc := ⟨.hbm, 214, rfl⟩
abbrev main_v92 : Ref sig .tc := ⟨.hbm, 215, rfl⟩
abbrev main_v93 : Ref sig .tc := ⟨.hbm, 216, rfl⟩
abbrev main_v94 : Ref sig .tc := ⟨.hbm, 217, rfl⟩
abbrev main_v95 : Ref sig .tc := ⟨.hbm, 218, rfl⟩
abbrev main_v96 : Ref sig .tc := ⟨.hbm, 219, rfl⟩
abbrev main_call22_v0 : Ref sig .tc := ⟨.hbm, 220, rfl⟩
abbrev main_call22_v1 : Ref sig .tc := ⟨.hbm, 221, rfl⟩
abbrev main_call22_v2 : Ref sig .tc := ⟨.hbm, 222, rfl⟩
abbrev main_call22_v3 : Ref sig .tc := ⟨.hbm, 223, rfl⟩
abbrev main_call22_v4 : Ref sig .tc := ⟨.hbm, 224, rfl⟩
abbrev main_v97 : Ref sig .tc := ⟨.hbm, 225, rfl⟩
abbrev main_v98 : Ref sig .tc := ⟨.hbm, 226, rfl⟩
abbrev main_v99 : Ref sig .tc := ⟨.hbm, 227, rfl⟩
abbrev main_v100 : Ref sig .tc := ⟨.hbm, 228, rfl⟩
abbrev main_call23_v0 : Ref sig .tc := ⟨.hbm, 229, rfl⟩
abbrev main_call23_v1 : Ref sig .tc := ⟨.hbm, 230, rfl⟩
abbrev main_call23_v2 : Ref sig .tc := ⟨.hbm, 231, rfl⟩
abbrev main_call23_v3 : Ref sig .tc := ⟨.hbm, 232, rfl⟩
abbrev main_call23_v4 : Ref sig .tc := ⟨.hbm, 233, rfl⟩
abbrev main_v101 : Ref sig .tc := ⟨.hbm, 234, rfl⟩
abbrev main_call24_v0 : Ref sig .tc := ⟨.hbm, 235, rfl⟩
abbrev main_call24_v1 : Ref sig .tc := ⟨.hbm, 236, rfl⟩
abbrev main_call24_v2 : Ref sig .tc := ⟨.hbm, 237, rfl⟩
abbrev main_call24_v3 : Ref sig .tc := ⟨.hbm, 238, rfl⟩
abbrev main_call24_v4 : Ref sig .tc := ⟨.hbm, 239, rfl⟩
abbrev main_v102 : Ref sig .tc := ⟨.hbm, 240, rfl⟩
abbrev main_v103 : Ref sig .tc := ⟨.hbm, 241, rfl⟩
abbrev main_v104 : Ref sig .tc := ⟨.hbm, 242, rfl⟩
abbrev main_v105 : Ref sig .tc := ⟨.hbm, 243, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_scratch0 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg5_1 : Ref sig .tc := ⟨.vmem, 37, rfl⟩
abbrev cc2_stg6_0 : Ref sig .tc := ⟨.vmem, 38, rfl⟩
abbrev cc2_stg6_1 : Ref sig .tc := ⟨.vmem, 39, rfl⟩
abbrev cc2_stg7_0 : Ref sig .tc := ⟨.vmem, 40, rfl⟩
abbrev cc2_stg7_1 : Ref sig .tc := ⟨.vmem, 41, rfl⟩
abbrev cc2_stg8_0 : Ref sig .tc := ⟨.vmem, 42, rfl⟩
abbrev cc2_stg8_1 : Ref sig .tc := ⟨.vmem, 43, rfl⟩
abbrev cc2_scratch0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39
abbrev cc2_sem8_0 : DmaSem sig := 40
abbrev cc2_sem8_1 : DmaSem sig := 41

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S64x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 48], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S512x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S64x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S256x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S512x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![8, 64], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S512x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S64x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S2048x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S2048x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S2048x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S256x2048 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]

abbrev stage2_8 : Fin 2 → Memref sig .tc .vmem S512x2048 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

class Facts₀ : Prop where
  bitsLt_bf16_f32 : FTy.bits .bf16 < FTy.bits .f32
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S1x64_S4096x64_0_1 : S1x64.BroadcastsInDim S4096x64 (![0, 1] : Fin 2 → Fin S4096x64.rank)
  bcast_S_S4096x2048 : S_.BroadcastsInDim S4096x2048 (![] : Fin 0 → Fin S4096x2048.rank)
  bcast_S_S128x128 : S_.BroadcastsInDim S128x128 (![] : Fin 0 → Fin S128x128.rank)
  slices_S32x3_S32x1_0_0 : S32x3.Slices ![0, 0] S32x1
  shapeCasts_S32x1_S32 : S32x1.ShapeCasts S32
  bcast_S32_S32x1_0 : S32.BroadcastsInDim S32x1 (![0] : Fin 1 → Fin S32x1.rank)
  bcast_S32x1_S32x16_0_1 : S32x1.BroadcastsInDim S32x16 (![0, 1] : Fin 2 → Fin S32x16.rank)
  bcast_S1x16_S32x16_0_1 : S1x16.BroadcastsInDim S32x16 (![0, 1] : Fin 2 → Fin S32x16.rank)
  transposes_S32x16_S16x32_1_0 : S32x16.Transposes [1, 0] S16x32
  bcast_S16x32_S16x1x32x1_0_2 : S16x32.BroadcastsInDim S16x1x32x1 (![0, 2] : Fin 2 → Fin S16x1x32x1.rank)
  bcast_S128x128_S1x128x1x128_1_3 : S128x128.BroadcastsInDim S1x128x1x128 (![1, 3] : Fin 2 → Fin S1x128x1x128.rank)
  bcast_S16x1x32x1_S16x128x32x128_0_1_2_3 : S16x1x32x1.BroadcastsInDim S16x128x32x128 (![0, 1, 2, 3] : Fin 4 → Fin S16x128x32x128.rank)
  bcast_S1x128x1x128_S16x128x32x128_0_1_2_3 : S1x128x1x128.BroadcastsInDim S16x128x32x128 (![0, 1, 2, 3] : Fin 4 → Fin S16x128x32x128.rank)
  shapeCasts_S16x128x32x128_S2048x4096 : S16x128x32x128.ShapeCasts S2048x4096
  slices_S32x3_S32x1_0_1 : S32x3.Slices ![0, 1] S32x1
  slices_S32x3_S32x1_0_2 : S32x3.Slices ![0, 2] S32x1
  bcast_S32x16_S32x1x16x1_0_2 : S32x16.BroadcastsInDim S32x1x16x1 (![0, 2] : Fin 2 → Fin S32x1x16x1.rank)
  bcast_S32x1x16x1_S32x128x16x128_0_1_2_3 : S32x1x16x1.BroadcastsInDim S32x128x16x128 (![0, 1, 2, 3] : Fin 4 → Fin S32x128x16x128.rank)
  bcast_S1x128x1x128_S32x128x16x128_0_1_2_3 : S1x128x1x128.BroadcastsInDim S32x128x16x128 (![0, 1, 2, 3] : Fin 4 → Fin S32x128x16x128.rank)
  shapeCasts_S32x128x16x128_S4096x2048 : S32x128x16x128.ShapeCasts S4096x2048
  inb_S512x2048_S512x2048_0_0 : ∀ a, (![0, 0] : Fin 2 → Nat) a + S512x2048.size a ≤ S512x2048.size a
  h_S512x2048 : 0 < S512x2048.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  shapeCasts_S512x2048_S512x2048 : S512x2048.ShapeCasts S512x2048
  packedbf16_S512x2048_S512x2048_0_0 : (Rect.unit (s := S512x2048) ![0, 0] S512x2048.size inb_S512x2048_S512x2048_0_0).PackedRows (EltTy.packing .bf16)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  slices_S96x4_S96x1_0_0 : S96x4.Slices ![0, 0] S96x1
  shapeCasts_S96x1_S96 : S96x1.ShapeCasts S96
  bcast_S96_S96x1_0 : S96.BroadcastsInDim S96x1 (![0] : Fin 1 → Fin S96x1.rank)
  bcast_S96x1_S96x16_0_1 : S96x1.BroadcastsInDim S96x16 (![0, 1] : Fin 2 → Fin S96x16.rank)
  bcast_S1x16_S96x16_0_1 : S1x16.BroadcastsInDim S96x16 (![0, 1] : Fin 2 → Fin S96x16.rank)
  transposes_S96x16_S16x96_1_0 : S96x16.Transposes [1, 0] S16x96
  bcast_S16x96_S16x1x96x1_0_2 : S16x96.BroadcastsInDim S16x1x96x1 (![0, 2] : Fin 2 → Fin S16x1x96x1.rank)
  bcast_S16x1x96x1_S16x128x96x128_0_1_2_3 : S16x1x96x1.BroadcastsInDim S16x128x96x128 (![0, 1, 2, 3] : Fin 4 → Fin S16x128x96x128.rank)
  bcast_S1x128x1x128_S16x128x96x128_0_1_2_3 : S1x128x1x128.BroadcastsInDim S16x128x96x128 (![0, 1, 2, 3] : Fin 4 → Fin S16x128x96x128.rank)
  shapeCasts_S16x128x96x128_S2048x12288 : S16x128x96x128.ShapeCasts S2048x12288
  slices_S96x4_S96x1_0_1 : S96x4.Slices ![0, 1] S96x1
  slices_S96x4_S96x1_0_2 : S96x4.Slices ![0, 2] S96x1
  slices_S96x4_S96x1_0_3 : S96x4.Slices ![0, 3] S96x1
  bcast_S96x16_S96x1x16x1_0_2 : S96x16.BroadcastsInDim S96x1x16x1 (![0, 2] : Fin 2 → Fin S96x1x16x1.rank)
  bcast_S96x1x16x1_S96x128x16x128_0_1_2_3 : S96x1x16x1.BroadcastsInDim S96x128x16x128 (![0, 1, 2, 3] : Fin 4 → Fin S96x128x16x128.rank)
  bcast_S1x128x1x128_S96x128x16x128_0_1_2_3 : S1x128x1x128.BroadcastsInDim S96x128x16x128 (![0, 1, 2, 3] : Fin 4 → Fin S96x128x16x128.rank)
  shapeCasts_S96x128x16x128_S12288x2048 : S96x128x16x128.ShapeCasts S12288x2048
  slices_S128x5_S128x1_0_0 : S128x5.Slices ![0, 0] S128x1
  shapeCasts_S128x1_S128 : S128x1.ShapeCasts S128
  bcast_S128_S128x1_0 : S128.BroadcastsInDim S128x1 (![0] : Fin 1 → Fin S128x1.rank)
  bcast_S128x1_S128x16_0_1 : S128x1.BroadcastsInDim S128x16 (![0, 1] : Fin 2 → Fin S128x16.rank)
  bcast_S1x16_S128x16_0_1 : S1x16.BroadcastsInDim S128x16 (![0, 1] : Fin 2 → Fin S128x16.rank)
  transposes_S128x16_S16x128_1_0 : S128x16.Transposes [1, 0] S16x128
  bcast_S16x128_S16x1x128x1_0_2 : S16x128.BroadcastsInDim S16x1x128x1 (![0, 2] : Fin 2 → Fin S16x1x128x1.rank)
  bcast_S16x1x128x1_S16x128x128x128_0_1_2_3 : S16x1x128x1.BroadcastsInDim S16x128x128x128 (![0, 1, 2, 3] : Fin 4 → Fin S16x128x128x128.rank)
  bcast_S1x128x1x128_S16x128x128x128_0_1_2_3 : S1x128x1x128.BroadcastsInDim S16x128x128x128 (![0, 1, 2, 3] : Fin 4 → Fin S16x128x128x128.rank)
  shapeCasts_S16x128x128x128_S2048x16384 : S16x128x128x128.ShapeCasts S2048x16384
  slices_S128x5_S128x1_0_1 : S128x5.Slices ![0, 1] S128x1
  slices_S128x5_S128x1_0_2 : S128x5.Slices ![0, 2] S128x1
  slices_S128x5_S128x1_0_3 : S128x5.Slices ![0, 3] S128x1
  slices_S128x5_S128x1_0_4 : S128x5.Slices ![0, 4] S128x1
  bcast_S128x16_S128x1x16x1_0_2 : S128x16.BroadcastsInDim S128x1x16x1 (![0, 2] : Fin 2 → Fin S128x1x16x1.rank)
  bcast_S128x1x16x1_S128x128x16x128_0_1_2_3 : S128x1x16x1.BroadcastsInDim S128x128x16x128 (![0, 1, 2, 3] : Fin 4 → Fin S128x128x16x128.rank)
  bcast_S1x128x1x128_S128x128x16x128_0_1_2_3 : S1x128x1x128.BroadcastsInDim S128x128x16x128 (![0, 1, 2, 3] : Fin 4 → Fin S128x128x16x128.rank)
  shapeCasts_S128x128x16x128_S16384x2048 : S128x128x16x128.ShapeCasts S16384x2048
  dot_S512x64_S64x2048_S512x2048_1_0_0_1_n_n_wf : DotDims.WF S512x64 S64x2048 S512x2048 [1] [0] [0] [1] [] []
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S4096x64.size a
  hwx0_1 : ∀ i : grid0.Coords, EltTy.bits .bf16 = 32 ∨ (Rect.block (s := S4096x64) S512x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .bf16 = 32 ∨ (Rect.block (s := S64x2048) S64x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x4096.size a
  hwx0_3 : ∀ i : grid0.Coords, EltTy.bits .bf16 = 32 ∨ (Rect.block (s := S2048x4096) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x4096.size a
  hwx0_4 : ∀ i : grid0.Coords, EltTy.bits .bf16 = 32 ∨ (Rect.block (s := S2048x4096) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x2048.size a
  hwx0_5 : ∀ i : grid0.Coords, EltTy.bits .bf16 = 32 ∨ (Rect.block (s := S4096x2048) S256x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S4096x2048.size a
  hwx0_6 : ∀ i : grid0.Coords, EltTy.bits .f32 = 32 ∨ (Rect.block (s := S4096x2048) S512x2048.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .bf16 = 32 ∨ (Rect.block (s := S4096x2048) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S4096x64.size a
  hwx1_1 : ∀ i : grid1.Coords, EltTy.bits .bf16 = 32 ∨ (Rect.block (s := S4096x64) S512x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x2048.size a ≤ S64x2048.size a
  hwx1_2 : ∀ i : grid1.Coords, EltTy.bits .bf16 = 32 ∨ (Rect.block (s := S64x2048) S64x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S2048x12288.size a
  hwx1_3 : ∀ i : grid1.Coords, EltTy.bits .bf16 = 32 ∨ (Rect.block (s := S2048x12288) S2048x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S2048x12288.size a
  hwx1_4 : ∀ i : grid1.Coords, EltTy.bits .bf16 = 32 ∨ (Rect.block (s := S2048x12288) S2048x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x256.size a ≤ S2048x12288.size a
  hwx1_5 : ∀ i : grid1.Coords, EltTy.bits .bf16 = 32 ∨ (Rect.block (s := S2048x12288) S2048x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x2048.size a ≤ S12288x2048.size a
  hwx1_6 : ∀ i : grid1.Coords, EltTy.bits .bf16 = 32 ∨ (Rect.block (s := S12288x2048) S256x2048.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x2048.size a ≤ S4096x2048.size a
  hwx1_7 : ∀ i : grid1.Coords, EltTy.bits .f32 = 32 ∨ (Rect.block (s := S4096x2048) S512x2048.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .bf16 = 32 ∨ (Rect.block (s := S4096x2048) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S4096x64.size a
  hwx2_1 : ∀ i : grid2.Coords, EltTy.bits .bf16 = 32 ∨ (Rect.block (s := S4096x64) S512x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x2048.size a ≤ S64x2048.size a
  hwx2_2 : ∀ i : grid2.Coords, EltTy.bits .bf16 = 32 ∨ (Rect.block (s := S64x2048) S64x2048.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S2048x16384.size a
  hwx2_3 : ∀ i : grid2.Coords, EltTy.bits .bf16 = 32 ∨ (Rect.block (s := S2048x16384) S2048x256.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x256.size a ≤ S2048x16384.size a
  hwx2_4 : ∀ i : grid2.Coords, EltTy.bits .bf16 = 32 ∨ (Rect.block (s := S2048x16384) S2048x256.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x256.size a ≤ S2048x16384.size a
  hwx2_5 : ∀ i : grid2.Coords, EltTy.bits .bf16 = 32 ∨ (Rect.block (s := S2048x16384) S2048x256.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x256.size a ≤ S2048x16384.size a
  hwx2_6 : ∀ i : grid2.Coords, EltTy.bits .bf16 = 32 ∨ (Rect.block (s := S2048x16384) S2048x256.size (cc2_transform_6 i) (hinb2_6 i)).WholeWords (EltTy.packing .bf16)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x2048.size a ≤ S16384x2048.size a
  hwx2_7 : ∀ i : grid2.Coords, EltTy.bits .bf16 = 32 ∨ (Rect.block (s := S16384x2048) S256x2048.size (cc2_transform_7 i) (hinb2_7 i)).WholeWords (EltTy.packing .bf16)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S512x2048.size a ≤ S4096x2048.size a
  hwx2_8 : ∀ i : grid2.Coords, EltTy.bits .f32 = 32 ∨ (Rect.block (s := S4096x2048) S512x2048.size (cc2_transform_8 i) (hinb2_8 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v30) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S64x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S2048x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v49) S2048x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v58) S2048x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v63) S256x2048.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v64) S512x2048.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v0) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S512x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S64x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77) S2048x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v83) S2048x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v89) S2048x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v98) S2048x256.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v103) S256x2048.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v104) S512x2048.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S64x2048 : Shape := ⟨2, ![64, 2048]⟩
abbrev S4096x2048 : Shape := ⟨2, ![4096, 2048]⟩
abbrev S32 : Shape := ⟨1, ![32]⟩
abbrev S96 : Shape := ⟨1, ![96]⟩
abbrev S128 : Shape := ⟨1, ![128]⟩
abbrev S4096 : Shape := ⟨1, ![4096]⟩
abbrev S32x3 : Shape := ⟨2, ![32, 3]⟩
abbrev S96x4 : Shape := ⟨2, ![96, 4]⟩
abbrev S128x5 : Shape := ⟨2, ![128, 5]⟩
abbrev S64x16x128 : Shape := ⟨3, ![64, 16, 128]⟩
abbrev S4096x16x128 : Shape := ⟨3, ![4096, 16, 128]⟩
abbrev S_ : Shape := ⟨0, ![]⟩
abbrev S4096x1 : Shape := ⟨2, ![4096, 1]⟩
abbrev S32x1 : Shape := ⟨2, ![32, 1]⟩
abbrev S1 : Shape := ⟨1, ![1]⟩
abbrev S1x1 : Shape := ⟨2, ![1, 1]⟩
abbrev S4096x32x128 : Shape := ⟨3, ![4096, 32, 128]⟩
abbrev S1x32x1 : Shape := ⟨3, ![1, 32, 1]⟩
abbrev S32x4096x128 : Shape := ⟨3, ![32, 4096, 128]⟩
abbrev S16x4096x128 : Shape := ⟨3, ![16, 4096, 128]⟩
abbrev S96x1 : Shape := ⟨2, ![96, 1]⟩
abbrev S4096x96x128 : Shape := ⟨3, ![4096, 96, 128]⟩
abbrev S1x96x1 : Shape := ⟨3, ![1, 96, 1]⟩
abbrev S96x4096x128 : Shape := ⟨3, ![96, 4096, 128]⟩
abbrev S128x1 : Shape := ⟨2, ![128, 1]⟩
abbrev S4096x128x128 : Shape := ⟨3, ![4096, 128, 128]⟩
abbrev S1x128x1 : Shape := ⟨3, ![1, 128, 1]⟩
abbrev S128x4096x128 : Shape := ⟨3, ![128, 4096, 128]⟩

abbrev nBuf : Space → Nat
  | .hbm => 290
  | .vmem => 0
  | .smem => 0
  | _ => 0

abbrev hbmTy0_0 (i : Nat) : BufTy := match i % 128 with
  | 0 => ⟨S64x2048, .f32⟩
  | 1 => ⟨S4096x2048, .f32⟩
  | 2 => ⟨S32, .f32⟩
  | 3 => ⟨S96, .f32⟩
  | 4 => ⟨S128, .f32⟩
  | 5 => ⟨S4096, .i32⟩
  | 6 => ⟨S32x3, .i32⟩
  | 7 => ⟨S96x4, .i32⟩
  | 8 => ⟨S128x5, .i32⟩
  | 9 => ⟨S64x16x128, .f32⟩
  | 10 => ⟨S4096x16x128, .f32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S4096x1, .i32⟩
  | 19 => ⟨S4096x16x128, .f32⟩
  | 20 => ⟨S_, .f32⟩
  | 21 => ⟨S4096x16x128, .f32⟩
  | 22 => ⟨S32x1, .i32⟩
  | 23 => ⟨S32, .i32⟩
  | 24 => ⟨S_, .i32⟩
  | 25 => ⟨S32, .i32⟩
  | 26 => ⟨S32, .i1⟩
  | 27 => ⟨S_, .i32⟩
  | 28 => ⟨S32, .i32⟩
  | 29 => ⟨S32, .i32⟩
  | 30 => ⟨S32, .i32⟩
  | 31 => ⟨S32x1, .i32⟩
  | 32 => ⟨S1, .i32⟩
  | 33 => ⟨S_, .i32⟩
  | 34 => ⟨S32x1, .i32⟩
  | 35 => ⟨S32x1, .i1⟩
  | 36 => ⟨S1x1, .i32⟩
  | 37 => ⟨S32x1, .i32⟩
  | 38 => ⟨S32x1, .i1⟩
  | 39 => ⟨S32x1, .i1⟩
  | 40 => ⟨S_, .i1⟩
  | 41 => ⟨S32, .i1⟩
  | 42 => ⟨S4096x32x128, .f32⟩
  | 43 => ⟨S4096x32x128, .i1⟩
  | 44 => ⟨S_, .f32⟩
  | 45 => ⟨S4096x32x128, .f32⟩
  | 46 => ⟨S4096x32x128, .f32⟩
  | 47 => ⟨S1x32x1, .f32⟩
  | 48 => ⟨S4096x32x128, .f32⟩
  | 49 => ⟨S4096x32x128, .f32⟩
  | 50 => ⟨S32x1, .i32⟩
  | 51 => ⟨S32, .i32⟩
  | 52 => ⟨S_, .i32⟩
  | 53 => ⟨S32, .i32⟩
  | 54 => ⟨S32, .i1⟩
  | 55 => ⟨S_, .i32⟩
  | 56 => ⟨S32, .i32⟩
  | 57 => ⟨S32, .i32⟩
  | 58 => ⟨S32, .i32⟩
  | 59 => ⟨S32x1, .i32⟩
  | 60 => ⟨S1, .i32⟩
  | 61 => ⟨S_, .i32⟩
  | 62 => ⟨S32x1, .i32⟩
  | 63 => ⟨S32x1, .i1⟩
  | 64 => ⟨S1x1, .i32⟩
  | 65 => ⟨S32x1, .i32⟩
  | 66 => ⟨S32x1, .i1⟩
  | 67 => ⟨S32x1, .i1⟩
  | 68 => ⟨S_, .i1⟩
  | 69 => ⟨S32, .i1⟩
  | 70 => ⟨S4096x32x128, .f32⟩
  | 71 => ⟨S4096x32x128, .i1⟩
  | 72 => ⟨S_, .f32⟩
  | 73 => ⟨S4096x32x128, .f32⟩
  | 74 => ⟨S4096x32x128, .f32⟩
  | 75 => ⟨S4096x32x128, .f32⟩
  | 76 => ⟨S32x4096x128, .f32⟩
  | 77 => ⟨S32x1, .i32⟩
  | 78 => ⟨S32, .i32⟩
  | 79 => ⟨S_, .f32⟩
  | 80 => ⟨S16x4096x128, .f32⟩
  | 81 => ⟨S32x1, .i32⟩
  | 82 => ⟨S16x4096x128, .f32⟩
  | 83 => ⟨S4096x16x128, .f32⟩
  | 84 => ⟨S4096x16x128, .f32⟩
  | 85 => ⟨S96x1, .i32⟩
  | 86 => ⟨S96, .i32⟩
  | 87 => ⟨S_, .i32⟩
  | 88 => ⟨S96, .i32⟩
  | 89 => ⟨S96, .i1⟩
  | 90 => ⟨S_, .i32⟩
  | 91 => ⟨S96, .i32⟩
  | 92 => ⟨S96, .i32⟩
  | 93 => ⟨S96, .i32⟩
  | 94 => ⟨S96x1, .i32⟩
  | 95 => ⟨S1, .i32⟩
  | 96 => ⟨S_, .i32⟩
  | 97 => ⟨S96x1, .i32⟩
  | 98 => ⟨S96x1, .i1⟩
  | 99 => ⟨S1x1, .i32⟩
  | 100 => ⟨S96x1, .i32⟩
  | 101 => ⟨S96x1, .i1⟩
  | 102 => ⟨S96x1, .i1⟩
  | 103 => ⟨S_, .i1⟩
  | 104 => ⟨S96, .i1⟩
  | 105 => ⟨S4096x96x128, .f32⟩
  | 106 => ⟨S4096x96x128, .i1⟩
  | 107 => ⟨S_, .f32⟩
  | 108 => ⟨S4096x96x128, .f32⟩
  | 109 => ⟨S4096x96x128, .f32⟩
  | 110 => ⟨S1x96x1, .f32⟩
  | 111 => ⟨S4096x96x128, .f32⟩
  | 112 => ⟨S4096x96x128, .f32⟩
  | 113 => ⟨S96x1, .i32⟩
  | 114 => ⟨S96, .i32⟩
  | 115 => ⟨S_, .i32⟩
  | 116 => ⟨S96, .i32⟩
  | 117 => ⟨S96, .i1⟩
  | 118 => ⟨S_, .i32⟩
  | 119 => ⟨S96, .i32⟩
  | 120 => ⟨S96, .i32⟩
  | 121 => ⟨S96, .i32⟩
  | 122 => ⟨S96x1, .i32⟩
  | 123 => ⟨S1, .i32⟩
  | 124 => ⟨S_, .i32⟩
  | 125 => ⟨S96x1, .i32⟩
  | 126 => ⟨S96x1, .i1⟩
  | 127 => ⟨S1x1, .i32⟩
  | _ => ⟨S64x2048, .f32⟩

abbrev hbmTy0_1 (i : Nat) : BufTy := match i % 128 with
  | 0 => ⟨S96x1, .i32⟩
  | 1 => ⟨S96x1, .i1⟩
  | 2 => ⟨S96x1, .i1⟩
  | 3 => ⟨S_, .i1⟩
  | 4 => ⟨S96, .i1⟩
  | 5 => ⟨S4096x96x128, .f32⟩
  | 6 => ⟨S4096x96x128, .i1⟩
  | 7 => ⟨S_, .f32⟩
  | 8 => ⟨S4096x96x128, .f32⟩
  | 9 => ⟨S4096x96x128, .f32⟩
  | 10 => ⟨S4096x96x128, .f32⟩
  | 11 => ⟨S96x1, .i32⟩
  | 12 => ⟨S96, .i32⟩
  | 13 => ⟨S_, .i32⟩
  | 14 => ⟨S96, .i32⟩
  | 15 => ⟨S96, .i1⟩
  | 16 => ⟨S_, .i32⟩
  | 17 => ⟨S96, .i32⟩
  | 18 => ⟨S96, .i32⟩
  | 19 => ⟨S96, .i32⟩
  | 20 => ⟨S96x1, .i32⟩
  | 21 => ⟨S1, .i32⟩
  | 22 => ⟨S_, .i32⟩
  | 23 => ⟨S96x1, .i32⟩
  | 24 => ⟨S96x1, .i1⟩
  | 25 => ⟨S1x1, .i32⟩
  | 26 => ⟨S96x1, .i32⟩
  | 27 => ⟨S96x1, .i1⟩
  | 28 => ⟨S96x1, .i1⟩
  | 29 => ⟨S_, .i1⟩
  | 30 => ⟨S96, .i1⟩
  | 31 => ⟨S4096x96x128, .f32⟩
  | 32 => ⟨S4096x96x128, .i1⟩
  | 33 => ⟨S_, .f32⟩
  | 34 => ⟨S4096x96x128, .f32⟩
  | 35 => ⟨S4096x96x128, .f32⟩
  | 36 => ⟨S4096x96x128, .f32⟩
  | 37 => ⟨S96x4096x128, .f32⟩
  | 38 => ⟨S96x1, .i32⟩
  | 39 => ⟨S96, .i32⟩
  | 40 => ⟨S_, .f32⟩
  | 41 => ⟨S16x4096x128, .f32⟩
  | 42 => ⟨S96x1, .i32⟩
  | 43 => ⟨S16x4096x128, .f32⟩
  | 44 => ⟨S4096x16x128, .f32⟩
  | 45 => ⟨S4096x16x128, .f32⟩
  | 46 => ⟨S128x1, .i32⟩
  | 47 => ⟨S128, .i32⟩
  | 48 => ⟨S_, .i32⟩
  | 49 => ⟨S128, .i32⟩
  | 50 => ⟨S128, .i1⟩
  | 51 => ⟨S_, .i32⟩
  | 52 => ⟨S128, .i32⟩
  | 53 => ⟨S128, .i32⟩
  | 54 => ⟨S128, .i32⟩
  | 55 => ⟨S128x1, .i32⟩
  | 56 => ⟨S1, .i32⟩
  | 57 => ⟨S_, .i32⟩
  | 58 => ⟨S128x1, .i32⟩
  | 59 => ⟨S128x1, .i1⟩
  | 60 => ⟨S1x1, .i32⟩
  | 61 => ⟨S128x1, .i32⟩
  | 62 => ⟨S128x1, .i1⟩
  | 63 => ⟨S128x1, .i1⟩
  | 64 => ⟨S_, .i1⟩
  | 65 => ⟨S128, .i1⟩
  | 66 => ⟨S4096x128x128, .f32⟩
  | 67 => ⟨S4096x128x128, .i1⟩
  | 68 => ⟨S_, .f32⟩
  | 69 => ⟨S4096x128x128, .f32⟩
  | 70 => ⟨S4096x128x128, .f32⟩
  | 71 => ⟨S1x128x1, .f32⟩
  | 72 => ⟨S4096x128x128, .f32⟩
  | 73 => ⟨S4096x128x128, .f32⟩
  | 74 => ⟨S128x1, .i32⟩
  | 75 => ⟨S128, .i32⟩
  | 76 => ⟨S_, .i32⟩
  | 77 => ⟨S128, .i32⟩
  | 78 => ⟨S128, .i1⟩
  | 79 => ⟨S_, .i32⟩
  | 80 => ⟨S128, .i32⟩
  | 81 => ⟨S128, .i32⟩
  | 82 => ⟨S128, .i32⟩
  | 83 => ⟨S128x1, .i32⟩
  | 84 => ⟨S1, .i32⟩
  | 85 => ⟨S_, .i32⟩
  | 86 => ⟨S128x1, .i32⟩
  | 87 => ⟨S128x1, .i1⟩
  | 88 => ⟨S1x1, .i32⟩
  | 89 => ⟨S128x1, .i32⟩
  | 90 => ⟨S128x1, .i1⟩
  | 91 => ⟨S128x1, .i1⟩
  | 92 => ⟨S_, .i1⟩
  | 93 => ⟨S128, .i1⟩
  | 94 => ⟨S4096x128x128, .f32⟩
  | 95 => ⟨S4096x128x128, .i1⟩
  | 96 => ⟨S_, .f32⟩
  | 97 => ⟨S4096x128x128, .f32⟩
  | 98 => ⟨S4096x128x128, .f32⟩
  | 99 => ⟨S4096x128x128, .f32⟩
  | 100 => ⟨S128x1, .i32⟩
  | 101 => ⟨S128, .i32⟩
  | 102 => ⟨S_, .i32⟩
  | 103 => ⟨S128, .i32⟩
  | 104 => ⟨S128, .i1⟩
  | 105 => ⟨S_, .i32⟩
  | 106 => ⟨S128, .i32⟩
  | 107 => ⟨S128, .i32⟩
  | 108 => ⟨S128, .i32⟩
  | 109 => ⟨S128x1, .i32⟩
  | 110 => ⟨S1, .i32⟩
  | 111 => ⟨S_, .i32⟩
  | 112 => ⟨S128x1, .i32⟩
  | 113 => ⟨S128x1, .i1⟩
  | 114 => ⟨S1x1, .i32⟩
  | 115 => ⟨S128x1, .i32⟩
  | 116 => ⟨S128x1, .i1⟩
  | 117 => ⟨S128x1, .i1⟩
  | 118 => ⟨S_, .i1⟩
  | 119 => ⟨S128, .i1⟩
  | 120 => ⟨S4096x128x128, .f32⟩
  | 121 => ⟨S4096x128x128, .i1⟩
  | 122 => ⟨S_, .f32⟩
  | 123 => ⟨S4096x128x128, .f32⟩
  | 124 => ⟨S4096x128x128, .f32⟩
  | 125 => ⟨S4096x128x128, .f32⟩
  | 126 => ⟨S128x1, .i32⟩
  | 127 => ⟨S128, .i32⟩
  | _ => ⟨S64x2048, .f32⟩

abbrev hbmTy0_2 (i : Nat) : BufTy := match i % 128 with
  | 0 => ⟨S_, .i32⟩
  | 1 => ⟨S128, .i32⟩
  | 2 => ⟨S128, .i1⟩
  | 3 => ⟨S_, .i32⟩
  | 4 => ⟨S128, .i32⟩
  | 5 => ⟨S128, .i32⟩
  | 6 => ⟨S128, .i32⟩
  | 7 => ⟨S128x1, .i32⟩
  | 8 => ⟨S1, .i32⟩
  | 9 => ⟨S_, .i32⟩
  | 10 => ⟨S128x1, .i32⟩
  | 11 => ⟨S128x1, .i1⟩
  | 12 => ⟨S1x1, .i32⟩
  | 13 => ⟨S128x1, .i32⟩
  | 14 => ⟨S128x1, .i1⟩
  | 15 => ⟨S128x1, .i1⟩
  | 16 => ⟨S_, .i1⟩
  | 17 => ⟨S128, .i1⟩
  | 18 => ⟨S4096x128x128, .f32⟩
  | 19 => ⟨S4096x128x128, .i1⟩
  | 20 => ⟨S_, .f32⟩
  | 21 => ⟨S4096x128x128, .f32⟩
  | 22 => ⟨S4096x128x128, .f32⟩
  | 23 => ⟨S4096x128x128, .f32⟩
  | 24 => ⟨S128x4096x128, .f32⟩
  | 25 => ⟨S128x1, .i32⟩
  | 26 => ⟨S128, .i32⟩
  | 27 => ⟨S_, .f32⟩
  | 28 => ⟨S16x4096x128, .f32⟩
  | 29 => ⟨S128x1, .i32⟩
  | 30 => ⟨S16x4096x128, .f32⟩
  | 31 => ⟨S4096x16x128, .f32⟩
  | 32 => ⟨S4096x16x128, .f32⟩
  | 33 => ⟨S4096x2048, .f32⟩
  | _ => ⟨S64x2048, .f32⟩

abbrev hbmTy (i : Nat) : BufTy := match i / 128 with
  | 0 => hbmTy0_0 i
  | 1 => hbmTy0_1 i
  | 2 => hbmTy0_2 i
  | _ => ⟨S64x2048, .f32⟩

abbrev bufTy : (tb : Table) → Fin (tcTables nBuf tb) → BufTy
  | .hbm, ⟨i, _⟩ => hbmTy i
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_cst_1 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_call3_c : Ref sig .tc := ⟨.hbm, 115, rfl⟩
abbrev main_call3_v0 : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_c_1 : Ref sig .tc := ⟨.hbm, 123, rfl⟩
abbrev main_call3_c_2 : Ref sig .tc := ⟨.hbm, 124, rfl⟩
abbrev main_call3_v6 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_call3_c_3 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_call3_cst : Ref sig .tc := ⟨.hbm, 135, rfl⟩
abbrev main_call3_v15 : Ref sig .tc := ⟨.hbm, 136, rfl⟩
abbrev main_v36 : Ref sig .tc := ⟨.hbm, 137, rfl⟩
abbrev main_v37 : Ref sig .tc := ⟨.hbm, 138, rfl⟩
abbrev main_v38 : Ref sig .tc := ⟨.hbm, 139, rfl⟩
abbrev main_v39 : Ref sig .tc := ⟨.hbm, 140, rfl⟩
abbrev main_call4_c : Ref sig .tc := ⟨.hbm, 141, rfl⟩
abbrev main_call4_v0 : Ref sig .tc := ⟨.hbm, 142, rfl⟩
abbrev main_call4_v1 : Ref sig .tc := ⟨.hbm, 143, rfl⟩
abbrev main_call4_c_0 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_call4_v5 : Ref sig .tc := ⟨.hbm, 148, rfl⟩
abbrev main_call4_c_1 : Ref sig .tc := ⟨.hbm, 149, rfl⟩
abbrev main_call4_c_2 : Ref sig .tc := ⟨.hbm, 150, rfl⟩
abbrev main_call4_v6 : Ref sig .tc := ⟨.hbm, 151, rfl⟩
abbrev main_call4_v7 : Ref sig .tc := ⟨.hbm, 152, rfl⟩
abbrev main_call4_v8 : Ref sig .tc := ⟨.hbm, 153, rfl⟩
abbrev main_call4_v9 : Ref sig .tc := ⟨.hbm, 154, rfl⟩
abbrev main_call4_v10 : Ref sig .tc := ⟨.hbm, 155, rfl⟩
abbrev main_call4_v11 : Ref sig .tc := ⟨.hbm, 156, rfl⟩
abbrev main_call4_c_3 : Ref sig .tc := ⟨.hbm, 157, rfl⟩
abbrev main_call4_v12 : Ref sig .tc := ⟨.hbm, 158, rfl⟩
abbrev main_call4_v13 : Ref sig .tc := ⟨.hbm, 159, rfl⟩
abbrev main_call4_v14 : Ref sig .tc := ⟨.hbm, 160, rfl⟩
abbrev main_call4_cst : Ref sig .tc := ⟨.hbm, 161, rfl⟩
abbrev main_call4_v15 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_v43 : Ref sig .tc := ⟨.hbm, 166, rfl⟩
abbrev main_v44 : Ref sig .tc := ⟨.hbm, 167, rfl⟩
abbrev main_cst_2 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_call5_c : Ref sig .tc := ⟨.hbm, 176, rfl⟩
abbrev main_call5_v0 : Ref sig .tc := ⟨.hbm, 177, rfl⟩
abbrev main_call5_v1 : Ref sig .tc := ⟨.hbm, 178, rfl⟩
abbrev main_call5_c_0 : Ref sig .tc := ⟨.hbm, 179, rfl⟩
abbrev main_call5_v2 : Ref sig .tc := ⟨.hbm, 180, rfl⟩
abbrev main_call5_v3 : Ref sig .tc := ⟨.hbm, 181, rfl⟩
abbrev main_call5_v4 : Ref sig .tc := ⟨.hbm, 182, rfl⟩
abbrev main_call5_v5 : Ref sig .tc := ⟨.hbm, 183, rfl⟩
abbrev main_call5_c_1 : Ref sig .tc := ⟨.hbm, 184, rfl⟩
abbrev main_call5_c_2 : Ref sig .tc := ⟨.hbm, 185, rfl⟩
abbrev main_call5_v6 : Ref sig .tc := ⟨.hbm, 186, rfl⟩
abbrev main_call5_v7 : Ref sig .tc := ⟨.hbm, 187, rfl⟩
abbrev main_call5_v8 : Ref sig .tc := ⟨.hbm, 188, rfl⟩
abbrev main_call5_v9 : Ref sig .tc := ⟨.hbm, 189, rfl⟩
abbrev main_call5_v10 : Ref sig .tc := ⟨.hbm, 190, rfl⟩
abbrev main_call5_v11 : Ref sig .tc := ⟨.hbm, 191, rfl⟩
abbrev main_call5_c_3 : Ref sig .tc := ⟨.hbm, 192, rfl⟩
abbrev main_call5_v12 : Ref sig .tc := ⟨.hbm, 193, rfl⟩
abbrev main_call5_v13 : Ref sig .tc := ⟨.hbm, 194, rfl⟩
abbrev main_call5_v14 : Ref sig .tc := ⟨.hbm, 195, rfl⟩
abbrev main_call5_cst : Ref sig .tc := ⟨.hbm, 196, rfl⟩
abbrev main_call5_v15 : Ref sig .tc := ⟨.hbm, 197, rfl⟩
abbrev main_v52 : Ref sig .tc := ⟨.hbm, 198, rfl⟩
abbrev main_v53 : Ref sig .tc := ⟨.hbm, 199, rfl⟩
abbrev main_v54 : Ref sig .tc := ⟨.hbm, 200, rfl⟩
abbrev main_v55 : Ref sig .tc := ⟨.hbm, 201, rfl⟩
abbrev main_v56 : Ref sig .tc := ⟨.hbm, 202, rfl⟩
abbrev main_v57 : Ref sig .tc := ⟨.hbm, 203, rfl⟩
abbrev main_call6_c : Ref sig .tc := ⟨.hbm, 204, rfl⟩
abbrev main_call6_v0 : Ref sig .tc := ⟨.hbm, 205, rfl⟩
abbrev main_call6_v1 : Ref sig .tc := ⟨.hbm, 206, rfl⟩
abbrev main_call6_c_0 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_call6_v5 : Ref sig .tc := ⟨.hbm, 211, rfl⟩
abbrev main_call6_c_1 : Ref sig .tc := ⟨.hbm, 212, rfl⟩
abbrev main_call6_c_2 : Ref sig .tc := ⟨.hbm, 213, rfl⟩
abbrev main_call6_v6 : Ref sig .tc := ⟨.hbm, 214, rfl⟩
abbrev main_call6_v7 : Ref sig .tc := ⟨.hbm, 215, rfl⟩
abbrev main_call6_v8 : Ref sig .tc := ⟨.hbm, 216, rfl⟩
abbrev main_call6_v9 : Ref sig .tc := ⟨.hbm, 217, rfl⟩
abbrev main_call6_v10 : Ref sig .tc := ⟨.hbm, 218, rfl⟩
abbrev main_call6_v11 : Ref sig .tc := ⟨.hbm, 219, rfl⟩
abbrev main_call6_c_3 : Ref sig .tc := ⟨.hbm, 220, rfl⟩
abbrev main_call6_v12 : Ref sig .tc := ⟨.hbm, 221, rfl⟩
abbrev main_call6_v13 : Ref sig .tc := ⟨.hbm, 222, rfl⟩
abbrev main_call6_v14 : Ref sig .tc := ⟨.hbm, 223, rfl⟩
abbrev main_call6_cst : Ref sig .tc := ⟨.hbm, 224, rfl⟩
abbrev main_call6_v15 : Ref sig .tc := ⟨.hbm, 225, rfl⟩
abbrev main_v58 : Ref sig .tc := ⟨.hbm, 226, rfl⟩
abbrev main_v59 : Ref sig .tc := ⟨.hbm, 227, rfl⟩
abbrev main_v60 : Ref sig .tc := ⟨.hbm, 228, rfl⟩
abbrev main_v61 : Ref sig .tc := ⟨.hbm, 229, rfl⟩
abbrev main_call7_c : Ref sig .tc := ⟨.hbm, 230, rfl⟩
abbrev main_call7_v0 : Ref sig .tc := ⟨.hbm, 231, rfl⟩
abbrev main_call7_v1 : Ref sig .tc := ⟨.hbm, 232, rfl⟩
abbrev main_call7_c_0 : Ref sig .tc := ⟨.hbm, 233, rfl⟩
abbrev main_call7_v2 : Ref sig .tc := ⟨.hbm, 234, rfl⟩
abbrev main_call7_v3 : Ref sig .tc := ⟨.hbm, 235, rfl⟩
abbrev main_call7_v4 : Ref sig .tc := ⟨.hbm, 236, rfl⟩
abbrev main_call7_v5 : Ref sig .tc := ⟨.hbm, 237, rfl⟩
abbrev main_call7_c_1 : Ref sig .tc := ⟨.hbm, 238, rfl⟩
abbrev main_call7_c_2 : Ref sig .tc := ⟨.hbm, 239, rfl⟩
abbrev main_call7_v6 : Ref sig .tc := ⟨.hbm, 240, rfl⟩
abbrev main_call7_v7 : Ref sig .tc := ⟨.hbm, 241, rfl⟩
abbrev main_call7_v8 : Ref sig .tc := ⟨.hbm, 242, rfl⟩
abbrev main_call7_v9 : Ref sig .tc := ⟨.hbm, 243, rfl⟩
abbrev main_call7_v10 : Ref sig .tc := ⟨.hbm, 244, rfl⟩
abbrev main_call7_v11 : Ref sig .tc := ⟨.hbm, 245, rfl⟩
abbrev main_call7_c_3 : Ref sig .tc := ⟨.hbm, 246, rfl⟩
abbrev main_call7_v12 : Ref sig .tc := ⟨.hbm, 247, rfl⟩
abbrev main_call7_v13 : Ref sig .tc := ⟨.hbm, 248, rfl⟩
abbrev main_call7_v14 : Ref sig .tc := ⟨.hbm, 249, rfl⟩
abbrev main_call7_cst : Ref sig .tc := ⟨.hbm, 250, rfl⟩
abbrev main_call7_v15 : Ref sig .tc := ⟨.hbm, 251, rfl⟩
abbrev main_v62 : Ref sig .tc := ⟨.hbm, 252, rfl⟩
abbrev main_v63 : Ref sig .tc := ⟨.hbm, 253, rfl⟩
abbrev main_v64 : Ref sig .tc := ⟨.hbm, 254, rfl⟩
abbrev main_v65 : Ref sig .tc := ⟨.hbm, 255, rfl⟩
abbrev main_call8_c : Ref sig .tc := ⟨.hbm, 256, rfl⟩
abbrev main_call8_v0 : Ref sig .tc := ⟨.hbm, 257, rfl⟩
abbrev main_call8_v1 : Ref sig .tc := ⟨.hbm, 258, rfl⟩
abbrev main_call8_c_0 : Ref sig .tc := ⟨.hbm, 259, rfl⟩
abbrev main_call8_v2 : Ref sig .tc := ⟨.hbm, 260, rfl⟩
abbrev main_call8_v3 : Ref sig .tc := ⟨.hbm, 261, rfl⟩
abbrev main_call8_v4 : Ref sig .tc := ⟨.hbm, 262, rfl⟩
abbrev main_call8_v5 : Ref sig .tc := ⟨.hbm, 263, rfl⟩
abbrev main_call8_c_1 : Ref sig .tc := ⟨.hbm, 264, rfl⟩
abbrev main_call8_c_2 : Ref sig .tc := ⟨.hbm, 265, rfl⟩
abbrev main_call8_v6 : Ref sig .tc := ⟨.hbm, 266, rfl⟩
abbrev main_call8_v7 : Ref sig .tc := ⟨.hbm, 267, rfl⟩
abbrev main_call8_v8 : Ref sig .tc := ⟨.hbm, 268, rfl⟩
abbrev main_call8_v9 : Ref sig .tc := ⟨.hbm, 269, rfl⟩
abbrev main_call8_v10 : Ref sig .tc := ⟨.hbm, 270, rfl⟩
abbrev main_call8_v11 : Ref sig .tc := ⟨.hbm, 271, rfl⟩
abbrev main_call8_c_3 : Ref sig .tc := ⟨.hbm, 272, rfl⟩
abbrev main_call8_v12 : Ref sig .tc := ⟨.hbm, 273, rfl⟩
abbrev main_call8_v13 : Ref sig .tc := ⟨.hbm, 274, rfl⟩
abbrev main_call8_v14 : Ref sig .tc := ⟨.hbm, 275, rfl⟩
abbrev main_call8_cst : Ref sig .tc := ⟨.hbm, 276, rfl⟩
abbrev main_call8_v15 : Ref sig .tc := ⟨.hbm, 277, rfl⟩
abbrev main_v66 : Ref sig .tc := ⟨.hbm, 278, rfl⟩
abbrev main_v67 : Ref sig .tc := ⟨.hbm, 279, rfl⟩
abbrev main_v68 : Ref sig .tc := ⟨.hbm, 280, rfl⟩
abbrev main_v69 : Ref sig .tc := ⟨.hbm, 281, rfl⟩
abbrev main_v70 : Ref sig .tc := ⟨.hbm, 282, rfl⟩
abbrev main_cst_3 : Ref sig .tc := ⟨.hbm, 283, rfl⟩
abbrev main_v71 : Ref sig .tc := ⟨.hbm, 284, rfl⟩
abbrev main_v72 : Ref sig .tc := ⟨.hbm, 285, rfl⟩
abbrev main_v73 : Ref sig .tc := ⟨.hbm, 286, rfl⟩
abbrev main_v74 : Ref sig .tc := ⟨.hbm, 287, rfl⟩
abbrev main_v75 : Ref sig .tc := ⟨.hbm, 288, rfl⟩
abbrev main_v76 : Ref sig .tc := ⟨.hbm, 289, rfl⟩

abbrev nD : Nat := 1
abbrev τ : Topo := Topo.v7x

variable {F : FTy → Type} [FloatOps F]

class Facts₀ : Prop where
  shapeCasts_S64x2048_S64x16x128 : S64x2048.ShapeCasts S64x16x128
  shapeCasts_S4096x2048_S4096x16x128 : S4096x2048.ShapeCasts S4096x16x128
  bcast_S_S4096 : S_.BroadcastsInDim S4096 (![] : Fin 0 → Fin S4096.rank)
  bcast_S4096_S4096x1_0 : S4096.BroadcastsInDim S4096x1 (![0] : Fin 1 → Fin S4096x1.rank)
  bcast_S_S4096x16x128 : S_.BroadcastsInDim S4096x16x128 (![] : Fin 0 → Fin S4096x16x128.rank)
  slices_S32x3_S32x1_0_1 : S32x3.Slices ![0, 1] S32x1
  shapeCasts_S32x1_S32 : S32x1.ShapeCasts S32
  bcast_S_S32 : S_.BroadcastsInDim S32 (![] : Fin 0 → Fin S32.rank)
  bcast_S32_S32x1_0 : S32.BroadcastsInDim S32x1 (![0] : Fin 1 → Fin S32x1.rank)
  bcast_S_S32x1 : S_.BroadcastsInDim S32x1 (![] : Fin 0 → Fin S32x1.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  reducesTo_S32x1_S32_d1 : S32x1.ReducesTo [1] S32
  h_S_ : 0 < S_.numel
  bcast_S32_S4096x32x128_1 : S32.BroadcastsInDim S4096x32x128 (![1] : Fin 1 → Fin S4096x32x128.rank)
  bcast_S_S4096x32x128 : S_.BroadcastsInDim S4096x32x128 (![] : Fin 0 → Fin S4096x32x128.rank)
  bcast_S32_S1x32x1_1 : S32.BroadcastsInDim S1x32x1 (![1] : Fin 1 → Fin S1x32x1.rank)
  bcast_S1x32x1_S4096x32x128_0_1_2 : S1x32x1.BroadcastsInDim S4096x32x128 (![0, 1, 2] : Fin 3 → Fin S4096x32x128.rank)
  slices_S32x3_S32x1_0_0 : S32x3.Slices ![0, 0] S32x1
  transposes_S4096x32x128_S32x4096x128_1_0_2 : S4096x32x128.Transposes [1, 0, 2] S32x4096x128
  slices_S32x3_S32x1_0_2 : S32x3.Slices ![0, 2] S32x1
  bcast_S_S16x4096x128 : S_.BroadcastsInDim S16x4096x128 (![] : Fin 0 → Fin S16x4096x128.rank)
  transposes_S16x4096x128_S4096x16x128_1_0_2 : S16x4096x128.Transposes [1, 0, 2] S4096x16x128
  slices_S96x4_S96x1_0_2 : S96x4.Slices ![0, 2] S96x1
  shapeCasts_S96x1_S96 : S96x1.ShapeCasts S96
  bcast_S_S96 : S_.BroadcastsInDim S96 (![] : Fin 0 → Fin S96.rank)
  bcast_S96_S96x1_0 : S96.BroadcastsInDim S96x1 (![0] : Fin 1 → Fin S96x1.rank)
  bcast_S_S96x1 : S_.BroadcastsInDim S96x1 (![] : Fin 0 → Fin S96x1.rank)
  bcast_S1x1_S96x1_0_1 : S1x1.BroadcastsInDim S96x1 (![0, 1] : Fin 2 → Fin S96x1.rank)
  reducesTo_S96x1_S96_d1 : S96x1.ReducesTo [1] S96
  bcast_S96_S4096x96x128_1 : S96.BroadcastsInDim S4096x96x128 (![1] : Fin 1 → Fin S4096x96x128.rank)
  bcast_S_S4096x96x128 : S_.BroadcastsInDim S4096x96x128 (![] : Fin 0 → Fin S4096x96x128.rank)
  bcast_S96_S1x96x1_1 : S96.BroadcastsInDim S1x96x1 (![1] : Fin 1 → Fin S1x96x1.rank)
  bcast_S1x96x1_S4096x96x128_0_1_2 : S1x96x1.BroadcastsInDim S4096x96x128 (![0, 1, 2] : Fin 3 → Fin S4096x96x128.rank)
  slices_S96x4_S96x1_0_0 : S96x4.Slices ![0, 0] S96x1
  slices_S96x4_S96x1_0_1 : S96x4.Slices ![0, 1] S96x1
  transposes_S4096x96x128_S96x4096x128_1_0_2 : S4096x96x128.Transposes [1, 0, 2] S96x4096x128
  slices_S96x4_S96x1_0_3 : S96x4.Slices ![0, 3] S96x1
  slices_S128x5_S128x1_0_3 : S128x5.Slices ![0, 3] S128x1
  shapeCasts_S128x1_S128 : S128x1.ShapeCasts S128
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  bcast_S1x1_S128x1_0_1 : S1x1.BroadcastsInDim S128x1 (![0, 1] : Fin 2 → Fin S128x1.rank)
  reducesTo_S128x1_S128_d1 : S128x1.ReducesTo [1] S128
  bcast_S128_S4096x128x128_1 : S128.BroadcastsInDim S4096x128x128 (![1] : Fin 1 → Fin S4096x128x128.rank)
  bcast_S_S4096x128x128 : S_.BroadcastsInDim S4096x128x128 (![] : Fin 0 → Fin S4096x128x128.rank)
  bcast_S128_S1x128x1_1 : S128.BroadcastsInDim S1x128x1 (![1] : Fin 1 → Fin S1x128x1.rank)
  bcast_S1x128x1_S4096x128x128_0_1_2 : S1x128x1.BroadcastsInDim S4096x128x128 (![0, 1, 2] : Fin 3 → Fin S4096x128x128.rank)
  slices_S128x5_S128x1_0_0 : S128x5.Slices ![0, 0] S128x1
  slices_S128x5_S128x1_0_1 : S128x5.Slices ![0, 1] S128x1
  slices_S128x5_S128x1_0_2 : S128x5.Slices ![0, 2] S128x1
  transposes_S4096x128x128_S128x4096x128_1_0_2 : S4096x128x128.Transposes [1, 0, 2] S128x4096x128
  slices_S128x5_S128x1_0_4 : S128x5.Slices ![0, 4] S128x1
  shapeCasts_S4096x16x128_S4096x2048 : S4096x16x128.ShapeCasts S4096x2048
  gather_S64x16x128_S4096x1_S4096x16x128_12_0_n_n_0_1_116128_wf : GatherDims.WF S64x16x128 S4096x1 S4096x16x128 [1, 2] [0] [] [0] [] 1 ![1, 16, 128]
  gather_S4096x16x128_S32x1_S4096x32x128_02_1_n_n_1_1_40961128_wf : GatherDims.WF S4096x16x128 S32x1 S4096x32x128 [0, 2] [1] [] [1] [] 1 ![4096, 1, 128]
  scatter_S16x4096x128_S32x1_S32x4096x128_12_0_0_1_wf : ScatterDims.WF S16x4096x128 S32x1 S32x4096x128 [1, 2] [0] [0] 1
  gather_S4096x16x128_S96x1_S4096x96x128_02_1_n_n_1_1_40961128_wf : GatherDims.WF S4096x16x128 S96x1 S4096x96x128 [0, 2] [1] [] [1] [] 1 ![4096, 1, 128]
  scatter_S16x4096x128_S96x1_S96x4096x128_12_0_0_1_wf : ScatterDims.WF S16x4096x128 S96x1 S96x4096x128 [1, 2] [0] [0] 1
  gather_S4096x16x128_S128x1_S4096x128x128_02_1_n_n_1_1_40961128_wf : GatherDims.WF S4096x16x128 S128x1 S4096x128x128 [0, 2] [1] [] [1] [] 1 ![4096, 1, 128]
  scatter_S16x4096x128_S128x1_S128x4096x128_12_0_0_1_wf : ScatterDims.WF S16x4096x128 S128x1 S128x4096x128 [1, 2] [0] [0] 1

variable [Facts₀]

def gather_S64x16x128_S4096x1_S4096x16x128_12_0_n_n_0_1_116128 : GatherDims S64x16x128 S4096x1 S4096x16x128 where
  offsetDims := [1, 2]
  collapsedSliceDims := [0]
  operandBatchingDims := []
  startIndicesBatchingDims := []
  startIndexMap := [0]
  indexVectorDim := 1
  sliceSizes := ![1, 16, 128]
  wf := gather_S64x16x128_S4096x1_S4096x16x128_12_0_n_n_0_1_116128_wf
def gather_S4096x16x128_S32x1_S4096x32x128_02_1_n_n_1_1_40961128 : GatherDims S4096x16x128 S32x1 S4096x32x128 where
  offsetDims := [0, 2]
  collapsedSliceDims := [1]
  operandBatchingDims := []
  startIndicesBatchingDims := []
  startIndexMap := [1]
  indexVectorDim := 1
  sliceSizes := ![4096, 1, 128]
  wf := gather_S4096x16x128_S32x1_S4096x32x128_02_1_n_n_1_1_40961128_wf
def scatter_S16x4096x128_S32x1_S32x4096x128_12_0_0_1 : ScatterDims S16x4096x128 S32x1 S32x4096x128 where
  updateWindowDims := [1, 2]
  insertedWindowDims := [0]
  scatterDimsToOperandDims := [0]
  indexVectorDim := 1
  wf := scatter_S16x4096x128_S32x1_S32x4096x128_12_0_0_1_wf
def gather_S4096x16x128_S96x1_S4096x96x128_02_1_n_n_1_1_40961128 : GatherDims S4096x16x128 S96x1 S4096x96x128 where
  offsetDims := [0, 2]
  collapsedSliceDims := [1]
  operandBatchingDims := []
  startIndicesBatchingDims := []
  startIndexMap := [1]
  indexVectorDim := 1
  sliceSizes := ![4096, 1, 128]
  wf := gather_S4096x16x128_S96x1_S4096x96x128_02_1_n_n_1_1_40961128_wf
def scatter_S16x4096x128_S96x1_S96x4096x128_12_0_0_1 : ScatterDims S16x4096x128 S96x1 S96x4096x128 where
  updateWindowDims := [1, 2]
  insertedWindowDims := [0]
  scatterDimsToOperandDims := [0]
  indexVectorDim := 1
  wf := scatter_S16x4096x128_S96x1_S96x4096x128_12_0_0_1_wf
def gather_S4096x16x128_S128x1_S4096x128x128_02_1_n_n_1_1_40961128 : GatherDims S4096x16x128 S128x1 S4096x128x128 where
  offsetDims := [0, 2]
  collapsedSliceDims := [1]
  operandBatchingDims := []
  startIndicesBatchingDims := []
  startIndexMap := [1]
  indexVectorDim := 1
  sliceSizes := ![4096, 1, 128]
  wf := gather_S4096x16x128_S128x1_S4096x128x128_02_1_n_n_1_1_40961128_wf
def scatter_S16x4096x128_S128x1_S128x4096x128_12_0_0_1 : ScatterDims S16x4096x128 S128x1 S128x4096x128 where
  updateWindowDims := [1, 2]
  insertedWindowDims := [0]
  scatterDimsToOperandDims := [0]
  indexVectorDim := 1
  wf := scatter_S16x4096x128_S128x1_S128x4096x128_12_0_0_1_wf

class Facts : Prop extends Facts₀ where

variable [Facts]
-- ==== Proof.K.Asm.lean ====
import proofs.«426359_j52879637348696_1_alg».proof.Proof.RegionsK
import Idealize.ShloMosaic.Lib.Pipeline.RegionsLoop

noncomputable section

namespace Cert.Kernel.Asm

open Gen GenP
open Idealize.ShloMosaic Idealize.ShloMosaic.TcCoe
open Idealize.SL Idealize.SL.RA Idealize.SL.BI
open Idealize.SL.BI.BIBase Idealize.SL.ProofMode

variable {F : FTy → Type} [FloatOps F]

local notation "𝕄" => MT nD τ sig Unit (Elt F) ℕ (UR sig nD τ) ℕ

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

variable (pd : (p : Fin 3) → (c : Dev nD) → Pipeline.Dat τ (Elt F) Unit ℕ (UR sig nD τ) ℕ (cfgs p) c)

/-- Region p's proof data reads its arrays off V, owes nothing, meets the body obligation, and writes only window o's array, which Vp updates. -/
structure Ok (p : Fin 3) (o : Fin (cfgs p).W) (V Vp : Dev nD → Valuation τ sig (Elt F)) : Prop where
  hio : ∀ w, w ≠ o → ((cfgs p).win w).isOut = false
  hA : ∀ c w, (pd p c).A w = V c (Pipeline.arrRef (cfgs p).spec w)
  hq : ∀ c w, (pd p c).q w = fullShare
  howed : ∀ c t, (pd p c).owed t = 0
  hrec : ∀ c t, (pd p c).recorded t = Set.univ
  hbody : ∀ c, Pipeline.BodyObligation (pd p c) (defs₀ (F := F)) .none () Set.univ
  hin : ∀ c, Pipeline.ΦA (cfgs p).spec c ⊢ (pd p c).Φ 0
  hout : ∀ c, (pd p c).Φ (Fin.last (cfgs p).N) ⊢ Pipeline.ΦA (cfgs p).spec c
  hVp : ∀ c, Vp c = Function.update (V c) (Pipeline.arrRef (cfgs p).spec o) ((pd p c).arrAt o (cfgs p).N)

theorem launch : ∀ p : Fin 3, Pipeline.LaunchFacts (nD := nD) (τ := τ) cfgs p
  | ⟨0, _⟩ => launch0 | ⟨1, _⟩ => launch1 | ⟨2, _⟩ => launch2

variable {pd}

/-- Region p as a segment: the arrays are split out of the unscoped buffers held at V and put back at Vp. -/
def reg {p : Fin 3} {o : Fin (cfgs p).W} {V Vp : Dev nD → Valuation τ sig (Elt F)} (h : Ok pd p o V Vp) :
    Pipeline.RegionSeg (pcfgs (F := F)) adm pd () defs₀ .none L lv p where
  win := (launch p).win.to₀
  block_pos := (launch p).block_pos
  stage_whole := (launch p).stage_whole
  K := PEmpty
  osem k := k.elim
  ho := .none _
  hbody c := (h.hbody c).loose
  hwaits := Pipeline.hwaits_of_owed_zero _ _ _ _ L lv p h.howed
  pre c := iprop(StableHlo.held (c : Thread nD τ) (Pipeline.ucRefs τ sig) (V c) ∗ R c)
  post c := iprop(StableHlo.held (c : Thread nD τ) (Pipeline.ucRefs τ sig) (Vp c) ∗ R c)
  X c := iprop(∃ r, prngReg c r)
  Y c := iprop(∃ r, prngReg c r)
  Z c := Pipeline.unscopedRest (cfgs p).spec c fun b : Ref sig .tc => V c b
  hentry c := by
    have hsplit := Pipeline.arrays_of_unscopedBufs (p := p) (pcfgs (F := F)) adm pd (launch p).win (launch p).arr_whole c
      ((pd p c).share_full (h.hq c)) (fun b : Ref sig .tc => V c b) (h.hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h.howed c]
      icases HO with ⟨%W, HO⟩; iexists W; isplitr; · ipureintro; exact fun _ _ => Or.inl (by rw [h.hrec c]; trivial)
      iexact HO
    isplitl [Hp]; · iexact Hp
    iexact Hrest
  hin c := by
    refine BI.Entails.trans ?_ (h.hin c)
    unfold Pipeline.ΦA
    show (_ : sProp 𝕄) ⊢ _
    iintro ⟨Hp, -, Hr⟩
    isplitl [Hr]; · iexact Hr
    iexact Hp
  hout c := by
    rw [Pipeline.ownSems0_none]
    refine BI.Entails.trans (h.hout c) ?_
    unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := p) (pcfgs (F := F)) adm (launch p).win (launch p).arr_whole c pd ((pd p c).share_full (h.hq c))
      (fun b : Ref sig .tc => V c b) (fun b : Ref sig .tc => Vp c b) ((pd p c).arrAt · (cfgs p).N)
      (fun w => by
        rw [h.hVp c]
        by_cases e : w = o
        · subst e; exact .symm (Function.update_self ..)
        · rw [Function.update_of_ne (StableHlo.devRef_ne_of_ne ((launch p).win.arr_inj.ne e)), (pd p c).arrAt_in w (h.hio w e), h.hA])
      (fun b hb => by
        rw [h.hVp c]
        exact Function.update_of_ne (StableHlo.devRef_ne_of_ne fun e => hb (Finset.mem_image.mpr ⟨o, Finset.mem_univ o, e.symm⟩)) ..)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h.howed c]
    icases HO with ⟨%W, -, HO⟩; iexists W; iexact HO

theorem hu₀ : (ownU (Rounds.initOf (Pipeline.cells cfgs cellOf_inj) (Pipeline.launchToks cfgs cellOf_inj)) : sProp 𝕄)
    ⊢ |={Set.univ}=> iprop(BI.own (emb₁ (Rounds.initOf (Pipeline.cells cfgs cellOf_inj) (Pipeline.launchToks cfgs cellOf_inj))) ∗ bigSep Finset.univ fun _ : Dev nD => (BI.emp : sProp 𝕄)) := by
  rw [BI.bigSep_emp_const]
  iintro Hu; imodintro
  isplitl [Hu]; · iapply (show (ownU _ : sProp 𝕄) ⊢ BI.own (emb₁ _) from .rfl); iexact Hu
  iempintro

end Cert.Kernel.Asm

end
-- ==== Proof.K.Reg0.lean ====
import proofs.«426359_j52879637348696_1_alg».proof.Proof.Gen.Kernel.Launch
import proofs.«426359_j52879637348696_1_alg».proof.Proof.Gen.Kernel.Skeleton
import proofs.«426359_j52879637348696_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid0.Coords) : Prop :=
  (Scalar.cmpi .ne (Scalar.extui (Scalar.cmpi .eq (BitVec.ofNat 32 (i 1).val) 0#32)) 0#32) = 1#1

theorem hcond0 : ∀ t : Fin cfg0.N, cond0 (grid0.coords t) ↔ t.val % 16 = 0 :=
  (by decide +kernel : ∀ t : Fin grid0.N, cond0 (grid0.coords t) ↔ t.val % 16 = 0)

theorem zeros2 : (![0, 0] : Fin 2 → ℕ) = fun _ => 0 := by funext a; fin_cases a <;> rfl

/-- A whole memref owned at `X` is its points-to at the raw contents that read `X`. -/
theorem owns_unread {c : Dev nD} {s : Shape} {e : EltTy} {m : Memref sig .tc .vmem s e} (h : m.IsWhole) (X : s.Idx → Elt F e) :
    (owns c.tc m fullShare X : sProp 𝕄) = (m.view.loc c.tc ↦[m.view.set]{fullShare} h.unread X) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr
    · ipureintro; exact h.read_unread X
    iexact H

/-- The body run whole: with `S`, `O` the selected rows of `x0` and the zero block at a first column tile, else the scratch and the output block as found, it leaves the scratch at `S` and the output block at `O` updated by the tile's contribution. -/
theorem run {c : Dev nD} {i : grid0.Coords} {a2 a3 a4 a5 a6 a7 a8 a9} {h2 : Memref.IsWhole a2} {h3 : Memref.IsWhole a3} {h4 : Memref.IsWhole a4} {h5 : Memref.IsWhole a5}
    {h6 : Memref.IsWhole a6} {h7 : Memref.IsWhole a7} {h8 : Memref.IsWhole a8} {h9 : Memref.IsWhole a9} (x0 x1 x2 x3 x4 x5 xo xs S O)
    (hS : S = if cond0 i then k0_pay2 x1 x2 else xs) (hO : O = if cond0 i then k0_pay1 (F := F) else xo) {E : Set ℕ} {K : PUnit → sProp 𝕄} :
    iprop(owns c.tc a2 fullShare x0 ∗ owns c.tc a3 fullShare x1 ∗ owns c.tc a4 fullShare x2 ∗ owns c.tc a5 fullShare x3 ∗ owns c.tc a6 fullShare x4 ∗ owns c.tc a7 fullShare x5 ∗ owns c.tc a8 fullShare xo ∗ owns c.tc a9 fullShare xs
        ∗ (iprop(owns c.tc a2 fullShare x0 ∗ owns c.tc a3 fullShare x1 ∗ owns c.tc a4 fullShare x2 ∗ owns c.tc a5 fullShare x3 ∗ owns c.tc a6 fullShare x4 ∗ owns c.tc a7 fullShare x5 ∗ owns c.tc a8 fullShare (k0_pay3 S x4 x0 x3 x5 O) ∗ owns c.tc a9 fullShare S) -∗ K ⟨⟩))
      ⊢ wp frame (wpE (defs₀ (F := F)) Variants.none c none) E (cc0_kernel i a2 h2 a3 h3 a4 h4 a5 h5 a6 h6 a7 h7 a8 h8 a9 h9) K := by
  rw [owns_unread h2 x0, owns_unread h3 x1, owns_unread h4 x2, owns_unread h5 x3, owns_unread h6 x4, owns_unread h7 x5, owns_unread h8 xo, owns_unread h9 xs]
  simp only [cc0_kernel_eq_skeleton]; unfold cc0_kernel_skel owns
  by_cases hc : cond0 i <;> (first | rw [if_pos hc] at hS hO | rw [if_neg hc] at hS hO) <;> subst hS hO <;>
   (iintro ⟨H0, H1, H2, H3, H4, H5, H6, HS, Hk⟩
    sl_exec (disch := first | exact hc)
    sl_step
    iapply Hk
    iframe H0 H1 H2 H3 H4 H5
    isplitl [H6]
    all_goals
      iexists _; isplitr; swap; first | iexact H6 | iexact HS
      ipureintro
      first
      | (rw [View.read_writes_eq_canon _ _ _ (View.cover_of_tiledL _ S512x2048.size (by sl_kernel_rfl))]; sl_unfold_words
         rw [View.canon_cons_unit_zero (S := S512x2048) zeros2]
         simp only [View.readAt_eq_ld, Memref.IsWhole.read_unread, View.ld_unit_zero (S := S512x2048) zeros2,
           View.ld_unit_zero (S := S512x64) zeros2, View.ld_unit_zero (S := S64x2048) zeros2,
           View.ld_unit_zero (S := S2048x256) zeros2, View.ld_unit_zero (S := S256x2048) zeros2,
           View.readCov_unit_zero (S := S512x2048) _ zeros2])
      | exact h9.read_unread _)

variable (V : (c : Dev nD) → (b : Ref sig .tc) → Buf (Elt F) ((c : Thread nD τ).loc b)) (c : Dev nD)

/-- The block of array `w` that point `t` reads. -/
def iblk (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's update of (output block, scratch) from the scratch `S` and the output block `O` it starts from. -/
def step (t : Fin cfg0.N) (S : Vec F S512x2048 .bf16) (O : Vec F S512x2048 .f32) :=
  (k0_pay3 S (iblk V c 4 t) (iblk V c 0 t) (iblk V c 3 t) (iblk V c 5 t) O, S)

/-- A row tile's first point starts from the selected rows of `x0` and the zero block. -/
def start (t : Fin cfg0.N) := step V c t (k0_pay2 (iblk V c 1 t) (iblk V c 2 t)) k0_pay1

/-- The pair (output block, scratch) after point `n`, by recursion along a row tile. -/
def outsAt : (n : ℕ) → n < cfg0.N → Vec F S512x2048 .f32 × Vec F S512x2048 .bf16
  | 0, hn => start V c ⟨0, hn⟩
  | n + 1, hn => if (n + 1) % 16 = 0 then start V c ⟨n + 1, hn⟩
    else step V c ⟨n + 1, hn⟩ (outsAt n (Nat.lt_of_succ_lt hn)).2 (outsAt n (Nat.lt_of_succ_lt hn)).1

theorem outsAt_first (t : Fin cfg0.N) (h : t.val % 16 = 0) :
    outsAt V c t.val t.isLt = (k0_pay3 (k0_pay2 (iblk V c 1 t) (iblk V c 2 t)) (iblk V c 4 t) (iblk V c 0 t) (iblk V c 3 t) (iblk V c 5 t) (k0_pay1 (F := F)), k0_pay2 (iblk V c 1 t) (iblk V c 2 t)) := by
  obtain ⟨n, hn⟩ := t
  cases n with
  | zero => rfl
  | succ n => exact (if_pos h).trans rfl

theorem outsAt_next (t : Fin cfg0.N) (h : ¬ t.val % 16 = 0) :
    outsAt V c t.val t.isLt = (k0_pay3 (outsAt V c (t.val - 1) (Nat.lt_of_le_of_lt (Nat.sub_le _ _) t.isLt)).2 (iblk V c 4 t) (iblk V c 0 t) (iblk V c 3 t) (iblk V c 5 t) (outsAt V c (t.val - 1) (Nat.lt_of_le_of_lt (Nat.sub_le _ _) t.isLt)).1, (outsAt V c (t.val - 1) (Nat.lt_of_le_of_lt (Nat.sub_le _ _) t.isLt)).2) := by
  obtain ⟨n, hn⟩ := t
  cases n with
  | zero => exact absurd (Nat.zero_mod _) h
  | succ n => exact (if_neg h).trans rfl

abbrev m0 (t : Fin cfg0.N) := win0_0.stage (cfg0.slots t 0)
abbrev m1 (t : Fin cfg0.N) := win0_1.stage (cfg0.slots t 1)
abbrev m2 (t : Fin cfg0.N) := win0_2.stage (cfg0.slots t 2)
abbrev m3 (t : Fin cfg0.N) := win0_3.stage (cfg0.slots t 3)
abbrev m4 (t : Fin cfg0.N) := win0_4.stage (cfg0.slots t 4)
abbrev m5 (t : Fin cfg0.N) := win0_5.stage (cfg0.slots t 5)
abbrev m6 (t : Fin cfg0.N) := win0_6.stage (cfg0.slots t 6)
abbrev scM : Memref sig .tc .vmem S512x2048 .bf16 := Memref.whole cc0_scratch0
abbrev others : sProp 𝕄 :=
  Pipeline.scopedRestBut (Ix := Unit) (Name := ℕ) (U := UR sig nD τ) (Lvl := ℕ) (Val := Elt F) spec0 c [cc0_scratch0]

theorem PhiA_eq :
    (Pipeline.ΦA spec0 c : sProp 𝕄)
      = iprop(iprop((∃ d, owns c.tc scM fullShare d) ∗ others c) ∗ (∃ r, prngReg c r)) := by
  unfold Pipeline.ΦA; rw [scopedRest0_split]; simp only [scM, others, owns_whole]; rfl

/-- Before point `n` the scratch holds what point `n - 1` left, and anything when `n = 0`. -/
def PhiS : (n : ℕ) → n ≤ cfg0.N → sProp 𝕄
  | 0, _ => Pipeline.ΦA spec0 c
  | n + 1, hn => iprop(iprop(owns c.tc scM fullShare ((outsAt V c n hn).2) ∗ others c) ∗ (∃ r, prngReg c r))

theorem PhiS_pos (n : ℕ) (h : n ≤ cfg0.N) (hz : n ≠ 0) :
    PhiS V c n h = iprop(iprop(owns c.tc scM fullShare ((outsAt V c (n - 1) (by omega)).2) ∗ others c) ∗ (∃ r, prngReg c r)) := by
  cases n with
  | zero => exact absurd rfl hz
  | succ n => rfl

/-- Forgetting the scratch's contents weakens the invariant at any point to the launch's. -/
theorem PhiS_le : ∀ n h, PhiS V c n h ⊢ Pipeline.ΦA spec0 c
  | 0, _ => Entails.refl _
  | n + 1, _ => by
    rw [PhiS, PhiA_eq]; iintro ⟨⟨HS, Hr⟩, Hg⟩; iframe Hr Hg; iexists _; iexact HS

def dat : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem A_eq (w : Fin cfg0.W) : (dat V c).A w = V c (Pipeline.arrRef spec0 w) := rfl

theorem after_out (t : Fin cfg0.N) : (dat V c).after 6 t = (outsAt V c t.val t.isLt).1 := rfl

/-- What the body finds for an input is that input's block. -/
theorem before_in (t : Fin cfg0.N) :
    (∀ d, (dat V c).before 0 t d = iblk V c 0 t) ∧ (∀ d, (dat V c).before 1 t d = iblk V c 1 t) ∧ (∀ d, (dat V c).before 2 t d = iblk V c 2 t)
      ∧ (∀ d, (dat V c).before 3 t d = iblk V c 3 t) ∧ (∀ d, (dat V c).before 4 t d = iblk V c 4 t) ∧ (∀ d, (dat V c).before 5 t d = iblk V c 5 t) := by
  refine ⟨?_, ?_, ?_, ?_, ?_, ?_⟩ <;> intro d <;>
    refine ((dat V c).before_in_eq_fetched _ ?_ ?_ ?_ ?_ t d).trans ?_ <;> intros <;> rfl

/-- Within a row tile the body finds the output block as the point before left it. -/
theorem before_out_next (t : Fin cfg0.N) (h : ¬ t.val % 16 = 0) (d) :
    (dat V c).before 6 t d = (outsAt V c (t.val - 1) (Nat.lt_of_le_of_lt (Nat.sub_le _ _) t.isLt)).1 := by
  rw [Dat.before_out_kept _ 6 rfl t (by omega)
    (Bool.eq_false_iff.mpr fun hf => by have := (flush0_6 _).mp hf; dsimp only at this; omega)
    (fun _ => rfl) (fun _ _ => rfl)]
  rfl

/-- One step: from the invariant and the blocks before point `t` to those after it. -/
theorem sound_body (t : Fin cfg0.N) :
    iprop(PhiS V c t.val (Nat.le_of_lt t.isLt) ∗ (dat V c).owesAt () t.castSucc
        ∗ (∃ d, owns c.tc (m0 t) fullShare ((dat V c).before 0 t d))
        ∗ (∃ d, owns c.tc (m1 t) fullShare ((dat V c).before 1 t d))
        ∗ (∃ d, owns c.tc (m2 t) fullShare ((dat V c).before 2 t d))
        ∗ (∃ d, owns c.tc (m3 t) fullShare ((dat V c).before 3 t d))
        ∗ (∃ d, owns c.tc (m4 t) fullShare ((dat V c).before 4 t d))
        ∗ (∃ d, owns c.tc (m5 t) fullShare ((dat V c).before 5 t d))
        ∗ (∃ d, owns c.tc (m6 t) fullShare ((dat V c).before 6 t d)))
      ⊢ wp frame (wpE (defs₀ (F := F)) Variants.none c none) Set.univ (bodyAt0 t) fun _ =>
        iprop(iprop(iprop(owns c.tc scM fullShare (outsAt V c t.val t.isLt).2 ∗ others c) ∗ (∃ r, prngReg c r)) ∗ (dat V c).owesAt () t.castSucc
          ∗ owns c.tc (m0 t) fullShare (iblk V c 0 t) ∗ owns c.tc (m1 t) fullShare (iblk V c 1 t) ∗ owns c.tc (m2 t) fullShare (iblk V c 2 t) ∗ owns c.tc (m3 t) fullShare (iblk V c 3 t) ∗ owns c.tc (m4 t) fullShare (iblk V c 4 t) ∗ owns c.tc (m5 t) fullShare (iblk V c 5 t)
          ∗ owns c.tc (m6 t) fullShare (outsAt V c t.val t.isLt).1) := by
  unfold bodyAt0
  obtain ⟨e0, e1, e2, e3, e4, e5⟩ := before_in V c t
  simp only [e0, e1, e2, e3, e4, e5]
  by_cases h0 : t.val % 16 = 0
  · have hc := (hcond0 t).mpr h0
    rw [outsAt_first V c t h0]; dsimp only
    refine (sep_mono_left (PhiS_le V c _ _)).trans ?_
    rw [PhiA_eq]
    iintro ⟨⟨⟨⟨%ds, HS⟩, Hr⟩, Hg⟩, Ho, ⟨%_, H0⟩, ⟨%_, H1⟩, ⟨%_, H2⟩, ⟨%_, H3⟩, ⟨%_, H4⟩, ⟨%_, H5⟩, ⟨%d6, H6⟩⟩
    iapply run (iblk V c 0 t) (iblk V c 1 t) (iblk V c 2 t) (iblk V c 3 t) (iblk V c 4 t) (iblk V c 5 t) ((dat V c).before 6 t d6) ds _ _ (if_pos hc).symm (if_pos hc).symm
    iframe H0 H1 H2 H3 H4 H5 H6 HS
    iintro ⟨H0, H1, H2, H3, H4, H5, H6, HS⟩
    iframe
  · have hc : ¬cond0 (grid0.coords t) := fun h => h0 ((hcond0 t).mp h)
    rw [outsAt_next V c t h0, PhiS_pos V c _ _ fun e => h0 (by rw [e])]; dsimp only
    simp only [before_out_next V c t h0]
    generalize outsAt V c (t.val - 1) _ = p
    iintro ⟨⟨⟨HS, Hr⟩, Hg⟩, Ho, ⟨%_, H0⟩, ⟨%_, H1⟩, ⟨%_, H2⟩, ⟨%_, H3⟩, ⟨%_, H4⟩, ⟨%_, H5⟩, ⟨%_, H6⟩⟩
    iapply run (iblk V c 0 t) (iblk V c 1 t) (iblk V c 2 t) (iblk V c 3 t) (iblk V c 4 t) (iblk V c 5 t) p.1 p.2 _ _ (if_neg hc).symm (if_neg hc).symm
    iframe H0 H1 H2 H3 H4 H5 H6 HS
    iintro ⟨H0, H1, H2, H3, H4, H5, H6, HS⟩
    iframe

theorem body_obligation : BodyObligation (dat V c) (defs₀ (F := F)) Variants.none () Set.univ := fun t => by
  rw [bigSep_W0, bigSep_W0]
  exact sound_body V c t

theorem hin : Pipeline.ΦA spec0 c ⊢ (dat V c).Φ 0 := Entails.refl _

theorem hout : (dat V c).Φ (Fin.last cfg0.N) ⊢ Pipeline.ΦA spec0 c := PhiS_le V c cfg0.N le_rfl

end Cert.Kernel.Reg0

end
-- ==== Proof.K.Reg1Run.lean ====
import proofs.«426359_j52879637348696_1_alg».proof.Proof.Gen.Kernel.Launch
import proofs.«426359_j52879637348696_1_alg».proof.Proof.Gen.Kernel.Skeleton
import proofs.«426359_j52879637348696_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev cond (i : grid1.Coords) : Prop :=
  (Scalar.cmpi .ne (Scalar.extui (Scalar.cmpi .eq (BitVec.ofNat 32 (i 1).val) 0#32)) 0#32) = 1#1

theorem hcond : ∀ t : Fin cfg1.N, cond (grid1.coords t) ↔ t.val % 48 = 0 :=
  (by decide +kernel : ∀ t : Fin grid1.N, cond (grid1.coords t) ↔ t.val % 48 = 0)

theorem hz : (![0, 0] : Fin 2 → Nat) = fun _ => 0 := funext fun a => by fin_cases a <;> rfl

/-- Stores of which the last fills the whole block read back as that store's payload. -/
theorem read_fill {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ fun y => ⟨_, .head _, View.mem_set_unit_zero h inb y⟩).trans
    (View.canon_cons_unit_zero h inb w L)

variable (c : Dev nD) (i : grid1.Coords)
  {arg2 : Memref sig .tc .vmem S512x2048 .bf16} (harg2 : arg2.IsWhole) {arg3 : Memref sig .tc .vmem S512x64 .bf16} (harg3 : arg3.IsWhole)
  {arg4 : Memref sig .tc .vmem S64x2048 .bf16} (harg4 : arg4.IsWhole) {arg5 arg6 arg7 : Memref sig .tc .vmem S2048x256 .bf16}
  (harg5 : arg5.IsWhole) (harg6 : arg6.IsWhole) (harg7 : arg7.IsWhole) {arg8 : Memref sig .tc .vmem S256x2048 .bf16} (harg8 : arg8.IsWhole)
  {arg9 : Memref sig .tc .vmem S512x2048 .f32} (harg9 : arg9.IsWhole) {arg10 : Memref sig .tc .vmem S512x2048 .bf16} (harg10 : arg10.IsWhole)
  (x0 : Vec F S512x2048 .bf16) (x1 : Vec F S512x64 .bf16) (x2 : Vec F S64x2048 .bf16) (x3 x4 x5 : Vec F S2048x256 .bf16)
  (x6 : Vec F S256x2048 .bf16)

/-- The body on any whole memrefs holding the input blocks `x0` … `x6`: it turns `P` into `Q` and hands the inputs back. -/
abbrev Spec (P Q : sProp 𝕄) : Prop :=
  ∀ (E : Set ℕ) (K : PUnit → sProp 𝕄),
    iprop(P ∗ owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
        ∗ (iprop(Q ∗ owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K

variable {c i harg2 harg3 harg4 harg5 harg6 harg7 harg8 harg9 harg10}

/-- Off the branch the block gains the product computed with the rows as found. -/
theorem run_next (hc : ¬cond i) (xo : Vec F S512x2048 .f32) (xs : Vec F S512x2048 .bf16) :
    Spec c i harg2 harg3 harg4 harg5 harg6 harg7 harg8 harg9 harg10 x0 x1 x2 x3 x4 x5 x6
      iprop(owns (c : Thread nD τ) arg9 fullShare xo ∗ owns (c : Thread nD τ) arg10 fullShare xs)
      iprop(owns (c : Thread nD τ) arg9 fullShare (k1_pay3 xs x5 x0 x3 x0 x4 x6 xo) ∗ owns (c : Thread nD τ) arg10 fullShare xs) := by
  intro E K
  simp only [cc1_kernel_eq_skeleton]; unfold cc1_kernel_skel owns
  iintro ⟨⟨⟨%f7, %hf7, H7⟩, ⟨%fs, %hfs, HS⟩⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  sl_exec (disch := exact hc)
  sl_step
  iapply Hk
  isplitl [H7 HS]
  · isplitl [H7]
    · iexists _; isplitr; swap; · iexact H7
      ipureintro
      refine (read_fill _ _ hz _ _ _).trans ?_
      sl_unfold_words
      simp only [View.readAt_eq_ld, hf0, hf3, hf4, hf5, hf6, hf7, hfs, View.ld_unit_zero (S := S512x2048) hz,
        View.ld_unit_zero (S := S2048x256) hz, View.ld_unit_zero (S := S256x2048) hz]
    sl_close
  sl_close

/-- On the branch the rows become the gathered rows and the block starts from zero, whatever both held. -/
theorem run_first (hc : cond i) :
    Spec c i harg2 harg3 harg4 harg5 harg6 harg7 harg8 harg9 harg10 x0 x1 x2 x3 x4 x5 x6
      iprop((∃ d, owns (c : Thread nD τ) arg9 fullShare d) ∗ ∃ d, owns (c : Thread nD τ) arg10 fullShare d)
      iprop(owns (c : Thread nD τ) arg9 fullShare (k1_pay3 (k1_pay2 x1 x2) x5 x0 x3 x0 x4 x6 k1_pay1)
        ∗ owns (c : Thread nD τ) arg10 fullShare (k1_pay2 x1 x2)) := by
  intro E K
  simp only [cc1_kernel_eq_skeleton]; unfold cc1_kernel_skel owns
  iintro ⟨⟨⟨%d7, %f7, -, H7⟩, ⟨%ds, %fs, -, HS⟩⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  sl_exec (disch := exact hc)
  sl_step
  iapply Hk
  isplitl [H7 HS]
  · isplitl [H7]
    · iexists _; isplitr; swap; · iexact H7
      ipureintro
      refine (read_fill _ _ hz _ _ _).trans ?_
      sl_unfold_words
      simp only [View.readCov_unit_zero (S := S512x2048) _ hz, View.readAt_eq_ld, hf0, hf1, hf2, hf3, hf4, hf5, hf6,
        View.ld_unit_zero (S := S512x2048) hz, View.ld_unit_zero (S := S2048x256) hz, View.ld_unit_zero (S := S256x2048) hz,
        View.ld_unit_zero (S := S512x64) hz, View.ld_unit_zero (S := S64x2048) hz]
    iexists _; isplitr; swap; · iexact HS
    ipureintro
    refine (read_fill _ _ hz _ _ _).trans ?_
    sl_unfold_words
    simp only [View.readAt_eq_ld, hf1, hf2, View.ld_unit_zero (S := S512x64) hz, View.ld_unit_zero (S := S64x2048) hz]
  sl_close

end Cert.Kernel.Reg1

end
-- ==== Proof.K.Reg1.lean ====
import proofs.«426359_j52879637348696_1_alg».proof.Proof.K.Reg1Run
import Idealize.ShloMosaic.Lib.Pipeline.Frame

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev scM : Memref sig .tc .vmem S512x2048 .bf16 := Memref.whole cc1_scratch0

variable (V : (c : Dev nD) → (b : Ref sig .tc) → Buf (Elt F) ((c : Thread nD τ).loc b))

/-- Block `t` of array `w` under the valuation `V`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's step on the pair (block, rows): the rows stay, the block gains the point's product with them. -/
def step (c : Dev nD) (t : Fin cfg1.N) (p : Vec F S512x2048 .f32 × Vec F S512x2048 .bf16) : Vec F S512x2048 .f32 × Vec F S512x2048 .bf16 :=
  (k1_pay3 p.2 (iblk V c 5 t) (iblk V c 0 t) (iblk V c 3 t) (iblk V c 0 t) (iblk V c 4 t) (iblk V c 6 t) p.1, p.2)

/-- The pair after point `n`: the steps iterated, restarting from (0, gathered rows) at every multiple of 48. -/
def outsAt (c : Dev nD) (n : ℕ) (hn : n < cfg1.N) : Vec F S512x2048 .f32 × Vec F S512x2048 .bf16 :=
  step V c ⟨n, hn⟩ (if h : n % 48 = 0 then (k1_pay1, k1_pay2 (iblk V c 1 ⟨n, hn⟩) (iblk V c 2 ⟨n, hn⟩)) else outsAt c (n - 1) (by omega))
decreasing_by omega

theorem outsAt_first (c : Dev nD) (t : Fin cfg1.N) (h : t.val % 48 = 0) :
    outsAt V c t.val t.isLt = (k1_pay3 (k1_pay2 (iblk V c 1 t) (iblk V c 2 t)) (iblk V c 5 t) (iblk V c 0 t) (iblk V c 3 t) (iblk V c 0 t) (iblk V c 4 t) (iblk V c 6 t) k1_pay1, k1_pay2 (iblk V c 1 t) (iblk V c 2 t)) := by
  rw [outsAt, dif_pos h]; rfl

theorem outsAt_next (c : Dev nD) (t : Fin cfg1.N) (h : ¬t.val % 48 = 0) :
    outsAt V c t.val t.isLt = (k1_pay3 (outsAt V c (t.val - 1) (Nat.lt_of_le_of_lt (Nat.sub_le _ _) t.isLt)).2 (iblk V c 5 t) (iblk V c 0 t) (iblk V c 3 t) (iblk V c 0 t) (iblk V c 4 t) (iblk V c 6 t) (outsAt V c (t.val - 1) (Nat.lt_of_le_of_lt (Nat.sub_le _ _) t.isLt)).1, (outsAt V c (t.val - 1) (Nat.lt_of_le_of_lt (Nat.sub_le _ _) t.isLt)).2) := by
  rw [outsAt, dif_neg h]; rfl

/-- `ΦA` with its ownership of `scM` replaced by `S`. -/
def Inv (c : Dev nD) (S : sProp 𝕄) : sProp 𝕄 :=
  iprop((S ∗ Pipeline.scopedRestBut (Ix := Unit) (Name := ℕ) (U := UR sig nD τ) (Lvl := ℕ) (Val := Elt F) spec1 c [cc1_scratch0]) ∗ ∃ r, prngReg c r)

theorem PhiA_eq (c : Dev nD) : (Pipeline.ΦA spec1 c : sProp 𝕄) = Inv c iprop(∃ d, owns (c : Thread nD τ) scM fullShare d) := by
  unfold Pipeline.ΦA Inv; rw [scopedRest1_split]; simp only [scM, owns_whole]; try rfl

def PhiS (c : Dev nD) : (n : ℕ) → n ≤ cfg1.N → sProp 𝕄
  | 0, _ => Pipeline.ΦA spec1 c
  | n + 1, hn => Inv c (owns (c : Thread nD τ) scM fullShare (outsAt V c n hn).2)

theorem PhiS_pos (c : Dev nD) (n : ℕ) (h : n ≤ cfg1.N) (hz : n ≠ 0) :
    PhiS V c n h = Inv c (owns (c : Thread nD τ) scM fullShare (outsAt V c (n - 1) (by omega)).2) := by
  cases n with
  | zero => exact absurd rfl hz
  | succ n => rfl

theorem PhiS_le (c : Dev nD) : ∀ n h, PhiS V c n h ⊢ Inv c iprop(∃ d, owns (c : Thread nD τ) scM fullShare d)
  | 0, _ => Entails.of_eq (PhiA_eq c)
  | n + 1, _ => by
    unfold PhiS Inv; iintro ⟨⟨HS, HR⟩, Hg⟩; iframe HR Hg; iexists _; iexact HS

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := rfl

theorem after_out (c : Dev nD) (t : Fin cfg1.N) : (dat V c).after 7 t = (outsAt V c t.val t.isLt).1 := rfl

/-- At every point each input is found at its block. -/
theorem before_in (c : Dev nD) (t : Fin cfg1.N) :
    (∀ d, (dat V c).before 0 t d = iblk V c 0 t) ∧ (∀ d, (dat V c).before 1 t d = iblk V c 1 t)
      ∧ (∀ d, (dat V c).before 2 t d = iblk V c 2 t) ∧ (∀ d, (dat V c).before 3 t d = iblk V c 3 t)
      ∧ (∀ d, (dat V c).before 4 t d = iblk V c 4 t) ∧ (∀ d, (dat V c).before 5 t d = iblk V c 5 t)
      ∧ (∀ d, (dat V c).before 6 t d = iblk V c 6 t) := by
  refine ⟨?_, ?_, ?_, ?_, ?_, ?_, ?_⟩ <;>
    exact fun d => (dat V c).before_in_eq_fetched _ rfl (fun _ => rfl) (fun _ _ _ => rfl) (fun _ => rfl) t d

/-- Away from a multiple of 48 the output block is still what the point before left. -/
theorem before_out_next (c : Dev nD) (t : Fin cfg1.N) (h : ¬t.val % 48 = 0) (d) :
    (dat V c).before 7 t d = (outsAt V c (t.val - 1) (Nat.lt_of_le_of_lt (Nat.sub_le _ _) t.isLt)).1 := by
  have hN : t.val < 384 := lt_of_lt_of_eq t.isLt N_1
  exact Dat.before_out_kept _ 7 rfl t (by omega) (Bool.eq_false_iff.mpr fun hf => by have := (flush1_7 _).mp hf; dsimp only at this; omega)
    (fun _ => rfl) (fun _ _ => rfl) d

theorem sound_body (c : Dev nD) (t : Fin cfg1.N) :
    iprop(PhiS V c t.val (Nat.le_of_lt t.isLt) ∗ (dat V c).owesAt () t.castSucc
      ∗ (∃ d, owns (c : Thread nD τ) (win1_0.stage (cfg1.slots t 0)) fullShare ((dat V c).before 0 t d))
      ∗ (∃ d, owns (c : Thread nD τ) (win1_1.stage (cfg1.slots t 1)) fullShare ((dat V c).before 1 t d))
      ∗ (∃ d, owns (c : Thread nD τ) (win1_2.stage (cfg1.slots t 2)) fullShare ((dat V c).before 2 t d))
      ∗ (∃ d, owns (c : Thread nD τ) (win1_3.stage (cfg1.slots t 3)) fullShare ((dat V c).before 3 t d))
      ∗ (∃ d, owns (c : Thread nD τ) (win1_4.stage (cfg1.slots t 4)) fullShare ((dat V c).before 4 t d))
      ∗ (∃ d, owns (c : Thread nD τ) (win1_5.stage (cfg1.slots t 5)) fullShare ((dat V c).before 5 t d))
      ∗ (∃ d, owns (c : Thread nD τ) (win1_6.stage (cfg1.slots t 6)) fullShare ((dat V c).before 6 t d))
      ∗ (∃ d, owns (c : Thread nD τ) (win1_7.stage (cfg1.slots t 7)) fullShare ((dat V c).before 7 t d)))
    ⊢ wp frame (wpE (defs₀ (F := F)) Variants.none c none) Set.univ (bodyAt1 t) fun _ =>
      iprop(Inv c (owns (c : Thread nD τ) scM fullShare (outsAt V c t.val t.isLt).2) ∗ (dat V c).owesAt () t.castSucc
        ∗ owns (c : Thread nD τ) (win1_0.stage (cfg1.slots t 0)) fullShare (iblk V c 0 t)
        ∗ owns (c : Thread nD τ) (win1_1.stage (cfg1.slots t 1)) fullShare (iblk V c 1 t)
        ∗ owns (c : Thread nD τ) (win1_2.stage (cfg1.slots t 2)) fullShare (iblk V c 2 t)
        ∗ owns (c : Thread nD τ) (win1_3.stage (cfg1.slots t 3)) fullShare (iblk V c 3 t)
        ∗ owns (c : Thread nD τ) (win1_4.stage (cfg1.slots t 4)) fullShare (iblk V c 4 t)
        ∗ owns (c : Thread nD τ) (win1_5.stage (cfg1.slots t 5)) fullShare (iblk V c 5 t)
        ∗ owns (c : Thread nD τ) (win1_6.stage (cfg1.slots t 6)) fullShare (iblk V c 6 t)
        ∗ owns (c : Thread nD τ) (win1_7.stage (cfg1.slots t 7)) fullShare (outsAt V c t.val t.isLt).1) := by
  simp only [before_in V c t]
  by_cases h : t.val % 48 = 0
  · rw [outsAt_first V c t h]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HI := PhiS_le V c _ _ $$ HP
    unfold Inv
    icases HI with ⟨⟨HS, HR⟩, Hg⟩
    iapply (run_first (iblk V c 0 t) (iblk V c 1 t) (iblk V c 2 t) (iblk V c 3 t) (iblk V c 4 t) (iblk V c 5 t) (iblk V c 6 t) ((hcond t).mpr h) Set.univ _)
    isplitl [H7 HS]
    · isplitl [H7]
      · iexists _; iexact H7
      iexact HS
    iframe H0 H1 H2 H3 H4 H5 H6
    iintro ⟨⟨H7, HS⟩, H0, H1, H2, H3, H4, H5, H6⟩
    iframe
  · rw [outsAt_next V c t h, PhiS_pos V c _ _ (by omega)]
    simp only [before_out_next V c t h]
    unfold Inv
    generalize outsAt V c (t.val - 1) _ = p
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_next (iblk V c 0 t) (iblk V c 1 t) (iblk V c 2 t) (iblk V c 3 t) (iblk V c 4 t) (iblk V c 5 t) (iblk V c 6 t) (fun hh => h ((hcond t).mp hh)) p.1 p.2 Set.univ _)
    iframe H7 HS H0 H1 H2 H3 H4 H5 H6
    iintro ⟨⟨H7, HS⟩, H0, H1, H2, H3, H4, H5, H6⟩
    iframe

theorem body_obligation (c : Dev nD) : BodyObligation (dat V c) (defs₀ (F := F)) Variants.none () Set.univ := fun t => by
  rw [bigSep_W1, bigSep_W1]
  exact sound_body V c t

theorem hin (c : Dev nD) : Pipeline.ΦA spec1 c ⊢ (dat V c).Φ 0 := Entails.of_eq rfl

theorem hout (c : Dev nD) : (dat V c).Φ (Fin.last cfg1.N) ⊢ Pipeline.ΦA spec1 c :=
  (PhiS_le V c cfg1.N (Nat.le_refl _)).trans (Entails.of_eq (PhiA_eq c).symm)

end Cert.Kernel.Reg1

end
-- ==== Proof.K.Reg2.lean ====
import proofs.«426359_j52879637348696_1_alg».proof.Proof.Gen.Kernel.Launch
import proofs.«426359_j52879637348696_1_alg».proof.Proof.Gen.Kernel.Skeleton
import proofs.«426359_j52879637348696_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg2

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond (i : grid2.Coords) : Prop :=
  (Scalar.cmpi .ne (Scalar.extui (Scalar.cmpi .eq (BitVec.ofNat 32 (i 1).val) 0#32)) 0#32) = 1#1

theorem hcond : ∀ t : Fin cfg2.N, cond (grid2.coords t) ↔ t.val % 64 = 0 :=
  (by decide +kernel : ∀ t : Fin grid2.N, cond (grid2.coords t) ↔ t.val % 64 = 0)

abbrev scM : Memref sig .tc .vmem S512x2048 .bf16 := Memref.whole cc2_scratch0

theorem hz2 : (![0, 0] : Fin 2 → Nat) = fun _ => 0 := by funext a; fin_cases a <;> rfl

section
variable (c : Dev nD) (i : grid2.Coords)
  {a2 : Memref sig .tc .vmem S512x2048 .bf16} (h2 : a2.IsWhole) {a3 : Memref sig .tc .vmem S512x64 .bf16} (h3 : a3.IsWhole)
  {a4 : Memref sig .tc .vmem S64x2048 .bf16} (h4 : a4.IsWhole) {a5 a6 a7 a8 : Memref sig .tc .vmem S2048x256 .bf16}
  (h5 : a5.IsWhole) (h6 : a6.IsWhole) (h7 : a7.IsWhole) (h8 : a8.IsWhole) {a9 : Memref sig .tc .vmem S256x2048 .bf16} (h9 : a9.IsWhole)
  {a10 : Memref sig .tc .vmem S512x2048 .f32} (h10 : a10.IsWhole) {a11 : Memref sig .tc .vmem S512x2048 .bf16} (h11 : a11.IsWhole)
  (x0 : Vec F S512x2048 .bf16) (x1 : Vec F S512x64 .bf16) (x2 : Vec F S64x2048 .bf16) (x3 x4 x5 x6 : Vec F S2048x256 .bf16)
  (x7 : Vec F S256x2048 .bf16) (xo o : Vec F S512x2048 .f32) (xs s : Vec F S512x2048 .bf16)

set_option maxHeartbeats 4000000 in
-- One run of the body: the block (zero at a first column tile) gains the tile's contribution from the rows the scratch then holds (freshly gathered at a first column tile).
theorem run (hf : cond i → (o, s) = (k2_pay1 (k2_pay4 (k2_pay3 x1 x2) x6 x0 x3 x0 x4 x0 x5 x7) (k2_pay2 (F := F)), k2_pay3 x1 x2))
    (hn : ¬cond i → (o, s) = (k2_pay1 (k2_pay4 xs x6 x0 x3 x0 x4 x0 x5 x7) xo, xs)) (E : Set ℕ) (K : PUnit → sProp 𝕄) :
    iprop(owns c.tc a2 fullShare x0 ∗ owns c.tc a3 fullShare x1 ∗ owns c.tc a4 fullShare x2 ∗ owns c.tc a5 fullShare x3 ∗ owns c.tc a6 fullShare x4 ∗ owns c.tc a7 fullShare x5 ∗ owns c.tc a8 fullShare x6 ∗ owns c.tc a9 fullShare x7 ∗ owns c.tc a10 fullShare xo ∗ owns c.tc a11 fullShare xs
        ∗ (iprop(owns c.tc a2 fullShare x0 ∗ owns c.tc a3 fullShare x1 ∗ owns c.tc a4 fullShare x2 ∗ owns c.tc a5 fullShare x3 ∗ owns c.tc a6 fullShare x4 ∗ owns c.tc a7 fullShare x5 ∗ owns c.tc a8 fullShare x6 ∗ owns c.tc a9 fullShare x7 ∗ owns c.tc a10 fullShare o ∗ owns c.tc a11 fullShare s) -∗ K ⟨⟩))
      ⊢ wp frame (wpE (defs₀ (F := F)) Variants.none c none) E (cc2_kernel i a2 h2 a3 h3 a4 h4 a5 h5 a6 h6 a7 h7 a8 h8 a9 h9 a10 h10 a11 h11) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
  obtain rfl := h2.eq_unread hf0; obtain rfl := h3.eq_unread hf1; obtain rfl := h4.eq_unread hf2; obtain rfl := h5.eq_unread hf3
  obtain rfl := h6.eq_unread hf4; obtain rfl := h7.eq_unread hf5; obtain rfl := h8.eq_unread hf6; obtain rfl := h9.eq_unread hf7
  obtain rfl := h10.eq_unread hf8; obtain rfl := h11.eq_unread hfs
  by_cases hc : cond i
  on_goal 1 => cases hf hc
  on_goal 2 => cases hn hc
  all_goals
    sl_exec (disch := first | exact hc)
    sl_step
    iapply Hk
    isplitl [H0]; · iexists _; iframe H0; ipureintro; exact h2.read_unread _
    isplitl [H1]; · iexists _; iframe H1; ipureintro; exact h3.read_unread _
    isplitl [H2]; · iexists _; iframe H2; ipureintro; exact h4.read_unread _
    isplitl [H3]; · iexists _; iframe H3; ipureintro; exact h5.read_unread _
    isplitl [H4]; · iexists _; iframe H4; ipureintro; exact h6.read_unread _
    isplitl [H5]; · iexists _; iframe H5; ipureintro; exact h7.read_unread _
    isplitl [H6]; · iexists _; iframe H6; ipureintro; exact h8.read_unread _
    isplitl [H7]; · iexists _; iframe H7; ipureintro; exact h9.read_unread _
    isplitl [H8]
  · iexists _; iframe H8; ipureintro
    refine (View.read_writes_eq_canon _ _ _ (View.cover_of_tiledL _ S512x2048.size (by sl_kernel_rfl))).trans ?_
    sl_unfold_words
    refine (View.canon_cons_unit_zero (S := S512x2048) hz2 _ _ _).trans ?_
    simp only [View.readAt_eq_ld, h2.read_unread, h3.read_unread, h4.read_unread, h5.read_unread, h6.read_unread, h7.read_unread, h8.read_unread, h9.read_unread,
      View.ld_unit_zero (S := S512x2048) hz2, View.ld_unit_zero (S := S512x64) hz2, View.ld_unit_zero (S := S64x2048) hz2, View.ld_unit_zero (S := S2048x256) hz2, View.ld_unit_zero (S := S256x2048) hz2,
      View.readCov_unit_zero (S := S512x2048) _ hz2]
  · iexists _; iframe HS; ipureintro
    refine (View.read_writes_eq_canon _ _ _ (View.cover_of_tiledL _ S512x2048.size (by sl_kernel_rfl))).trans ?_
    sl_unfold_words
    refine (View.canon_unit_zero (S := S512x2048) hz2 _ _).trans ?_
    simp only [View.readAt_eq_ld, h3.read_unread, h4.read_unread, View.ld_unit_zero (S := S512x64) hz2, View.ld_unit_zero (S := S64x2048) hz2]
  · iexists _; iframe H8; ipureintro
    refine (View.read_writes_eq_canon _ _ _ (View.cover_of_tiledL _ S512x2048.size (by sl_kernel_rfl))).trans ?_
    sl_unfold_words
    refine (View.canon_unit_zero (S := S512x2048) hz2 _ _).trans ?_
    simp only [View.readAt_eq_ld, h2.read_unread, h5.read_unread, h6.read_unread, h7.read_unread, h8.read_unread, h9.read_unread, h10.read_unread, h11.read_unread,
      View.ld_unit_zero (S := S512x2048) hz2, View.ld_unit_zero (S := S2048x256) hz2, View.ld_unit_zero (S := S256x2048) hz2]
  · iexists _; iframe HS; ipureintro; exact h11.read_unread _

end

variable (V : (c : Dev nD) → (b : Ref sig .tc) → Buf (Elt F) ((c : Thread nD τ).loc b)) (c : Dev nD)

def iblk (w : Fin cfg2.W) (t : Fin cfg2.N) : ((cfg2.win w).xblock (cfg2.grid.coords t)).Idx → Elt F (cfg2.win w).elt :=
  ((cfg2.win w).blk t).view.read (Elt F) (V c (Pipeline.arrRef spec2 w))

-- One point's step: the block gains the tile's contribution computed from the carried rows; the rows stay.
def nextAt (t : Fin cfg2.N) (p : Vec F S512x2048 .f32 × Vec F S512x2048 .bf16) : Vec F S512x2048 .f32 × Vec F S512x2048 .bf16 :=
  (k2_pay1 (k2_pay4 p.2 (iblk V c 6 t) (iblk V c 0 t) (iblk V c 3 t) (iblk V c 0 t) (iblk V c 4 t) (iblk V c 0 t) (iblk V c 5 t) (iblk V c 7 t)) p.1, p.2)

-- A first-tile point steps from the zero block and the freshly gathered rows.
def firstAt (t : Fin cfg2.N) : Vec F S512x2048 .f32 × Vec F S512x2048 .bf16 :=
  nextAt V c t (k2_pay2 (F := F), k2_pay3 (iblk V c 1 t) (iblk V c 2 t))

def outsAt : (n : ℕ) → n < cfg2.N → Vec F S512x2048 .f32 × Vec F S512x2048 .bf16
  | 0, hn => firstAt V c ⟨0, hn⟩
  | n + 1, hn => if (n + 1) % 64 = 0 then firstAt V c ⟨n + 1, hn⟩ else nextAt V c ⟨n + 1, hn⟩ (outsAt n (Nat.lt_of_succ_lt hn))

theorem outsAt_first : ∀ (t : Fin cfg2.N) (h : t.val % 64 = 0),
    outsAt V c t.val t.isLt
      = (k2_pay1 (k2_pay4 (k2_pay3 (iblk V c 1 t) (iblk V c 2 t)) (iblk V c 6 t) (iblk V c 0 t) (iblk V c 3 t) (iblk V c 0 t) (iblk V c 4 t) (iblk V c 0 t) (iblk V c 5 t) (iblk V c 7 t)) (k2_pay2 (F := F)), k2_pay3 (iblk V c 1 t) (iblk V c 2 t))
  | ⟨0, _⟩, _ => rfl
  | ⟨_ + 1, _⟩, h => (if_pos h).trans rfl

theorem outsAt_next : ∀ (t : Fin cfg2.N) (h : ¬ t.val % 64 = 0),
    outsAt V c t.val t.isLt
      = (k2_pay1 (k2_pay4 (outsAt V c (t.val - 1) (Nat.lt_of_le_of_lt (Nat.sub_le _ _) t.isLt)).2 (iblk V c 6 t) (iblk V c 0 t) (iblk V c 3 t) (iblk V c 0 t) (iblk V c 4 t) (iblk V c 0 t) (iblk V c 5 t) (iblk V c 7 t)) (outsAt V c (t.val - 1) (Nat.lt_of_le_of_lt (Nat.sub_le _ _) t.isLt)).1, (outsAt V c (t.val - 1) (Nat.lt_of_le_of_lt (Nat.sub_le _ _) t.isLt)).2)
  | ⟨0, _⟩, h => absurd (Nat.zero_mod _) h
  | ⟨_ + 1, _⟩, h => (if_neg h).trans rfl

-- The region's invariant around what it says of the scratch.
def PhiW (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

theorem PhiA_eq : (Pipeline.ΦA spec2 c : sProp 𝕄) = PhiW c iprop(∃ d, owns c.tc scM fullShare d) := by
  unfold Pipeline.ΦA PhiW; rw [scopedRest2_split]; simp only [scM, owns_whole]; try rfl

-- Before position `n` the scratch holds what the point before left there; before the first point, anything.
def PhiS (n : ℕ) (hn : n ≤ cfg2.N) : sProp 𝕄 :=
  PhiW c iprop(∃ s, ⌜∀ h0 : n ≠ 0, s = (outsAt V c (n - 1) (by omega)).2⌝ ∗ owns c.tc scM fullShare s)

def dat : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt V c t.val t.isLt).1
  Φ t := PhiS V c t.val (Nat.le_of_lt_succ t.isLt)
  q _ := fullShare
  owed _ := 0

theorem A_eq (w : Fin cfg2.W) : (dat V c).A w = V c (Pipeline.arrRef spec2 w) := rfl

theorem after_out (t : Fin cfg2.N) : (dat V c).after 8 t = (outsAt V c t.val t.isLt).1 := rfl

theorem before_0 : ∀ t d, (dat V c).before 0 t d = iblk V c 0 t :=
  (dat V c).before_in_eq_fetched 0 rfl (fun _ => rfl) (fun _ _ _ => rfl) fun _ => rfl
theorem before_1 : ∀ t d, (dat V c).before 1 t d = iblk V c 1 t :=
  (dat V c).before_in_eq_fetched 1 rfl (fun _ => rfl) (fun _ _ _ => rfl) fun _ => rfl
theorem before_2 : ∀ t d, (dat V c).before 2 t d = iblk V c 2 t :=
  (dat V c).before_in_eq_fetched 2 rfl (fun _ => rfl) (fun _ _ _ => rfl) fun _ => rfl
theorem before_3 : ∀ t d, (dat V c).before 3 t d = iblk V c 3 t :=
  (dat V c).before_in_eq_fetched 3 rfl (fun _ => rfl) (fun _ _ _ => rfl) fun _ => rfl
theorem before_4 : ∀ t d, (dat V c).before 4 t d = iblk V c 4 t :=
  (dat V c).before_in_eq_fetched 4 rfl (fun _ => rfl) (fun _ _ _ => rfl) fun _ => rfl
theorem before_5 : ∀ t d, (dat V c).before 5 t d = iblk V c 5 t :=
  (dat V c).before_in_eq_fetched 5 rfl (fun _ => rfl) (fun _ _ _ => rfl) fun _ => rfl
theorem before_6 : ∀ t d, (dat V c).before 6 t d = iblk V c 6 t :=
  (dat V c).before_in_eq_fetched 6 rfl (fun _ => rfl) (fun _ _ _ => rfl) fun _ => rfl
theorem before_7 : ∀ t d, (dat V c).before 7 t d = iblk V c 7 t :=
  (dat V c).before_in_eq_fetched 7 rfl (fun _ => rfl) (fun _ _ _ => rfl) fun _ => rfl

theorem before_out_next (t : Fin cfg2.N) (h : ¬ t.val % 64 = 0) (d) :
    (dat V c).before 8 t d = (outsAt V c (t.val - 1) (Nat.lt_of_le_of_lt (Nat.sub_le _ _) t.isLt)).1 :=
  (dat V c).before_out_kept 8 rfl t (fun h0 => h (by rw [h0]))
    (Bool.eq_false_iff.mpr fun hf => by have := (flush2_8 _).mp hf; dsimp only at this; omega) (fun _ => rfl) (fun _ _ => rfl) d

theorem hin : Pipeline.ΦA spec2 c ⊢ (dat V c).Φ 0 := by
  rw [PhiA_eq]; show _ ⊢ PhiS V c 0 (Nat.zero_le _); unfold PhiS PhiW
  iintro ⟨⟨⟨%d, HS⟩, Hr⟩, Hg⟩
  iframe
  iexists d; iframe HS; ipureintro; exact fun h0 => absurd rfl h0

theorem hout : (dat V c).Φ (Fin.last cfg2.N) ⊢ Pipeline.ΦA spec2 c := by
  rw [PhiA_eq]; show PhiS V c _ (Nat.le_of_lt_succ (Fin.last _).isLt) ⊢ _; unfold PhiS PhiW
  iintro ⟨⟨⟨%s, -, HS⟩, Hr⟩, Hg⟩
  iframe
  iexists s; iexact HS

set_option maxHeartbeats 4800000 in
theorem sound_body (t : Fin cfg2.N) :
    iprop(PhiS V c t.val (Nat.le_of_lt t.isLt) ∗ (dat V c).owesAt () t.castSucc
      ∗ (∃ d, owns c.tc (win2_0.stage (cfg2.slots t 0)) fullShare ((dat V c).before 0 t d))
      ∗ (∃ d, owns c.tc (win2_1.stage (cfg2.slots t 1)) fullShare ((dat V c).before 1 t d))
      ∗ (∃ d, owns c.tc (win2_2.stage (cfg2.slots t 2)) fullShare ((dat V c).before 2 t d))
      ∗ (∃ d, owns c.tc (win2_3.stage (cfg2.slots t 3)) fullShare ((dat V c).before 3 t d))
      ∗ (∃ d, owns c.tc (win2_4.stage (cfg2.slots t 4)) fullShare ((dat V c).before 4 t d))
      ∗ (∃ d, owns c.tc (win2_5.stage (cfg2.slots t 5)) fullShare ((dat V c).before 5 t d))
      ∗ (∃ d, owns c.tc (win2_6.stage (cfg2.slots t 6)) fullShare ((dat V c).before 6 t d))
      ∗ (∃ d, owns c.tc (win2_7.stage (cfg2.slots t 7)) fullShare ((dat V c).before 7 t d))
      ∗ (∃ d, owns c.tc (win2_8.stage (cfg2.slots t 8)) fullShare ((dat V c).before 8 t d)))
    ⊢ wp frame (wpE (defs₀ (F := F)) Variants.none c none) Set.univ (bodyAt2 t) (fun _ => iprop(PhiS V c (t.val + 1) t.isLt ∗ (dat V c).owesAt () t.castSucc
      ∗ owns c.tc (win2_0.stage (cfg2.slots t 0)) fullShare (iblk V c 0 t)
      ∗ owns c.tc (win2_1.stage (cfg2.slots t 1)) fullShare (iblk V c 1 t)
      ∗ owns c.tc (win2_2.stage (cfg2.slots t 2)) fullShare (iblk V c 2 t)
      ∗ owns c.tc (win2_3.stage (cfg2.slots t 3)) fullShare (iblk V c 3 t)
      ∗ owns c.tc (win2_4.stage (cfg2.slots t 4)) fullShare (iblk V c 4 t)
      ∗ owns c.tc (win2_5.stage (cfg2.slots t 5)) fullShare (iblk V c 5 t)
      ∗ owns c.tc (win2_6.stage (cfg2.slots t 6)) fullShare (iblk V c 6 t)
      ∗ owns c.tc (win2_7.stage (cfg2.slots t 7)) fullShare (iblk V c 7 t)
      ∗ owns c.tc (win2_8.stage (cfg2.slots t 8)) fullShare (outsAt V c t.val t.isLt).1)) := by
  simp only [before_0, before_1, before_2, before_3, before_4, before_5, before_6, before_7]
  unfold PhiS PhiW
  iintro ⟨⟨⟨⟨%s, %hs, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid2.coords t) _ _ _ _ _ _ _ _ _ _ (iblk V c 0 t) (iblk V c 1 t) (iblk V c 2 t) (iblk V c 3 t) (iblk V c 4 t) (iblk V c 5 t) (iblk V c 6 t) (iblk V c 7 t) ((dat V c).before 8 t d8) (outsAt V c t.val t.isLt).1 s (outsAt V c t.val t.isLt).2
    (fun hc => outsAt_first V c t ((hcond t).mp hc))
    (fun hc => by
      have h := mt (hcond t).mpr hc
      rw [before_out_next V c t h d8, hs fun h0 => h (by rw [h0])]; exact outsAt_next V c t h) Set.univ _)
  iframe
  iintro ⟨H0, H1, H2, H3, H4, H5, H6, H7, H8, HS⟩
  iframe
  iexists _; iframe HS; ipureintro; exact fun _ => rfl

theorem body_obligation : BodyObligation (dat V c) (defs₀ (F := F)) Variants.none () Set.univ := fun t => by
  rw [bigSep_W2, bigSep_W2]
  exact sound_body V c t

end Cert.Kernel.Reg2

end
-- ==== Proof.K.Inst.lean ====
import proofs.«426359_j52879637348696_1_alg».proof.Proof.K.Asm
import proofs.«426359_j52879637348696_1_alg».proof.Proof.K.Reg0
import proofs.«426359_j52879637348696_1_alg».proof.Proof.K.Reg1
import proofs.«426359_j52879637348696_1_alg».proof.Proof.K.Reg2

noncomputable section

namespace Cert.Kernel.Inst

open Gen GenP
open Idealize.ShloMosaic Idealize.ShloMosaic.TcCoe
open Idealize.SL Idealize.SL.BI
open Idealize.SL.BI.BIBase Idealize.SL.ProofMode Idealize.SL.Sem

variable {F : FTy → Type} [FloatOps F]

variable (m : (ℓ : Loc nD τ sig) → Buf (Elt F) ℓ)

abbrev vf (V : Dev nD → Valuation τ sig (Elt F)) : (c : Dev nD) → (b : Ref sig .tc) → Buf (Elt F) ((c : Thread nD τ).loc b) :=
  fun c b => V c b

def arr0 (c : Dev nD) : Buf (Elt F) ((c : Thread nD τ).loc main_v30) := (Reg0.dat (vf (V14 m)) c).arrAt 6 cfg0.N

def outsA : Outs (F := F) := fun J r c => match J with
  | 15 => Function.update (vf (V14 m) c) main_v30 (arr0 m c) r
  | _ => V14 m c r

def arr1 (c : Dev nD) : Buf (Elt F) ((c : Thread nD τ).loc main_v64) := (Reg1.dat (vf (V31 m (outsA m))) c).arrAt 7 cfg1.N

def outsB : Outs (F := F) := fun J r c => match J with
  | 15 => Function.update (vf (V14 m) c) main_v30 (arr0 m c) r
  | 32 => Function.update (vf (V31 m (outsA m)) c) main_v64 (arr1 m c) r
  | _ => V14 m c r

def arr2 (c : Dev nD) : Buf (Elt F) ((c : Thread nD τ).loc main_v104) := (Reg2.dat (vf (V52 m (outsB m))) c).arrAt 8 cfg2.N

/-- What the three regions leave in the arrays they write. -/
def outs : Outs (F := F) := fun J r c => match J with
  | 15 => Function.update (vf (V14 m) c) main_v30 (arr0 m c) r
  | 32 => Function.update (vf (V31 m (outsA m)) c) main_v64 (arr1 m c) r
  | 53 => Function.update (vf (V52 m (outsB m)) c) main_v104 (arr2 m c) r
  | _ => V14 m c r

theorem outs_15 (c : Dev nD) : outs m 15 main_v30 c = arr0 m c := by unfold outs; exact Function.update_self ..
theorem outs_32 (c : Dev nD) : outs m 32 main_v64 c = arr1 m c := by unfold outs; exact Function.update_self ..
theorem outs_53 (c : Dev nD) : outs m 53 main_v104 c = arr2 m c := by unfold outs; exact Function.update_self ..

/-- Each region's proof data at the contents the region is entered with. -/
def pd : (p : Fin 3) → (c : Dev nD) → Pipeline.Dat τ (Elt F) Unit ℕ (UR sig nD τ) ℕ (cfgs p) c
  | ⟨0, _⟩ => Reg0.dat (vf (V14 m))
  | ⟨1, _⟩ => Reg1.dat (vf (V31 m (outsA m)))
  | ⟨2, _⟩ => Reg2.dat (vf (V52 m (outsB m)))

theorem ok0 : Asm.Ok (pd m) 0 6 (V14 m) (V15 m (outs m)) :=
  ⟨by decide, Reg0.A_eq _, fun _ _ => rfl, fun _ _ => rfl, fun _ _ => rfl, Reg0.body_obligation _, Reg0.hin _, Reg0.hout _,
    fun c => congrArg (Function.update (V14 m c) main_v30) (outs_15 m c)⟩

theorem ok1 : Asm.Ok (pd m) 1 7 (V31 m (outs m)) (V32 m (outs m)) :=
  ⟨by decide, Reg1.A_eq _, fun _ _ => rfl, fun _ _ => rfl, fun _ _ => rfl, Reg1.body_obligation _, Reg1.hin _, Reg1.hout _,
    fun c => congrArg (Function.update (V31 m (outs m) c) main_v64) (outs_32 m c)⟩

theorem ok2 : Asm.Ok (pd m) 2 8 (V52 m (outs m)) (V53 m (outs m)) :=
  ⟨by decide, Reg2.A_eq _, fun _ _ => rfl, fun _ _ => rfl, fun _ _ => rfl, Reg2.body_obligation _, Reg2.hin _, Reg2.hout _,
    fun c => congrArg (Function.update (V52 m (outs m) c) main_v104) (outs_53 m c)⟩

variable (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m emb₁ () .none Asm.L Asm.lv (fun _ _ => rfl) ρ (outs m) (pd m) 0 (fun _ => BI.emp) _ Asm.hu₀ (fun _ => Asm.R)
    (Pipeline.initEach _ _ fun c => by
      iintro ⟨⟨-, HO, -, Hp, -⟩, -⟩; imodintro
      isplitl [Hp]; · iexists _; iexact Hp
      iexists ∅; iexact HO)
    (fun c => by iintro ⟨-, HO⟩; iexact HO)
    (Asm.reg (ok0 m)) (fun _ => .rfl) (fun _ => .rfl) (Asm.reg (ok1 m)) (fun _ => .rfl) (fun _ => .rfl)
    (Asm.reg (ok2 m)) (fun _ => .rfl) (fun _ => .rfl)

end Cert.Kernel.Inst

end
-- ==== Proof.KI.Asm.lean ====
import proofs.«426359_j52879637348696_1_alg».proof.Proof.RegionsKI
import Idealize.ShloMosaic.Lib.Pipeline.RegionsLoop

noncomputable section

namespace Cert.KernelIdeal.Asm

open Gen GenP
open Idealize.ShloMosaic Idealize.ShloMosaic.TcCoe
open Idealize.SL Idealize.SL.RA Idealize.SL.BI
open Idealize.SL.BI.BIBase Idealize.SL.ProofMode

variable {F : FTy → Type} [FloatOps F]

local notation "𝕄" => MT nD τ sig Unit (Elt F) ℕ (UR sig nD τ) ℕ

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

variable (pd : (p : Fin 3) → (c : Dev nD) → Pipeline.Dat τ (Elt F) Unit ℕ (UR sig nD τ) ℕ (cfgs p) c)

/-- Region p's proof data reads its arrays off V, owes nothing, meets the body obligation, and writes only window o's array, which Vp updates. -/
structure Ok (p : Fin 3) (o : Fin (cfgs p).W) (V Vp : Dev nD → Valuation τ sig (Elt F)) : Prop where
  hio : ∀ w, w ≠ o → ((cfgs p).win w).isOut = false
  hA : ∀ c w, (pd p c).A w = V c (Pipeline.arrRef (cfgs p).spec w)
  hq : ∀ c w, (pd p c).q w = fullShare
  howed : ∀ c t, (pd p c).owed t = 0
  hrec : ∀ c t, (pd p c).recorded t = Set.univ
  hbody : ∀ c, Pipeline.BodyObligation (pd p c) (defs₀ (F := F)) .none () Set.univ
  hin : ∀ c, Pipeline.ΦA (cfgs p).spec c ⊢ (pd p c).Φ 0
  hout : ∀ c, (pd p c).Φ (Fin.last (cfgs p).N) ⊢ Pipeline.ΦA (cfgs p).spec c
  hVp : ∀ c, Vp c = Function.update (V c) (Pipeline.arrRef (cfgs p).spec o) ((pd p c).arrAt o (cfgs p).N)

theorem launch : ∀ p : Fin 3, Pipeline.LaunchFacts (nD := nD) (τ := τ) cfgs p
  | ⟨0, _⟩ => launch0 | ⟨1, _⟩ => launch1 | ⟨2, _⟩ => launch2

variable {pd}

/-- Region p as a segment: the arrays are split out of the unscoped buffers held at V and put back at Vp. -/
def reg {p : Fin 3} {o : Fin (cfgs p).W} {V Vp : Dev nD → Valuation τ sig (Elt F)} (h : Ok pd p o V Vp) :
    Pipeline.RegionSeg (pcfgs (F := F)) adm pd () defs₀ .none L lv p where
  win := (launch p).win.to₀
  block_pos := (launch p).block_pos
  stage_whole := (launch p).stage_whole
  K := PEmpty
  osem k := k.elim
  ho := .none _
  hbody c := (h.hbody c).loose
  hwaits := Pipeline.hwaits_of_owed_zero _ _ _ _ L lv p h.howed
  pre c := iprop(StableHlo.held (c : Thread nD τ) (Pipeline.ucRefs τ sig) (V c) ∗ R c)
  post c := iprop(StableHlo.held (c : Thread nD τ) (Pipeline.ucRefs τ sig) (Vp c) ∗ R c)
  X c := iprop(∃ r, prngReg c r)
  Y c := iprop(∃ r, prngReg c r)
  Z c := Pipeline.unscopedRest (cfgs p).spec c fun b : Ref sig .tc => V c b
  hentry c := by
    have hsplit := Pipeline.arrays_of_unscopedBufs (p := p) (pcfgs (F := F)) adm pd (launch p).win (launch p).arr_whole c
      ((pd p c).share_full (h.hq c)) (fun b : Ref sig .tc => V c b) (h.hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h.howed c]
      icases HO with ⟨%W, HO⟩; iexists W; isplitr; · ipureintro; exact fun _ _ => Or.inl (by rw [h.hrec c]; trivial)
      iexact HO
    isplitl [Hp]; · iexact Hp
    iexact Hrest
  hin c := by
    refine BI.Entails.trans ?_ (h.hin c)
    unfold Pipeline.ΦA
    show (_ : sProp 𝕄) ⊢ _
    iintro ⟨Hp, -, Hr⟩
    isplitl [Hr]; · iexact Hr
    iexact Hp
  hout c := by
    rw [Pipeline.ownSems0_none]
    refine BI.Entails.trans (h.hout c) ?_
    unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := p) (pcfgs (F := F)) adm (launch p).win (launch p).arr_whole c pd ((pd p c).share_full (h.hq c))
      (fun b : Ref sig .tc => V c b) (fun b : Ref sig .tc => Vp c b) ((pd p c).arrAt · (cfgs p).N)
      (fun w => by
        rw [h.hVp c]
        by_cases e : w = o
        · subst e; exact .symm (Function.update_self ..)
        · rw [Function.update_of_ne (StableHlo.devRef_ne_of_ne ((launch p).win.arr_inj.ne e)), (pd p c).arrAt_in w (h.hio w e), h.hA])
      (fun b hb => by
        rw [h.hVp c]
        exact Function.update_of_ne (StableHlo.devRef_ne_of_ne fun e => hb (Finset.mem_image.mpr ⟨o, Finset.mem_univ o, e.symm⟩)) ..)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h.howed c]
    icases HO with ⟨%W, -, HO⟩; iexists W; iexact HO

theorem hu₀ : (ownU (Rounds.initOf (Pipeline.cells cfgs cellOf_inj) (Pipeline.launchToks cfgs cellOf_inj)) : sProp 𝕄)
    ⊢ |={Set.univ}=> iprop(BI.own (emb₁ (Rounds.initOf (Pipeline.cells cfgs cellOf_inj) (Pipeline.launchToks cfgs cellOf_inj))) ∗ bigSep Finset.univ fun _ : Dev nD => (BI.emp : sProp 𝕄)) := by
  rw [BI.bigSep_emp_const]
  iintro Hu; imodintro
  isplitl [Hu]; · iapply (show (ownU _ : sProp 𝕄) ⊢ BI.own (emb₁ _) from .rfl); iexact Hu
  iempintro

end Cert.KernelIdeal.Asm

end
-- ==== Proof.KI.Reg0.lean ====
import proofs.«426359_j52879637348696_1_alg».proof.Proof.Gen.KernelIdeal.Launch
import proofs.«426359_j52879637348696_1_alg».proof.Proof.Gen.KernelIdeal.Skeleton
import proofs.«426359_j52879637348696_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid0.Coords) : Prop :=
  (Scalar.cmpi .ne (Scalar.extui (Scalar.cmpi .eq (BitVec.ofNat 32 (i 1).val) 0#32)) 0#32) = 1#1

theorem hcond0 : ∀ t : Fin cfg0.N, cond0 (grid0.coords t) ↔ t.val % 16 = 0 :=
  (by decide +kernel : ∀ t : Fin grid0.N, cond0 (grid0.coords t) ↔ t.val % 16 = 0)

theorem zeros2 : (![0, 0] : Fin 2 → ℕ) = fun _ => 0 := by funext a; fin_cases a <;> rfl

/-- A whole memref owned at `X` is its points-to at the raw contents that read `X`. -/
theorem owns_unread {c : Dev nD} {s : Shape} {e : EltTy} {m : Memref sig .tc .vmem s e} (h : m.IsWhole) (X : s.Idx → Elt F e) :
    (owns c.tc m fullShare X : sProp 𝕄) = (m.view.loc c.tc ↦[m.view.set]{fullShare} h.unread X) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr
    · ipureintro; exact h.read_unread X
    iexact H

/-- The body run whole: with `S`, `O` the selected rows of `x0` and the zero block at a first column tile, else the scratch and the output block as found, it leaves the scratch at `S` and the output block at `O` updated by the tile's contribution. -/
theorem run {c : Dev nD} {i : grid0.Coords} {a2 a3 a4 a5 a6 a7 a8 a9} {h2 : Memref.IsWhole a2} {h3 : Memref.IsWhole a3} {h4 : Memref.IsWhole a4} {h5 : Memref.IsWhole a5}
    {h6 : Memref.IsWhole a6} {h7 : Memref.IsWhole a7} {h8 : Memref.IsWhole a8} {h9 : Memref.IsWhole a9} (x0 x1 x2 x3 x4 x5 xo xs S O)
    (hS : S = if cond0 i then k0_pay2 x1 x2 else xs) (hO : O = if cond0 i then k0_pay1 (F := F) else xo) {E : Set ℕ} {K : PUnit → sProp 𝕄} :
    iprop(owns c.tc a2 fullShare x0 ∗ owns c.tc a3 fullShare x1 ∗ owns c.tc a4 fullShare x2 ∗ owns c.tc a5 fullShare x3 ∗ owns c.tc a6 fullShare x4 ∗ owns c.tc a7 fullShare x5 ∗ owns c.tc a8 fullShare xo ∗ owns c.tc a9 fullShare xs
        ∗ (iprop(owns c.tc a2 fullShare x0 ∗ owns c.tc a3 fullShare x1 ∗ owns c.tc a4 fullShare x2 ∗ owns c.tc a5 fullShare x3 ∗ owns c.tc a6 fullShare x4 ∗ owns c.tc a7 fullShare x5 ∗ owns c.tc a8 fullShare (k0_pay3 S x4 x0 x3 x5 O) ∗ owns c.tc a9 fullShare S) -∗ K ⟨⟩))
      ⊢ wp frame (wpE (defs₀ (F := F)) Variants.none c none) E (cc0_kernel i a2 h2 a3 h3 a4 h4 a5 h5 a6 h6 a7 h7 a8 h8 a9 h9) K := by
  rw [owns_unread h2 x0, owns_unread h3 x1, owns_unread h4 x2, owns_unread h5 x3, owns_unread h6 x4, owns_unread h7 x5, owns_unread h8 xo, owns_unread h9 xs]
  simp only [cc0_kernel_eq_skeleton]; unfold cc0_kernel_skel owns
  by_cases hc : cond0 i <;> (first | rw [if_pos hc] at hS hO | rw [if_neg hc] at hS hO) <;> subst hS hO <;>
   (iintro ⟨H0, H1, H2, H3, H4, H5, H6, HS, Hk⟩
    sl_exec (disch := first | exact hc)
    sl_step
    iapply Hk
    iframe H0 H1 H2 H3 H4 H5
    isplitl [H6]
    all_goals
      iexists _; isplitr; swap; first | iexact H6 | iexact HS
      ipureintro
      first
      | (rw [View.read_writes_eq_canon _ _ _ (View.cover_of_tiledL _ S512x2048.size (by sl_kernel_rfl))]; sl_unfold_words
         rw [View.canon_cons_unit_zero (S := S512x2048) zeros2]
         simp only [View.readAt_eq_ld, Memref.IsWhole.read_unread, View.ld_unit_zero (S := S512x2048) zeros2,
           View.ld_unit_zero (S := S512x64) zeros2, View.ld_unit_zero (S := S64x2048) zeros2,
           View.ld_unit_zero (S := S2048x256) zeros2, View.ld_unit_zero (S := S256x2048) zeros2,
           View.readCov_unit_zero (S := S512x2048) _ zeros2])
      | exact h9.read_unread _)

variable (V : (c : Dev nD) → (b : Ref sig .tc) → Buf (Elt F) ((c : Thread nD τ).loc b)) (c : Dev nD)

/-- The block of array `w` that point `t` reads. -/
def iblk (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's update of (output block, scratch) from the scratch `S` and the output block `O` it starts from. -/
def step (t : Fin cfg0.N) (S : Vec F S512x2048 .bf16) (O : Vec F S512x2048 .f32) :=
  (k0_pay3 S (iblk V c 4 t) (iblk V c 0 t) (iblk V c 3 t) (iblk V c 5 t) O, S)

/-- A row tile's first point starts from the selected rows of `x0` and the zero block. -/
def start (t : Fin cfg0.N) := step V c t (k0_pay2 (iblk V c 1 t) (iblk V c 2 t)) k0_pay1

/-- The pair (output block, scratch) after point `n`, by recursion along a row tile. -/
def outsAt : (n : ℕ) → n < cfg0.N → Vec F S512x2048 .f32 × Vec F S512x2048 .bf16
  | 0, hn => start V c ⟨0, hn⟩
  | n + 1, hn => if (n + 1) % 16 = 0 then start V c ⟨n + 1, hn⟩
    else step V c ⟨n + 1, hn⟩ (outsAt n (Nat.lt_of_succ_lt hn)).2 (outsAt n (Nat.lt_of_succ_lt hn)).1

theorem outsAt_first (t : Fin cfg0.N) (h : t.val % 16 = 0) :
    outsAt V c t.val t.isLt = (k0_pay3 (k0_pay2 (iblk V c 1 t) (iblk V c 2 t)) (iblk V c 4 t) (iblk V c 0 t) (iblk V c 3 t) (iblk V c 5 t) (k0_pay1 (F := F)), k0_pay2 (iblk V c 1 t) (iblk V c 2 t)) := by
  obtain ⟨n, hn⟩ := t
  cases n with
  | zero => rfl
  | succ n => exact (if_pos h).trans rfl

theorem outsAt_next (t : Fin cfg0.N) (h : ¬ t.val % 16 = 0) :
    outsAt V c t.val t.isLt = (k0_pay3 (outsAt V c (t.val - 1) (Nat.lt_of_le_of_lt (Nat.sub_le _ _) t.isLt)).2 (iblk V c 4 t) (iblk V c 0 t) (iblk V c 3 t) (iblk V c 5 t) (outsAt V c (t.val - 1) (Nat.lt_of_le_of_lt (Nat.sub_le _ _) t.isLt)).1, (outsAt V c (t.val - 1) (Nat.lt_of_le_of_lt (Nat.sub_le _ _) t.isLt)).2) := by
  obtain ⟨n, hn⟩ := t
  cases n with
  | zero => exact absurd (Nat.zero_mod _) h
  | succ n => exact (if_neg h).trans rfl

abbrev m0 (t : Fin cfg0.N) := win0_0.stage (cfg0.slots t 0)
abbrev m1 (t : Fin cfg0.N) := win0_1.stage (cfg0.slots t 1)
abbrev m2 (t : Fin cfg0.N) := win0_2.stage (cfg0.slots t 2)
abbrev m3 (t : Fin cfg0.N) := win0_3.stage (cfg0.slots t 3)
abbrev m4 (t : Fin cfg0.N) := win0_4.stage (cfg0.slots t 4)
abbrev m5 (t : Fin cfg0.N) := win0_5.stage (cfg0.slots t 5)
abbrev m6 (t : Fin cfg0.N) := win0_6.stage (cfg0.slots t 6)
abbrev scM : Memref sig .tc .vmem S512x2048 .bf16 := Memref.whole cc0_scratch0
abbrev others : sProp 𝕄 :=
  Pipeline.scopedRestBut (Ix := Unit) (Name := ℕ) (U := UR sig nD τ) (Lvl := ℕ) (Val := Elt F) spec0 c [cc0_scratch0]

theorem PhiA_eq :
    (Pipeline.ΦA spec0 c : sProp 𝕄)
      = iprop(iprop((∃ d, owns c.tc scM fullShare d) ∗ others c) ∗ (∃ r, prngReg c r)) := by
  unfold Pipeline.ΦA; rw [scopedRest0_split]; simp only [scM, others, owns_whole]; rfl

/-- Before point `n` the scratch holds what point `n - 1` left, and anything when `n = 0`. -/
def PhiS : (n : ℕ) → n ≤ cfg0.N → sProp 𝕄
  | 0, _ => Pipeline.ΦA spec0 c
  | n + 1, hn => iprop(iprop(owns c.tc scM fullShare ((outsAt V c n hn).2) ∗ others c) ∗ (∃ r, prngReg c r))

theorem PhiS_pos (n : ℕ) (h : n ≤ cfg0.N) (hz : n ≠ 0) :
    PhiS V c n h = iprop(iprop(owns c.tc scM fullShare ((outsAt V c (n - 1) (by omega)).2) ∗ others c) ∗ (∃ r, prngReg c r)) := by
  cases n with
  | zero => exact absurd rfl hz
  | succ n => rfl

/-- Forgetting the scratch's contents weakens the invariant at any point to the launch's. -/
theorem PhiS_le : ∀ n h, PhiS V c n h ⊢ Pipeline.ΦA spec0 c
  | 0, _ => Entails.refl _
  | n + 1, _ => by
    rw [PhiS, PhiA_eq]; iintro ⟨⟨HS, Hr⟩, Hg⟩; iframe Hr Hg; iexists _; iexact HS

def dat : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem A_eq (w : Fin cfg0.W) : (dat V c).A w = V c (Pipeline.arrRef spec0 w) := rfl

theorem after_out (t : Fin cfg0.N) : (dat V c).after 6 t = (outsAt V c t.val t.isLt).1 := rfl

/-- What the body finds for an input is that input's block. -/
theorem before_in (t : Fin cfg0.N) :
    (∀ d, (dat V c).before 0 t d = iblk V c 0 t) ∧ (∀ d, (dat V c).before 1 t d = iblk V c 1 t) ∧ (∀ d, (dat V c).before 2 t d = iblk V c 2 t)
      ∧ (∀ d, (dat V c).before 3 t d = iblk V c 3 t) ∧ (∀ d, (dat V c).before 4 t d = iblk V c 4 t) ∧ (∀ d, (dat V c).before 5 t d = iblk V c 5 t) := by
  refine ⟨?_, ?_, ?_, ?_, ?_, ?_⟩ <;> intro d <;>
    refine ((dat V c).before_in_eq_fetched _ ?_ ?_ ?_ ?_ t d).trans ?_ <;> intros <;> rfl

/-- Within a row tile the body finds the output block as the point before left it. -/
theorem before_out_next (t : Fin cfg0.N) (h : ¬ t.val % 16 = 0) (d) :
    (dat V c).before 6 t d = (outsAt V c (t.val - 1) (Nat.lt_of_le_of_lt (Nat.sub_le _ _) t.isLt)).1 := by
  rw [Dat.before_out_kept _ 6 rfl t (by omega)
    (Bool.eq_false_iff.mpr fun hf => by have := (flush0_6 _).mp hf; dsimp only at this; omega)
    (fun _ => rfl) (fun _ _ => rfl)]
  rfl

/-- One step: from the invariant and the blocks before point `t` to those after it. -/
theorem sound_body (t : Fin cfg0.N) :
    iprop(PhiS V c t.val (Nat.le_of_lt t.isLt) ∗ (dat V c).owesAt () t.castSucc
        ∗ (∃ d, owns c.tc (m0 t) fullShare ((dat V c).before 0 t d))
        ∗ (∃ d, owns c.tc (m1 t) fullShare ((dat V c).before 1 t d))
        ∗ (∃ d, owns c.tc (m2 t) fullShare ((dat V c).before 2 t d))
        ∗ (∃ d, owns c.tc (m3 t) fullShare ((dat V c).before 3 t d))
        ∗ (∃ d, owns c.tc (m4 t) fullShare ((dat V c).before 4 t d))
        ∗ (∃ d, owns c.tc (m5 t) fullShare ((dat V c).before 5 t d))
        ∗ (∃ d, owns c.tc (m6 t) fullShare ((dat V c).before 6 t d)))
      ⊢ wp frame (wpE (defs₀ (F := F)) Variants.none c none) Set.univ (bodyAt0 t) fun _ =>
        iprop(iprop(iprop(owns c.tc scM fullShare (outsAt V c t.val t.isLt).2 ∗ others c) ∗ (∃ r, prngReg c r)) ∗ (dat V c).owesAt () t.castSucc
          ∗ owns c.tc (m0 t) fullShare (iblk V c 0 t) ∗ owns c.tc (m1 t) fullShare (iblk V c 1 t) ∗ owns c.tc (m2 t) fullShare (iblk V c 2 t) ∗ owns c.tc (m3 t) fullShare (iblk V c 3 t) ∗ owns c.tc (m4 t) fullShare (iblk V c 4 t) ∗ owns c.tc (m5 t) fullShare (iblk V c 5 t)
          ∗ owns c.tc (m6 t) fullShare (outsAt V c t.val t.isLt).1) := by
  unfold bodyAt0
  obtain ⟨e0, e1, e2, e3, e4, e5⟩ := before_in V c t
  simp only [e0, e1, e2, e3, e4, e5]
  by_cases h0 : t.val % 16 = 0
  · have hc := (hcond0 t).mpr h0
    rw [outsAt_first V c t h0]; dsimp only
    refine (sep_mono_left (PhiS_le V c _ _)).trans ?_
    rw [PhiA_eq]
    iintro ⟨⟨⟨⟨%ds, HS⟩, Hr⟩, Hg⟩, Ho, ⟨%_, H0⟩, ⟨%_, H1⟩, ⟨%_, H2⟩, ⟨%_, H3⟩, ⟨%_, H4⟩, ⟨%_, H5⟩, ⟨%d6, H6⟩⟩
    iapply run (iblk V c 0 t) (iblk V c 1 t) (iblk V c 2 t) (iblk V c 3 t) (iblk V c 4 t) (iblk V c 5 t) ((dat V c).before 6 t d6) ds _ _ (if_pos hc).symm (if_pos hc).symm
    iframe H0 H1 H2 H3 H4 H5 H6 HS
    iintro ⟨H0, H1, H2, H3, H4, H5, H6, HS⟩
    iframe
  · have hc : ¬cond0 (grid0.coords t) := fun h => h0 ((hcond0 t).mp h)
    rw [outsAt_next V c t h0, PhiS_pos V c _ _ fun e => h0 (by rw [e])]; dsimp only
    simp only [before_out_next V c t h0]
    generalize outsAt V c (t.val - 1) _ = p
    iintro ⟨⟨⟨HS, Hr⟩, Hg⟩, Ho, ⟨%_, H0⟩, ⟨%_, H1⟩, ⟨%_, H2⟩, ⟨%_, H3⟩, ⟨%_, H4⟩, ⟨%_, H5⟩, ⟨%_, H6⟩⟩
    iapply run (iblk V c 0 t) (iblk V c 1 t) (iblk V c 2 t) (iblk V c 3 t) (iblk V c 4 t) (iblk V c 5 t) p.1 p.2 _ _ (if_neg hc).symm (if_neg hc).symm
    iframe H0 H1 H2 H3 H4 H5 H6 HS
    iintro ⟨H0, H1, H2, H3, H4, H5, H6, HS⟩
    iframe

theorem body_obligation : BodyObligation (dat V c) (defs₀ (F := F)) Variants.none () Set.univ := fun t => by
  rw [bigSep_W0, bigSep_W0]
  exact sound_body V c t

theorem hin : Pipeline.ΦA spec0 c ⊢ (dat V c).Φ 0 := Entails.refl _

theorem hout : (dat V c).Φ (Fin.last cfg0.N) ⊢ Pipeline.ΦA spec0 c := PhiS_le V c cfg0.N le_rfl

end Cert.KernelIdeal.Reg0

end
-- ==== Proof.KI.Reg1Run.lean ====
import proofs.«426359_j52879637348696_1_alg».proof.Proof.Gen.KernelIdeal.Launch
import proofs.«426359_j52879637348696_1_alg».proof.Proof.Gen.KernelIdeal.Skeleton
import proofs.«426359_j52879637348696_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev cond (i : grid1.Coords) : Prop :=
  (Scalar.cmpi .ne (Scalar.extui (Scalar.cmpi .eq (BitVec.ofNat 32 (i 1).val) 0#32)) 0#32) = 1#1

theorem hcond : ∀ t : Fin cfg1.N, cond (grid1.coords t) ↔ t.val % 48 = 0 :=
  (by decide +kernel : ∀ t : Fin grid1.N, cond (grid1.coords t) ↔ t.val % 48 = 0)

theorem hz : (![0, 0] : Fin 2 → Nat) = fun _ => 0 := funext fun a => by fin_cases a <;> rfl

/-- Stores of which the last fills the whole block read back as that store's payload. -/
theorem read_fill {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ fun y => ⟨_, .head _, View.mem_set_unit_zero h inb y⟩).trans
    (View.canon_cons_unit_zero h inb w L)

variable (c : Dev nD) (i : grid1.Coords)
  {arg2 : Memref sig .tc .vmem S512x2048 .bf16} (harg2 : arg2.IsWhole) {arg3 : Memref sig .tc .vmem S512x64 .bf16} (harg3 : arg3.IsWhole)
  {arg4 : Memref sig .tc .vmem S64x2048 .bf16} (harg4 : arg4.IsWhole) {arg5 arg6 arg7 : Memref sig .tc .vmem S2048x256 .bf16}
  (harg5 : arg5.IsWhole) (harg6 : arg6.IsWhole) (harg7 : arg7.IsWhole) {arg8 : Memref sig .tc .vmem S256x2048 .bf16} (harg8 : arg8.IsWhole)
  {arg9 : Memref sig .tc .vmem S512x2048 .f32} (harg9 : arg9.IsWhole) {arg10 : Memref sig .tc .vmem S512x2048 .bf16} (harg10 : arg10.IsWhole)
  (x0 : Vec F S512x2048 .bf16) (x1 : Vec F S512x64 .bf16) (x2 : Vec F S64x2048 .bf16) (x3 x4 x5 : Vec F S2048x256 .bf16)
  (x6 : Vec F S256x2048 .bf16)

/-- The body on any whole memrefs holding the input blocks `x0` … `x6`: it turns `P` into `Q` and hands the inputs back. -/
abbrev Spec (P Q : sProp 𝕄) : Prop :=
  ∀ (E : Set ℕ) (K : PUnit → sProp 𝕄),
    iprop(P ∗ owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
        ∗ (iprop(Q ∗ owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K

variable {c i harg2 harg3 harg4 harg5 harg6 harg7 harg8 harg9 harg10}

/-- Off the branch the block gains the product computed with the rows as found. -/
theorem run_next (hc : ¬cond i) (xo : Vec F S512x2048 .f32) (xs : Vec F S512x2048 .bf16) :
    Spec c i harg2 harg3 harg4 harg5 harg6 harg7 harg8 harg9 harg10 x0 x1 x2 x3 x4 x5 x6
      iprop(owns (c : Thread nD τ) arg9 fullShare xo ∗ owns (c : Thread nD τ) arg10 fullShare xs)
      iprop(owns (c : Thread nD τ) arg9 fullShare (k1_pay3 xs x5 x0 x3 x0 x4 x6 xo) ∗ owns (c : Thread nD τ) arg10 fullShare xs) := by
  intro E K
  simp only [cc1_kernel_eq_skeleton]; unfold cc1_kernel_skel owns
  iintro ⟨⟨⟨%f7, %hf7, H7⟩, ⟨%fs, %hfs, HS⟩⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  sl_exec (disch := exact hc)
  sl_step
  iapply Hk
  isplitl [H7 HS]
  · isplitl [H7]
    · iexists _; isplitr; swap; · iexact H7
      ipureintro
      refine (read_fill _ _ hz _ _ _).trans ?_
      sl_unfold_words
      simp only [View.readAt_eq_ld, hf0, hf3, hf4, hf5, hf6, hf7, hfs, View.ld_unit_zero (S := S512x2048) hz,
        View.ld_unit_zero (S := S2048x256) hz, View.ld_unit_zero (S := S256x2048) hz]
    sl_close
  sl_close

/-- On the branch the rows become the gathered rows and the block starts from zero, whatever both held. -/
theorem run_first (hc : cond i) :
    Spec c i harg2 harg3 harg4 harg5 harg6 harg7 harg8 harg9 harg10 x0 x1 x2 x3 x4 x5 x6
      iprop((∃ d, owns (c : Thread nD τ) arg9 fullShare d) ∗ ∃ d, owns (c : Thread nD τ) arg10 fullShare d)
      iprop(owns (c : Thread nD τ) arg9 fullShare (k1_pay3 (k1_pay2 x1 x2) x5 x0 x3 x0 x4 x6 k1_pay1)
        ∗ owns (c : Thread nD τ) arg10 fullShare (k1_pay2 x1 x2)) := by
  intro E K
  simp only [cc1_kernel_eq_skeleton]; unfold cc1_kernel_skel owns
  iintro ⟨⟨⟨%d7, %f7, -, H7⟩, ⟨%ds, %fs, -, HS⟩⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  sl_exec (disch := exact hc)
  sl_step
  iapply Hk
  isplitl [H7 HS]
  · isplitl [H7]
    · iexists _; isplitr; swap; · iexact H7
      ipureintro
      refine (read_fill _ _ hz _ _ _).trans ?_
      sl_unfold_words
      simp only [View.readCov_unit_zero (S := S512x2048) _ hz, View.readAt_eq_ld, hf0, hf1, hf2, hf3, hf4, hf5, hf6,
        View.ld_unit_zero (S := S512x2048) hz, View.ld_unit_zero (S := S2048x256) hz, View.ld_unit_zero (S := S256x2048) hz,
        View.ld_unit_zero (S := S512x64) hz, View.ld_unit_zero (S := S64x2048) hz]
    iexists _; isplitr; swap; · iexact HS
    ipureintro
    refine (read_fill _ _ hz _ _ _).trans ?_
    sl_unfold_words
    simp only [View.readAt_eq_ld, hf1, hf2, View.ld_unit_zero (S := S512x64) hz, View.ld_unit_zero (S := S64x2048) hz]
  sl_close

end Cert.KernelIdeal.Reg1

end
-- ==== Proof.KI.Reg1.lean ====
import proofs.«426359_j52879637348696_1_alg».proof.Proof.KI.Reg1Run
import Idealize.ShloMosaic.Lib.Pipeline.Frame

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev scM : Memref sig .tc .vmem S512x2048 .bf16 := Memref.whole cc1_scratch0

variable (V : (c : Dev nD) → (b : Ref sig .tc) → Buf (Elt F) ((c : Thread nD τ).loc b))

/-- Block `t` of array `w` under the valuation `V`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's step on the pair (block, rows): the rows stay, the block gains the point's product with them. -/
def step (c : Dev nD) (t : Fin cfg1.N) (p : Vec F S512x2048 .f32 × Vec F S512x2048 .bf16) : Vec F S512x2048 .f32 × Vec F S512x2048 .bf16 :=
  (k1_pay3 p.2 (iblk V c 5 t) (iblk V c 0 t) (iblk V c 3 t) (iblk V c 0 t) (iblk V c 4 t) (iblk V c 6 t) p.1, p.2)

/-- The pair after point `n`: the steps iterated, restarting from (0, gathered rows) at every multiple of 48. -/
def outsAt (c : Dev nD) (n : ℕ) (hn : n < cfg1.N) : Vec F S512x2048 .f32 × Vec F S512x2048 .bf16 :=
  step V c ⟨n, hn⟩ (if h : n % 48 = 0 then (k1_pay1, k1_pay2 (iblk V c 1 ⟨n, hn⟩) (iblk V c 2 ⟨n, hn⟩)) else outsAt c (n - 1) (by omega))
decreasing_by omega

theorem outsAt_first (c : Dev nD) (t : Fin cfg1.N) (h : t.val % 48 = 0) :
    outsAt V c t.val t.isLt = (k1_pay3 (k1_pay2 (iblk V c 1 t) (iblk V c 2 t)) (iblk V c 5 t) (iblk V c 0 t) (iblk V c 3 t) (iblk V c 0 t) (iblk V c 4 t) (iblk V c 6 t) k1_pay1, k1_pay2 (iblk V c 1 t) (iblk V c 2 t)) := by
  rw [outsAt, dif_pos h]; rfl

theorem outsAt_next (c : Dev nD) (t : Fin cfg1.N) (h : ¬t.val % 48 = 0) :
    outsAt V c t.val t.isLt = (k1_pay3 (outsAt V c (t.val - 1) (Nat.lt_of_le_of_lt (Nat.sub_le _ _) t.isLt)).2 (iblk V c 5 t) (iblk V c 0 t) (iblk V c 3 t) (iblk V c 0 t) (iblk V c 4 t) (iblk V c 6 t) (outsAt V c (t.val - 1) (Nat.lt_of_le_of_lt (Nat.sub_le _ _) t.isLt)).1, (outsAt V c (t.val - 1) (Nat.lt_of_le_of_lt (Nat.sub_le _ _) t.isLt)).2) := by
  rw [outsAt, dif_neg h]; rfl

/-- `ΦA` with its ownership of `scM` replaced by `S`. -/
def Inv (c : Dev nD) (S : sProp 𝕄) : sProp 𝕄 :=
  iprop((S ∗ Pipeline.scopedRestBut (Ix := Unit) (Name := ℕ) (U := UR sig nD τ) (Lvl := ℕ) (Val := Elt F) spec1 c [cc1_scratch0]) ∗ ∃ r, prngReg c r)

theorem PhiA_eq (c : Dev nD) : (Pipeline.ΦA spec1 c : sProp 𝕄) = Inv c iprop(∃ d, owns (c : Thread nD τ) scM fullShare d) := by
  unfold Pipeline.ΦA Inv; rw [scopedRest1_split]; simp only [scM, owns_whole]; try rfl

def PhiS (c : Dev nD) : (n : ℕ) → n ≤ cfg1.N → sProp 𝕄
  | 0, _ => Pipeline.ΦA spec1 c
  | n + 1, hn => Inv c (owns (c : Thread nD τ) scM fullShare (outsAt V c n hn).2)

theorem PhiS_pos (c : Dev nD) (n : ℕ) (h : n ≤ cfg1.N) (hz : n ≠ 0) :
    PhiS V c n h = Inv c (owns (c : Thread nD τ) scM fullShare (outsAt V c (n - 1) (by omega)).2) := by
  cases n with
  | zero => exact absurd rfl hz
  | succ n => rfl

theorem PhiS_le (c : Dev nD) : ∀ n h, PhiS V c n h ⊢ Inv c iprop(∃ d, owns (c : Thread nD τ) scM fullShare d)
  | 0, _ => Entails.of_eq (PhiA_eq c)
  | n + 1, _ => by
    unfold PhiS Inv; iintro ⟨⟨HS, HR⟩, Hg⟩; iframe HR Hg; iexists _; iexact HS

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := rfl

theorem after_out (c : Dev nD) (t : Fin cfg1.N) : (dat V c).after 7 t = (outsAt V c t.val t.isLt).1 := rfl

/-- At every point each input is found at its block. -/
theorem before_in (c : Dev nD) (t : Fin cfg1.N) :
    (∀ d, (dat V c).before 0 t d = iblk V c 0 t) ∧ (∀ d, (dat V c).before 1 t d = iblk V c 1 t)
      ∧ (∀ d, (dat V c).before 2 t d = iblk V c 2 t) ∧ (∀ d, (dat V c).before 3 t d = iblk V c 3 t)
      ∧ (∀ d, (dat V c).before 4 t d = iblk V c 4 t) ∧ (∀ d, (dat V c).before 5 t d = iblk V c 5 t)
      ∧ (∀ d, (dat V c).before 6 t d = iblk V c 6 t) := by
  refine ⟨?_, ?_, ?_, ?_, ?_, ?_, ?_⟩ <;>
    exact fun d => (dat V c).before_in_eq_fetched _ rfl (fun _ => rfl) (fun _ _ _ => rfl) (fun _ => rfl) t d

/-- Away from a multiple of 48 the output block is still what the point before left. -/
theorem before_out_next (c : Dev nD) (t : Fin cfg1.N) (h : ¬t.val % 48 = 0) (d) :
    (dat V c).before 7 t d = (outsAt V c (t.val - 1) (Nat.lt_of_le_of_lt (Nat.sub_le _ _) t.isLt)).1 := by
  have hN : t.val < 384 := lt_of_lt_of_eq t.isLt N_1
  exact Dat.before_out_kept _ 7 rfl t (by omega) (Bool.eq_false_iff.mpr fun hf => by have := (flush1_7 _).mp hf; dsimp only at this; omega)
    (fun _ => rfl) (fun _ _ => rfl) d

theorem sound_body (c : Dev nD) (t : Fin cfg1.N) :
    iprop(PhiS V c t.val (Nat.le_of_lt t.isLt) ∗ (dat V c).owesAt () t.castSucc
      ∗ (∃ d, owns (c : Thread nD τ) (win1_0.stage (cfg1.slots t 0)) fullShare ((dat V c).before 0 t d))
      ∗ (∃ d, owns (c : Thread nD τ) (win1_1.stage (cfg1.slots t 1)) fullShare ((dat V c).before 1 t d))
      ∗ (∃ d, owns (c : Thread nD τ) (win1_2.stage (cfg1.slots t 2)) fullShare ((dat V c).before 2 t d))
      ∗ (∃ d, owns (c : Thread nD τ) (win1_3.stage (cfg1.slots t 3)) fullShare ((dat V c).before 3 t d))
      ∗ (∃ d, owns (c : Thread nD τ) (win1_4.stage (cfg1.slots t 4)) fullShare ((dat V c).before 4 t d))
      ∗ (∃ d, owns (c : Thread nD τ) (win1_5.stage (cfg1.slots t 5)) fullShare ((dat V c).before 5 t d))
      ∗ (∃ d, owns (c : Thread nD τ) (win1_6.stage (cfg1.slots t 6)) fullShare ((dat V c).before 6 t d))
      ∗ (∃ d, owns (c : Thread nD τ) (win1_7.stage (cfg1.slots t 7)) fullShare ((dat V c).before 7 t d)))
    ⊢ wp frame (wpE (defs₀ (F := F)) Variants.none c none) Set.univ (bodyAt1 t) fun _ =>
      iprop(Inv c (owns (c : Thread nD τ) scM fullShare (outsAt V c t.val t.isLt).2) ∗ (dat V c).owesAt () t.castSucc
        ∗ owns (c : Thread nD τ) (win1_0.stage (cfg1.slots t 0)) fullShare (iblk V c 0 t)
        ∗ owns (c : Thread nD τ) (win1_1.stage (cfg1.slots t 1)) fullShare (iblk V c 1 t)
        ∗ owns (c : Thread nD τ) (win1_2.stage (cfg1.slots t 2)) fullShare (iblk V c 2 t)
        ∗ owns (c : Thread nD τ) (win1_3.stage (cfg1.slots t 3)) fullShare (iblk V c 3 t)
        ∗ owns (c : Thread nD τ) (win1_4.stage (cfg1.slots t 4)) fullShare (iblk V c 4 t)
        ∗ owns (c : Thread nD τ) (win1_5.stage (cfg1.slots t 5)) fullShare (iblk V c 5 t)
        ∗ owns (c : Thread nD τ) (win1_6.stage (cfg1.slots t 6)) fullShare (iblk V c 6 t)
        ∗ owns (c : Thread nD τ) (win1_7.stage (cfg1.slots t 7)) fullShare (outsAt V c t.val t.isLt).1) := by
  simp only [before_in V c t]
  by_cases h : t.val % 48 = 0
  · rw [outsAt_first V c t h]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HI := PhiS_le V c _ _ $$ HP
    unfold Inv
    icases HI with ⟨⟨HS, HR⟩, Hg⟩
    iapply (run_first (iblk V c 0 t) (iblk V c 1 t) (iblk V c 2 t) (iblk V c 3 t) (iblk V c 4 t) (iblk V c 5 t) (iblk V c 6 t) ((hcond t).mpr h) Set.univ _)
    isplitl [H7 HS]
    · isplitl [H7]
      · iexists _; iexact H7
      iexact HS
    iframe H0 H1 H2 H3 H4 H5 H6
    iintro ⟨⟨H7, HS⟩, H0, H1, H2, H3, H4, H5, H6⟩
    iframe
  · rw [outsAt_next V c t h, PhiS_pos V c _ _ (by omega)]
    simp only [before_out_next V c t h]
    unfold Inv
    generalize outsAt V c (t.val - 1) _ = p
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_next (iblk V c 0 t) (iblk V c 1 t) (iblk V c 2 t) (iblk V c 3 t) (iblk V c 4 t) (iblk V c 5 t) (iblk V c 6 t) (fun hh => h ((hcond t).mp hh)) p.1 p.2 Set.univ _)
    iframe H7 HS H0 H1 H2 H3 H4 H5 H6
    iintro ⟨⟨H7, HS⟩, H0, H1, H2, H3, H4, H5, H6⟩
    iframe

theorem body_obligation (c : Dev nD) : BodyObligation (dat V c) (defs₀ (F := F)) Variants.none () Set.univ := fun t => by
  rw [bigSep_W1, bigSep_W1]
  exact sound_body V c t

theorem hin (c : Dev nD) : Pipeline.ΦA spec1 c ⊢ (dat V c).Φ 0 := Entails.of_eq rfl

theorem hout (c : Dev nD) : (dat V c).Φ (Fin.last cfg1.N) ⊢ Pipeline.ΦA spec1 c :=
  (PhiS_le V c cfg1.N (Nat.le_refl _)).trans (Entails.of_eq (PhiA_eq c).symm)

end Cert.KernelIdeal.Reg1

end
-- ==== Proof.KI.Reg2.lean ====
import proofs.«426359_j52879637348696_1_alg».proof.Proof.Gen.KernelIdeal.Launch
import proofs.«426359_j52879637348696_1_alg».proof.Proof.Gen.KernelIdeal.Skeleton
import proofs.«426359_j52879637348696_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg2

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond (i : grid2.Coords) : Prop :=
  (Scalar.cmpi .ne (Scalar.extui (Scalar.cmpi .eq (BitVec.ofNat 32 (i 1).val) 0#32)) 0#32) = 1#1

theorem hcond : ∀ t : Fin cfg2.N, cond (grid2.coords t) ↔ t.val % 64 = 0 :=
  (by decide +kernel : ∀ t : Fin grid2.N, cond (grid2.coords t) ↔ t.val % 64 = 0)

abbrev scM : Memref sig .tc .vmem S512x2048 .bf16 := Memref.whole cc2_scratch0

theorem hz2 : (![0, 0] : Fin 2 → Nat) = fun _ => 0 := by funext a; fin_cases a <;> rfl

section
variable (c : Dev nD) (i : grid2.Coords)
  {a2 : Memref sig .tc .vmem S512x2048 .bf16} (h2 : a2.IsWhole) {a3 : Memref sig .tc .vmem S512x64 .bf16} (h3 : a3.IsWhole)
  {a4 : Memref sig .tc .vmem S64x2048 .bf16} (h4 : a4.IsWhole) {a5 a6 a7 a8 : Memref sig .tc .vmem S2048x256 .bf16}
  (h5 : a5.IsWhole) (h6 : a6.IsWhole) (h7 : a7.IsWhole) (h8 : a8.IsWhole) {a9 : Memref sig .tc .vmem S256x2048 .bf16} (h9 : a9.IsWhole)
  {a10 : Memref sig .tc .vmem S512x2048 .f32} (h10 : a10.IsWhole) {a11 : Memref sig .tc .vmem S512x2048 .bf16} (h11 : a11.IsWhole)
  (x0 : Vec F S512x2048 .bf16) (x1 : Vec F S512x64 .bf16) (x2 : Vec F S64x2048 .bf16) (x3 x4 x5 x6 : Vec F S2048x256 .bf16)
  (x7 : Vec F S256x2048 .bf16) (xo o : Vec F S512x2048 .f32) (xs s : Vec F S512x2048 .bf16)

set_option maxHeartbeats 4000000 in
-- One run of the body: the block (zero at a first column tile) gains the tile's contribution from the rows the scratch then holds (freshly gathered at a first column tile).
theorem run (hf : cond i → (o, s) = (k2_pay1 (k2_pay4 (k2_pay3 x1 x2) x6 x0 x3 x0 x4 x0 x5 x7) (k2_pay2 (F := F)), k2_pay3 x1 x2))
    (hn : ¬cond i → (o, s) = (k2_pay1 (k2_pay4 xs x6 x0 x3 x0 x4 x0 x5 x7) xo, xs)) (E : Set ℕ) (K : PUnit → sProp 𝕄) :
    iprop(owns c.tc a2 fullShare x0 ∗ owns c.tc a3 fullShare x1 ∗ owns c.tc a4 fullShare x2 ∗ owns c.tc a5 fullShare x3 ∗ owns c.tc a6 fullShare x4 ∗ owns c.tc a7 fullShare x5 ∗ owns c.tc a8 fullShare x6 ∗ owns c.tc a9 fullShare x7 ∗ owns c.tc a10 fullShare xo ∗ owns c.tc a11 fullShare xs
        ∗ (iprop(owns c.tc a2 fullShare x0 ∗ owns c.tc a3 fullShare x1 ∗ owns c.tc a4 fullShare x2 ∗ owns c.tc a5 fullShare x3 ∗ owns c.tc a6 fullShare x4 ∗ owns c.tc a7 fullShare x5 ∗ owns c.tc a8 fullShare x6 ∗ owns c.tc a9 fullShare x7 ∗ owns c.tc a10 fullShare o ∗ owns c.tc a11 fullShare s) -∗ K ⟨⟩))
      ⊢ wp frame (wpE (defs₀ (F := F)) Variants.none c none) E (cc2_kernel i a2 h2 a3 h3 a4 h4 a5 h5 a6 h6 a7 h7 a8 h8 a9 h9 a10 h10 a11 h11) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
  obtain rfl := h2.eq_unread hf0; obtain rfl := h3.eq_unread hf1; obtain rfl := h4.eq_unread hf2; obtain rfl := h5.eq_unread hf3
  obtain rfl := h6.eq_unread hf4; obtain rfl := h7.eq_unread hf5; obtain rfl := h8.eq_unread hf6; obtain rfl := h9.eq_unread hf7
  obtain rfl := h10.eq_unread hf8; obtain rfl := h11.eq_unread hfs
  by_cases hc : cond i
  on_goal 1 => cases hf hc
  on_goal 2 => cases hn hc
  all_goals
    sl_exec (disch := first | exact hc)
    sl_step
    iapply Hk
    isplitl [H0]; · iexists _; iframe H0; ipureintro; exact h2.read_unread _
    isplitl [H1]; · iexists _; iframe H1; ipureintro; exact h3.read_unread _
    isplitl [H2]; · iexists _; iframe H2; ipureintro; exact h4.read_unread _
    isplitl [H3]; · iexists _; iframe H3; ipureintro; exact h5.read_unread _
    isplitl [H4]; · iexists _; iframe H4; ipureintro; exact h6.read_unread _
    isplitl [H5]; · iexists _; iframe H5; ipureintro; exact h7.read_unread _
    isplitl [H6]; · iexists _; iframe H6; ipureintro; exact h8.read_unread _
    isplitl [H7]; · iexists _; iframe H7; ipureintro; exact h9.read_unread _
    isplitl [H8]
  · iexists _; iframe H8; ipureintro
    refine (View.read_writes_eq_canon _ _ _ (View.cover_of_tiledL _ S512x2048.size (by sl_kernel_rfl))).trans ?_
    sl_unfold_words
    refine (View.canon_cons_unit_zero (S := S512x2048) hz2 _ _ _).trans ?_
    simp only [View.readAt_eq_ld, h2.read_unread, h3.read_unread, h4.read_unread, h5.read_unread, h6.read_unread, h7.read_unread, h8.read_unread, h9.read_unread,
      View.ld_unit_zero (S := S512x2048) hz2, View.ld_unit_zero (S := S512x64) hz2, View.ld_unit_zero (S := S64x2048) hz2, View.ld_unit_zero (S := S2048x256) hz2, View.ld_unit_zero (S := S256x2048) hz2,
      View.readCov_unit_zero (S := S512x2048) _ hz2]
  · iexists _; iframe HS; ipureintro
    refine (View.read_writes_eq_canon _ _ _ (View.cover_of_tiledL _ S512x2048.size (by sl_kernel_rfl))).trans ?_
    sl_unfold_words
    refine (View.canon_unit_zero (S := S512x2048) hz2 _ _).trans ?_
    simp only [View.readAt_eq_ld, h3.read_unread, h4.read_unread, View.ld_unit_zero (S := S512x64) hz2, View.ld_unit_zero (S := S64x2048) hz2]
  · iexists _; iframe H8; ipureintro
    refine (View.read_writes_eq_canon _ _ _ (View.cover_of_tiledL _ S512x2048.size (by sl_kernel_rfl))).trans ?_
    sl_unfold_words
    refine (View.canon_unit_zero (S := S512x2048) hz2 _ _).trans ?_
    simp only [View.readAt_eq_ld, h2.read_unread, h5.read_unread, h6.read_unread, h7.read_unread, h8.read_unread, h9.read_unread, h10.read_unread, h11.read_unread,
      View.ld_unit_zero (S := S512x2048) hz2, View.ld_unit_zero (S := S2048x256) hz2, View.ld_unit_zero (S := S256x2048) hz2]
  · iexists _; iframe HS; ipureintro; exact h11.read_unread _

end

variable (V : (c : Dev nD) → (b : Ref sig .tc) → Buf (Elt F) ((c : Thread nD τ).loc b)) (c : Dev nD)

def iblk (w : Fin cfg2.W) (t : Fin cfg2.N) : ((cfg2.win w).xblock (cfg2.grid.coords t)).Idx → Elt F (cfg2.win w).elt :=
  ((cfg2.win w).blk t).view.read (Elt F) (V c (Pipeline.arrRef spec2 w))

-- One point's step: the block gains the tile's contribution computed from the carried rows; the rows stay.
def nextAt (t : Fin cfg2.N) (p : Vec F S512x2048 .f32 × Vec F S512x2048 .bf16) : Vec F S512x2048 .f32 × Vec F S512x2048 .bf16 :=
  (k2_pay1 (k2_pay4 p.2 (iblk V c 6 t) (iblk V c 0 t) (iblk V c 3 t) (iblk V c 0 t) (iblk V c 4 t) (iblk V c 0 t) (iblk V c 5 t) (iblk V c 7 t)) p.1, p.2)

-- A first-tile point steps from the zero block and the freshly gathered rows.
def firstAt (t : Fin cfg2.N) : Vec F S512x2048 .f32 × Vec F S512x2048 .bf16 :=
  nextAt V c t (k2_pay2 (F := F), k2_pay3 (iblk V c 1 t) (iblk V c 2 t))

def outsAt : (n : ℕ) → n < cfg2.N → Vec F S512x2048 .f32 × Vec F S512x2048 .bf16
  | 0, hn => firstAt V c ⟨0, hn⟩
  | n + 1, hn => if (n + 1) % 64 = 0 then firstAt V c ⟨n + 1, hn⟩ else nextAt V c ⟨n + 1, hn⟩ (outsAt n (Nat.lt_of_succ_lt hn))

theorem outsAt_first : ∀ (t : Fin cfg2.N) (h : t.val % 64 = 0),
    outsAt V c t.val t.isLt
      = (k2_pay1 (k2_pay4 (k2_pay3 (iblk V c 1 t) (iblk V c 2 t)) (iblk V c 6 t) (iblk V c 0 t) (iblk V c 3 t) (iblk V c 0 t) (iblk V c 4 t) (iblk V c 0 t) (iblk V c 5 t) (iblk V c 7 t)) (k2_pay2 (F := F)), k2_pay3 (iblk V c 1 t) (iblk V c 2 t))
  | ⟨0, _⟩, _ => rfl
  | ⟨_ + 1, _⟩, h => (if_pos h).trans rfl

theorem outsAt_next : ∀ (t : Fin cfg2.N) (h : ¬ t.val % 64 = 0),
    outsAt V c t.val t.isLt
      = (k2_pay1 (k2_pay4 (outsAt V c (t.val - 1) (Nat.lt_of_le_of_lt (Nat.sub_le _ _) t.isLt)).2 (iblk V c 6 t) (iblk V c 0 t) (iblk V c 3 t) (iblk V c 0 t) (iblk V c 4 t) (iblk V c 0 t) (iblk V c 5 t) (iblk V c 7 t)) (outsAt V c (t.val - 1) (Nat.lt_of_le_of_lt (Nat.sub_le _ _) t.isLt)).1, (outsAt V c (t.val - 1) (Nat.lt_of_le_of_lt (Nat.sub_le _ _) t.isLt)).2)
  | ⟨0, _⟩, h => absurd (Nat.zero_mod _) h
  | ⟨_ + 1, _⟩, h => (if_neg h).trans rfl

-- The region's invariant around what it says of the scratch.
def PhiW (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

theorem PhiA_eq : (Pipeline.ΦA spec2 c : sProp 𝕄) = PhiW c iprop(∃ d, owns c.tc scM fullShare d) := by
  unfold Pipeline.ΦA PhiW; rw [scopedRest2_split]; simp only [scM, owns_whole]; try rfl

-- Before position `n` the scratch holds what the point before left there; before the first point, anything.
def PhiS (n : ℕ) (hn : n ≤ cfg2.N) : sProp 𝕄 :=
  PhiW c iprop(∃ s, ⌜∀ h0 : n ≠ 0, s = (outsAt V c (n - 1) (by omega)).2⌝ ∗ owns c.tc scM fullShare s)

def dat : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt V c t.val t.isLt).1
  Φ t := PhiS V c t.val (Nat.le_of_lt_succ t.isLt)
  q _ := fullShare
  owed _ := 0

theorem A_eq (w : Fin cfg2.W) : (dat V c).A w = V c (Pipeline.arrRef spec2 w) := rfl

theorem after_out (t : Fin cfg2.N) : (dat V c).after 8 t = (outsAt V c t.val t.isLt).1 := rfl

theorem before_0 : ∀ t d, (dat V c).before 0 t d = iblk V c 0 t :=
  (dat V c).before_in_eq_fetched 0 rfl (fun _ => rfl) (fun _ _ _ => rfl) fun _ => rfl
theorem before_1 : ∀ t d, (dat V c).before 1 t d = iblk V c 1 t :=
  (dat V c).before_in_eq_fetched 1 rfl (fun _ => rfl) (fun _ _ _ => rfl) fun _ => rfl
theorem before_2 : ∀ t d, (dat V c).before 2 t d = iblk V c 2 t :=
  (dat V c).before_in_eq_fetched 2 rfl (fun _ => rfl) (fun _ _ _ => rfl) fun _ => rfl
theorem before_3 : ∀ t d, (dat V c).before 3 t d = iblk V c 3 t :=
  (dat V c).before_in_eq_fetched 3 rfl (fun _ => rfl) (fun _ _ _ => rfl) fun _ => rfl
theorem before_4 : ∀ t d, (dat V c).before 4 t d = iblk V c 4 t :=
  (dat V c).before_in_eq_fetched 4 rfl (fun _ => rfl) (fun _ _ _ => rfl) fun _ => rfl
theorem before_5 : ∀ t d, (dat V c).before 5 t d = iblk V c 5 t :=
  (dat V c).before_in_eq_fetched 5 rfl (fun _ => rfl) (fun _ _ _ => rfl) fun _ => rfl
theorem before_6 : ∀ t d, (dat V c).before 6 t d = iblk V c 6 t :=
  (dat V c).before_in_eq_fetched 6 rfl (fun _ => rfl) (fun _ _ _ => rfl) fun _ => rfl
theorem before_7 : ∀ t d, (dat V c).before 7 t d = iblk V c 7 t :=
  (dat V c).before_in_eq_fetched 7 rfl (fun _ => rfl) (fun _ _ _ => rfl) fun _ => rfl

theorem before_out_next (t : Fin cfg2.N) (h : ¬ t.val % 64 = 0) (d) :
    (dat V c).before 8 t d = (outsAt V c (t.val - 1) (Nat.lt_of_le_of_lt (Nat.sub_le _ _) t.isLt)).1 :=
  (dat V c).before_out_kept 8 rfl t (fun h0 => h (by rw [h0]))
    (Bool.eq_false_iff.mpr fun hf => by have := (flush2_8 _).mp hf; dsimp only at this; omega) (fun _ => rfl) (fun _ _ => rfl) d

theorem hin : Pipeline.ΦA spec2 c ⊢ (dat V c).Φ 0 := by
  rw [PhiA_eq]; show _ ⊢ PhiS V c 0 (Nat.zero_le _); unfold PhiS PhiW
  iintro ⟨⟨⟨%d, HS⟩, Hr⟩, Hg⟩
  iframe
  iexists d; iframe HS; ipureintro; exact fun h0 => absurd rfl h0

theorem hout : (dat V c).Φ (Fin.last cfg2.N) ⊢ Pipeline.ΦA spec2 c := by
  rw [PhiA_eq]; show PhiS V c _ (Nat.le_of_lt_succ (Fin.last _).isLt) ⊢ _; unfold PhiS PhiW
  iintro ⟨⟨⟨%s, -, HS⟩, Hr⟩, Hg⟩
  iframe
  iexists s; iexact HS

set_option maxHeartbeats 4800000 in
theorem sound_body (t : Fin cfg2.N) :
    iprop(PhiS V c t.val (Nat.le_of_lt t.isLt) ∗ (dat V c).owesAt () t.castSucc
      ∗ (∃ d, owns c.tc (win2_0.stage (cfg2.slots t 0)) fullShare ((dat V c).before 0 t d))
      ∗ (∃ d, owns c.tc (win2_1.stage (cfg2.slots t 1)) fullShare ((dat V c).before 1 t d))
      ∗ (∃ d, owns c.tc (win2_2.stage (cfg2.slots t 2)) fullShare ((dat V c).before 2 t d))
      ∗ (∃ d, owns c.tc (win2_3.stage (cfg2.slots t 3)) fullShare ((dat V c).before 3 t d))
      ∗ (∃ d, owns c.tc (win2_4.stage (cfg2.slots t 4)) fullShare ((dat V c).before 4 t d))
      ∗ (∃ d, owns c.tc (win2_5.stage (cfg2.slots t 5)) fullShare ((dat V c).before 5 t d))
      ∗ (∃ d, owns c.tc (win2_6.stage (cfg2.slots t 6)) fullShare ((dat V c).before 6 t d))
      ∗ (∃ d, owns c.tc (win2_7.stage (cfg2.slots t 7)) fullShare ((dat V c).before 7 t d))
      ∗ (∃ d, owns c.tc (win2_8.stage (cfg2.slots t 8)) fullShare ((dat V c).before 8 t d)))
    ⊢ wp frame (wpE (defs₀ (F := F)) Variants.none c none) Set.univ (bodyAt2 t) (fun _ => iprop(PhiS V c (t.val + 1) t.isLt ∗ (dat V c).owesAt () t.castSucc
      ∗ owns c.tc (win2_0.stage (cfg2.slots t 0)) fullShare (iblk V c 0 t)
      ∗ owns c.tc (win2_1.stage (cfg2.slots t 1)) fullShare (iblk V c 1 t)
      ∗ owns c.tc (win2_2.stage (cfg2.slots t 2)) fullShare (iblk V c 2 t)
      ∗ owns c.tc (win2_3.stage (cfg2.slots t 3)) fullShare (iblk V c 3 t)
      ∗ owns c.tc (win2_4.stage (cfg2.slots t 4)) fullShare (iblk V c 4 t)
      ∗ owns c.tc (win2_5.stage (cfg2.slots t 5)) fullShare (iblk V c 5 t)
      ∗ owns c.tc (win2_6.stage (cfg2.slots t 6)) fullShare (iblk V c 6 t)
      ∗ owns c.tc (win2_7.stage (cfg2.slots t 7)) fullShare (iblk V c 7 t)
      ∗ owns c.tc (win2_8.stage (cfg2.slots t 8)) fullShare (outsAt V c t.val t.isLt).1)) := by
  simp only [before_0, before_1, before_2, before_3, before_4, before_5, before_6, before_7]
  unfold PhiS PhiW
  iintro ⟨⟨⟨⟨%s, %hs, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid2.coords t) _ _ _ _ _ _ _ _ _ _ (iblk V c 0 t) (iblk V c 1 t) (iblk V c 2 t) (iblk V c 3 t) (iblk V c 4 t) (iblk V c 5 t) (iblk V c 6 t) (iblk V c 7 t) ((dat V c).before 8 t d8) (outsAt V c t.val t.isLt).1 s (outsAt V c t.val t.isLt).2
    (fun hc => outsAt_first V c t ((hcond t).mp hc))
    (fun hc => by
      have h := mt (hcond t).mpr hc
      rw [before_out_next V c t h d8, hs fun h0 => h (by rw [h0])]; exact outsAt_next V c t h) Set.univ _)
  iframe
  iintro ⟨H0, H1, H2, H3, H4, H5, H6, H7, H8, HS⟩
  iframe
  iexists _; iframe HS; ipureintro; exact fun _ => rfl

theorem body_obligation : BodyObligation (dat V c) (defs₀ (F := F)) Variants.none () Set.univ := fun t => by
  rw [bigSep_W2, bigSep_W2]
  exact sound_body V c t

end Cert.KernelIdeal.Reg2

end
-- ==== Proof.KI.Inst.lean ====
import proofs.«426359_j52879637348696_1_alg».proof.Proof.KI.Asm
import proofs.«426359_j52879637348696_1_alg».proof.Proof.KI.Reg0
import proofs.«426359_j52879637348696_1_alg».proof.Proof.KI.Reg1
import proofs.«426359_j52879637348696_1_alg».proof.Proof.KI.Reg2

noncomputable section

namespace Cert.KernelIdeal.Inst

open Gen GenP
open Idealize.ShloMosaic Idealize.ShloMosaic.TcCoe
open Idealize.SL Idealize.SL.BI
open Idealize.SL.BI.BIBase Idealize.SL.ProofMode Idealize.SL.Sem

variable {F : FTy → Type} [FloatOps F]

variable (m : (ℓ : Loc nD τ sig) → Buf (Elt F) ℓ)

abbrev vf (V : Dev nD → Valuation τ sig (Elt F)) : (c : Dev nD) → (b : Ref sig .tc) → Buf (Elt F) ((c : Thread nD τ).loc b) :=
  fun c b => V c b

def arr0 (c : Dev nD) : Buf (Elt F) ((c : Thread nD τ).loc main_v30) := (Reg0.dat (vf (V14 m)) c).arrAt 6 cfg0.N

def outsA : Outs (F := F) := fun J r c => match J with
  | 15 => Function.update (vf (V14 m) c) main_v30 (arr0 m c) r
  | _ => V14 m c r

def arr1 (c : Dev nD) : Buf (Elt F) ((c : Thread nD τ).loc main_v64) := (Reg1.dat (vf (V31 m (outsA m))) c).arrAt 7 cfg1.N

def outsB : Outs (F := F) := fun J r c => match J with
  | 15 => Function.update (vf (V14 m) c) main_v30 (arr0 m c) r
  | 32 => Function.update (vf (V31 m (outsA m)) c) main_v64 (arr1 m c) r
  | _ => V14 m c r

def arr2 (c : Dev nD) : Buf (Elt F) ((c : Thread nD τ).loc main_v104) := (Reg2.dat (vf (V52 m (outsB m))) c).arrAt 8 cfg2.N

/-- What the three regions leave in the arrays they write. -/
def outs : Outs (F := F) := fun J r c => match J with
  | 15 => Function.update (vf (V14 m) c) main_v30 (arr0 m c) r
  | 32 => Function.update (vf (V31 m (outsA m)) c) main_v64 (arr1 m c) r
  | 53 => Function.update (vf (V52 m (outsB m)) c) main_v104 (arr2 m c) r
  | _ => V14 m c r

theorem outs_15 (c : Dev nD) : outs m 15 main_v30 c = arr0 m c := by unfold outs; exact Function.update_self ..
theorem outs_32 (c : Dev nD) : outs m 32 main_v64 c = arr1 m c := by unfold outs; exact Function.update_self ..
theorem outs_53 (c : Dev nD) : outs m 53 main_v104 c = arr2 m c := by unfold outs; exact Function.update_self ..

/-- Each region's proof data at the contents the region is entered with. -/
def pd : (p : Fin 3) → (c : Dev nD) → Pipeline.Dat τ (Elt F) Unit ℕ (UR sig nD τ) ℕ (cfgs p) c
  | ⟨0, _⟩ => Reg0.dat (vf (V14 m))
  | ⟨1, _⟩ => Reg1.dat (vf (V31 m (outsA m)))
  | ⟨2, _⟩ => Reg2.dat (vf (V52 m (outsB m)))

theorem ok0 : Asm.Ok (pd m) 0 6 (V14 m) (V15 m (outs m)) :=
  ⟨by decide, Reg0.A_eq _, fun _ _ => rfl, fun _ _ => rfl, fun _ _ => rfl, Reg0.body_obligation _, Reg0.hin _, Reg0.hout _,
    fun c => congrArg (Function.update (V14 m c) main_v30) (outs_15 m c)⟩

theorem ok1 : Asm.Ok (pd m) 1 7 (V31 m (outs m)) (V32 m (outs m)) :=
  ⟨by decide, Reg1.A_eq _, fun _ _ => rfl, fun _ _ => rfl, fun _ _ => rfl, Reg1.body_obligation _, Reg1.hin _, Reg1.hout _,
    fun c => congrArg (Function.update (V31 m (outs m) c) main_v64) (outs_32 m c)⟩

theorem ok2 : Asm.Ok (pd m) 2 8 (V52 m (outs m)) (V53 m (outs m)) :=
  ⟨by decide, Reg2.A_eq _, fun _ _ => rfl, fun _ _ => rfl, fun _ _ => rfl, Reg2.body_obligation _, Reg2.hin _, Reg2.hout _,
    fun c => congrArg (Function.update (V52 m (outs m) c) main_v104) (outs_53 m c)⟩

variable (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m emb₁ () .none Asm.L Asm.lv (fun _ _ => rfl) ρ (outs m) (pd m) 0 (fun _ => BI.emp) _ Asm.hu₀ (fun _ => Asm.R)
    (Pipeline.initEach _ _ fun c => by
      iintro ⟨⟨-, HO, -, Hp, -⟩, -⟩; imodintro
      isplitl [Hp]; · iexists _; iexact Hp
      iexists ∅; iexact HO)
    (fun c => by iintro ⟨-, HO⟩; iexact HO)
    (Asm.reg (ok0 m)) (fun _ => .rfl) (fun _ => .rfl) (Asm.reg (ok1 m)) (fun _ => .rfl) (fun _ => .rfl)
    (Asm.reg (ok2 m)) (fun _ => .rfl) (fun _ => .rfl)

end Cert.KernelIdeal.Inst

end
-- ==== Proof.KI.InstRun.lean ====
import proofs.«426359_j52879637348696_1_alg».proof.Proof.KI.Inst

noncomputable section

namespace Cert.KernelIdeal.Inst

open Gen GenP
open Idealize.ShloMosaic Idealize.ShloMosaic.TcCoe
open Idealize.SL Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- As the frame, with every unscoped buffer read off the last boundary's contents: the result buffer too. -/
theorem run : θ_run defs (onTc (τ := τ) (main (F := F))) ⟨m, fun _ => 0, ρ⟩ (fun r => ∀ c : Dev nD,
      r.2.mem ((c.tc : Thread nD τ).loc main_v105) = V54 m (outs m) c main_v105
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm (pd m) () cellOf_inj emb₁ defs₀ .none Asm.L Asm.lv m ρ main
    (segs m (outs m) .none Asm.L Asm.lv (fun _ => Asm.R) () (pd m) (Asm.reg (ok0 m)) (Asm.reg (ok1 m)) (Asm.reg (ok2 m)))
    (fun c Q => by
      rw [main_chain c, Pipeline.Seg.run_eq_chain]
      exact Entails.of_eq (congrArg (wp _ _ _ · Q) (congrArg Pipeline.chain rfl)))
    (fun c => by simp only [segs, Pipeline.Seg.pipes_host, Pipeline.Seg.pipes_region, Pipeline.Seg.pipes_nil]; decide) 0 (fun _ _ => rfl) (fun _ => BI.emp) _ Asm.hu₀
    (fun c => iprop(StableHlo.held (c : Thread nD τ) (Pipeline.ucRefs τ sig) (V0 m c) ∗ Asm.R c))
    (fun c => StableHlo.held (c : Thread nD τ) (Pipeline.ucRefs τ sig) (V54 m (outs m) c))
    (fun c => by
      iterate 54 refine ⟨.rfl, ?_⟩
      refine sep_mono .rfl ?_
      iintro ⟨-, HO⟩; iexact HO)
    (Pipeline.initEach _ _ fun c => by
      rw [← Pipeline.unscopedBufs_held c (V0 m c)]
      iintro ⟨⟨Hh, -, HO, -, Hp, -⟩, -⟩; imodintro
      isplitl [Hh]; · iexact Hh
      isplitl [Hp]; · iexists _; iexact Hp
      iexists ∅; iexact HO)
    (fun c s => ∀ b ∈ Pipeline.ucRefs τ sig, s.mem ((c : Thread nD τ).1, b) = V54 m (outs m) c b)
    (fun c s' => (pointsTo_read_all _ (fun b => ((c : Thread nD τ).1, b)) (V54 m (outs m) c) s').trans fupd_intro)
    fun s h c => ?_
  have hr (b : Ref sig .tc) (hb) := h c (Proc.devRef .tc b) (Finset.mem_filter.mpr ⟨StableHlo.devRef_mem_tcRefs b, hb⟩)
  exact ⟨hr main_v105 (by decide),
    (hr main_arg0 (by decide)).trans (V54_main_arg0 m _ c), (hr main_arg1 (by decide)).trans (V54_main_arg1 m _ c),
    (hr main_arg2 (by decide)).trans (V54_main_arg2 m _ c), (hr main_arg3 (by decide)).trans (V54_main_arg3 m _ c),
    (hr main_arg4 (by decide)).trans (V54_main_arg4 m _ c), (hr main_arg5 (by decide)).trans (V54_main_arg5 m _ c),
    (hr main_arg6 (by decide)).trans (V54_main_arg6 m _ c), (hr main_arg7 (by decide)).trans (V54_main_arg7 m _ c),
    (hr main_arg8 (by decide)).trans (V54_main_arg8 m _ c)⟩

end Cert.KernelIdeal.Inst

end
-- ==== Proof.Spec.lean ====
import Idealize.ShloMosaic.PureOps.Ideal
import Idealize.ShloMosaic.Lib.ValueIdx

noncomputable section

namespace Cert.Proof.Spec

open Idealize.ShloMosaic Idealize.ShloMosaic.ValueIdx

abbrev X0 : Type := (⟨2, ![64, 2048]⟩ : Shape).Idx → EReal
abbrev X1 : Type := (⟨2, ![4096, 2048]⟩ : Shape).Idx → EReal

/-- Column `128 · s + u` of a 2048-wide row: lane `u` of segment `s`. -/
def col (s : Fin 16) (u : Fin 128) : Fin 2048 := ⟨128 * s.val + u.val, by omega⟩

theorem col_val (s : Fin 16) (u : Fin 128) : (col s u).val = 128 * s.val + u.val := rfl

theorem col_div_mod (c : Fin 2048) : col ⟨c.val / 128, by omega⟩ ⟨c.val % 128, by omega⟩ = c :=
  Fin.ext (by simp only [col_val]; omega)

theorem col_inj {s s' : Fin 16} {u u' : Fin 128} (h : col s u = col s' u') : s = s' ∧ u = u' := by
  have h' := congrArg Fin.val h
  simp only [col_val] at h'
  exact ⟨Fin.ext (by omega), Fin.ext (by omega)⟩

/-- A path's term at node `z`, lane `u`: its `x0` segment, its coefficient and its `x1` segments multiplied lane by lane. -/
def term1 (x0 : X0) (x1 : X1) (coef : EReal) (r : Fin 64) (sx s0 : Fin 16) (z : Fin 4096) (u : Fin 128) : EReal :=
  x0 (ix2 r (col sx u)) * coef * x1 (ix2 z (col s0 u))

def term2 (x0 : X0) (x1 : X1) (coef : EReal) (r : Fin 64) (sx s0 s1 : Fin 16) (z : Fin 4096) (u : Fin 128) : EReal :=
  x0 (ix2 r (col sx u)) * coef * x1 (ix2 z (col s0 u)) * x1 (ix2 z (col s1 u))

def term3 (x0 : X0) (x1 : X1) (coef : EReal) (r : Fin 64) (sx s0 s1 s2 : Fin 16) (z : Fin 4096) (u : Fin 128) : EReal :=
  x0 (ix2 r (col sx u)) * coef * x1 (ix2 z (col s0 u)) * x1 (ix2 z (col s1 u)) * x1 (ix2 z (col s2 u))

/-- The terms of the paths whose output id is segment `s`, summed. -/
def part1 (x0 : X0) (x1 : X1) (coef : Fin 32 → EReal) (r : Fin 4096 → Fin 64) (sx s0 : Fin 32 → Fin 16)
    (so : Fin 32 → BitVec 32) (z : Fin 4096) (s : Fin 16) (u : Fin 128) : EReal :=
  ∑ p : Fin 32, if so p = BitVec.ofNat 32 s.val then term1 x0 x1 (coef p) (r z) (sx p) (s0 p) z u else 0

def part2 (x0 : X0) (x1 : X1) (coef : Fin 96 → EReal) (r : Fin 4096 → Fin 64) (sx s0 s1 : Fin 96 → Fin 16)
    (so : Fin 96 → BitVec 32) (z : Fin 4096) (s : Fin 16) (u : Fin 128) : EReal :=
  ∑ p : Fin 96, if so p = BitVec.ofNat 32 s.val then term2 x0 x1 (coef p) (r z) (sx p) (s0 p) (s1 p) z u else 0

def part3 (x0 : X0) (x1 : X1) (coef : Fin 128 → EReal) (r : Fin 4096 → Fin 64) (sx s0 s1 s2 : Fin 128 → Fin 16)
    (so : Fin 128 → BitVec 32) (z : Fin 4096) (s : Fin 16) (u : Fin 128) : EReal :=
  ∑ p : Fin 128, if so p = BitVec.ofNat 32 s.val then term3 x0 x1 (coef p) (r z) (sx p) (s0 p) (s1 p) (s2 p) z u else 0

def pcol1 (p : Fin 32) (u : Fin 128) : Fin 4096 := ⟨128 * p.val + u.val, by omega⟩
def pcol2 (p : Fin 96) (u : Fin 128) : Fin 12288 := ⟨128 * p.val + u.val, by omega⟩
def pcol3 (p : Fin 128) (u : Fin 128) : Fin 16384 := ⟨128 * p.val + u.val, by omega⟩

theorem pcol1_val (p : Fin 32) (u : Fin 128) : (pcol1 p u).val = 128 * p.val + u.val := rfl
theorem pcol2_val (p : Fin 96) (u : Fin 128) : (pcol2 p u).val = 128 * p.val + u.val := rfl
theorem pcol3_val (p : Fin 128) (u : Fin 128) : (pcol3 p u).val = 128 * p.val + u.val := rfl

abbrev I0 : Type := (⟨1, ![4096]⟩ : Shape).Idx → BitVec 32
abbrev Idx1 : Type := (⟨2, ![32, 3]⟩ : Shape).Idx → BitVec 32
abbrev Idx2 : Type := (⟨2, ![96, 4]⟩ : Shape).Idx → BitVec 32
abbrev Idx3 : Type := (⟨2, ![128, 5]⟩ : Shape).Idx → BitVec 32
abbrev C1 : Type := (⟨1, ![32]⟩ : Shape).Idx → EReal
abbrev C2 : Type := (⟨1, ![96]⟩ : Shape).Idx → EReal
abbrev C3 : Type := (⟨1, ![128]⟩ : Shape).Idx → EReal

/-- The index inputs decoded: every row index and every segment id a path reads is the word of a number in range; the output ids stay raw words. -/
structure Tables (i0 : I0) (idx1 : Idx1) (idx2 : Idx2) (idx3 : Idx3) where
  r : Fin 4096 → Fin 64
  hr : ∀ z : Fin 4096, i0 (ix1 z) = BitVec.ofNat 32 (r z).val
  t1 : Fin 32 → Fin 2 → Fin 16
  ht1 : ∀ (p : Fin 32) (k : Fin 2), idx1 (ix2 p (Fin.castLE (by decide) k)) = BitVec.ofNat 32 (t1 p k).val
  t2 : Fin 96 → Fin 3 → Fin 16
  ht2 : ∀ (p : Fin 96) (k : Fin 3), idx2 (ix2 p (Fin.castLE (by decide) k)) = BitVec.ofNat 32 (t2 p k).val
  t3 : Fin 128 → Fin 4 → Fin 16
  ht3 : ∀ (p : Fin 128) (k : Fin 4), idx3 (ix2 p (Fin.castLE (by decide) k)) = BitVec.ofNat 32 (t3 p k).val

variable {i0 : I0} {idx1 : Idx1} {idx2 : Idx2} {idx3 : Idx3}

def out1 (x0 : X0) (x1 : X1) (c1 : C1) (T : Tables i0 idx1 idx2 idx3) (z : Fin 4096) (s : Fin 16) (u : Fin 128) : EReal :=
  part1 x0 x1 (fun p => c1 (ix1 p)) T.r (fun p => T.t1 p 1) (fun p => T.t1 p 0) (fun p => idx1 (ix2 p 2)) z s u

def out2 (x0 : X0) (x1 : X1) (c2 : C2) (T : Tables i0 idx1 idx2 idx3) (z : Fin 4096) (s : Fin 16) (u : Fin 128) : EReal :=
  part2 x0 x1 (fun p => c2 (ix1 p)) T.r (fun p => T.t2 p 2) (fun p => T.t2 p 0) (fun p => T.t2 p 1) (fun p => idx2 (ix2 p 3)) z s u

def out3 (x0 : X0) (x1 : X1) (c3 : C3) (T : Tables i0 idx1 idx2 idx3) (z : Fin 4096) (s : Fin 16) (u : Fin 128) : EReal :=
  part3 x0 x1 (fun p => c3 (ix1 p)) T.r (fun p => T.t3 p 3) (fun p => T.t3 p 0) (fun p => T.t3 p 1) (fun p => T.t3 p 2)
    (fun p => idx3 (ix2 p 4)) z s u

/-- The result at node `z`, segment `s`, lane `u`: the three degrees' sums added. -/
def out (x0 : X0) (x1 : X1) (c1 : C1) (c2 : C2) (c3 : C3) (T : Tables i0 idx1 idx2 idx3)
    (z : Fin 4096) (s : Fin 16) (u : Fin 128) : EReal :=
  out1 x0 x1 c1 T z s u + out2 x0 x1 c2 T z s u + out3 x0 x1 c3 T z s u

end Cert.Proof.Spec

end
-- ==== Proof.KI.Tail.lean ====
import proofs.«426359_j52879637348696_1_alg».proof.Proof.RegionsKI
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.Tail

open Cert.KernelIdeal Cert.KernelIdeal.Gen Cert.KernelIdeal.GenP
open Idealize.ShloMosaic Idealize.ShloMosaic.TcCoe Idealize.ShloMosaic.ValueIdx
open Idealize.SL Idealize.SL.Sem

section Stretches
variable (X : Valuation τ sig (Elt Ideal))

theorem st02_v3 : (StableHlo.after (hostOps0_2 (F := Ideal)) X main_v3 : S4096x2048.Idx → EReal)
    = broadcastInDim S4096x2048 ![] bcast_S_S4096x2048 (constant (F := Ideal) S_ .f32 0x00000000#32) := by
  show StableHlo.after hostOps0_2 X (Proc.devRef .tc main_v3) = _
  after_results <;> rfl

theorem st1_v31 : (StableHlo.after (hostOps1 (F := Ideal)) X main_v31 : S4096x2048.Idx → EReal)
    = (addf (X main_v3 : FVec Ideal S4096x2048 .f32) (X main_v30 : FVec Ideal S4096x2048 .f32) : FVec Ideal S4096x2048 .f32) := by
  show StableHlo.after hostOps1 X (Proc.devRef .tc main_v31) = _
  after_results <;> rfl

theorem st2_v65 : (StableHlo.after (hostOps2 (F := Ideal)) X main_v65 : S4096x2048.Idx → EReal)
    = (addf (X main_v31 : FVec Ideal S4096x2048 .f32) (X main_v64 : FVec Ideal S4096x2048 .f32) : FVec Ideal S4096x2048 .f32) := by
  show StableHlo.after hostOps2 X (Proc.devRef .tc main_v65) = _
  after_results <;> rfl

theorem st3_v105 : (StableHlo.after (hostOps3 (F := Ideal)) X main_v105 : S4096x2048.Idx → EReal)
    = (addf (X main_v65 : FVec Ideal S4096x2048 .f32) (X main_v104 : FVec Ideal S4096x2048 .f32) : FVec Ideal S4096x2048 .f32) := by
  show StableHlo.after hostOps3 X (Proc.devRef .tc main_v105) = _
  after_results <;> rfl

end Stretches

/-- The sum of two extended reals. -/
local notation:65 a:65 " +ₑ " b:66 => @HAdd.hAdd EReal EReal EReal instHAdd a b

variable (m : (ℓ : Loc nD τ sig) → Buf (Elt Ideal) ℓ) (outs : GenP.Outs (F := Ideal)) (c : Dev nD) (i : S4096x2048.Idx)

theorem v30_eq : (V15 m outs c main_v30 : S4096x2048.Idx → EReal) = outs 15 main_v30 c :=
  Function.update_self _ _ _
theorem v64_eq : (V32 m outs c main_v64 : S4096x2048.Idx → EReal) = outs 32 main_v64 c :=
  Function.update_self _ _ _
theorem v104_eq : (V53 m outs c main_v104 : S4096x2048.Idx → EReal) = outs 53 main_v104 c :=
  Function.update_self _ _ _

/-- Every entry of the zero array is 0. -/
theorem v3_apply : (V15 m outs c main_v3 : S4096x2048.Idx → EReal) i = (0 : EReal) := by
  rw [V15_of, V14_of, V13_of, V12_of, V11_of, V10_of, V9_of, V8_of, V7_of, V6_of, V5_of, V4_of]
  · refine (congrFun (st02_v3 (V2 m c)) i).trans ?_
    rw [broadcastInDim_apply _ bcast_S_S4096x2048 _ i ix0 (fun a => a.elim0), constant_apply, Ideal.ofBits_zero_f32]
  all_goals decide

/-- The first partial sum: zero plus the first part. -/
theorem v31_apply : (V32 m outs c main_v31 : S4096x2048.Idx → EReal) i = (outs 15 main_v30 c : S4096x2048.Idx → EReal) i := by
  rw [V32_of, V31_of, V30_of, V29_of, V28_of, V27_of, V26_of, V25_of, V24_of, V23_of, V22_of, V21_of, V20_of, V19_of, V18_of, V17_of]
  · refine (congrFun (st1_v31 (V15 m outs c)) i).trans ?_
    rw [addf_apply, v3_apply, zero_add, v30_eq]
  all_goals decide

/-- The second partial sum: the first two parts. -/
theorem v65_apply : (V53 m outs c main_v65 : S4096x2048.Idx → EReal) i
    = (outs 15 main_v30 c : S4096x2048.Idx → EReal) i +ₑ (outs 32 main_v64 c : S4096x2048.Idx → EReal) i := by
  rw [V53_of, V52_of, V51_of, V50_of, V49_of, V48_of, V47_of, V46_of, V45_of, V44_of, V43_of, V42_of, V41_of, V40_of, V39_of, V38_of, V37_of, V36_of,
    V35_of, V34_of]
  · refine (congrFun (st2_v65 (V32 m outs c)) i).trans ?_
    rw [addf_apply, v31_apply, v64_eq]
  all_goals decide

/-- The result at an entry: the sum of the three parts. -/
theorem result_apply : (GenP.V54 m outs c main_v105 : S4096x2048.Idx → EReal) i
    = (outs 15 main_v30 c : S4096x2048.Idx → EReal) i +ₑ (outs 32 main_v64 c : S4096x2048.Idx → EReal) i
      +ₑ (outs 53 main_v104 c : S4096x2048.Idx → EReal) i := by
  refine (congrFun (st3_v105 (V53 m outs c)) i).trans ?_
  rw [addf_apply, v65_apply, v104_eq]

end Cert.KernelIdeal.Tail

end
-- ==== Proof.KI.Val1.Sums.lean ====
import proofs.«426359_j52879637348696_1_alg».proof.Proof.Spec
import Mathlib.Algebra.BigOperators.Fin
import Mathlib.Logic.Equiv.Fin.Basic

noncomputable section

namespace Cert.KernelIdeal.Val1

open Idealize.ShloMosaic Idealize.ShloMosaic.ValueIdx Cert.Proof

theorem ofNat32_inj {a b : ℕ} (ha : a < 4294967296) (hb : b < 4294967296)
    (h : BitVec.ofNat 32 a = BitVec.ofNat 32 b) : a = b := by
  have h' := congrArg BitVec.toNat h
  simp only [BitVec.toNat_ofNat, Nat.reducePow] at h'
  omega

-- Only the term at the place the word names is non-zero.
theorem sum_onehot64 (w : BitVec 32) (r : Fin 64) (hw : w = BitVec.ofNat 32 r.val) (f : Fin 64 → EReal) :
    ∑ e : Fin 64, (if w = BitVec.ofNat 32 e.val then (1 : EReal) else 0) * f e = f r := by
  rw [Fintype.sum_eq_single r, if_pos hw, one_mul]
  intro e he
  rw [if_neg fun h => he (Fin.ext (ofNat32_inj (by omega) (by omega) (h.symm.trans hw))), zero_mul]

-- Only the term at lane u' of the segment the word names is non-zero.
theorem sum_sel2048 (w : BitVec 32) (t : Fin 16) (hw : w = BitVec.ofNat 32 t.val) (u' : Fin 128) (c : EReal)
    (g sel : Fin 2048 → EReal)
    (hsel : ∀ (s : Fin 16) (u : Fin 128), sel (Spec.col s u) = if w = BitVec.ofNat 32 s.val ∧ u = u' then c else 0) :
    ∑ j : Fin 2048, g j * sel j = g (Spec.col t u') * c := by
  rw [Fintype.sum_eq_single (Spec.col t u'), hsel, if_pos ⟨hw, rfl⟩]
  intro j hj
  rw [← Spec.col_div_mod j] at hj ⊢
  rw [hsel, if_neg, mul_zero]
  rintro ⟨h1, h2⟩
  have hs : (⟨j.val / 128, by omega⟩ : Fin 16) = t :=
    Fin.ext (ofNat32_inj (by simp only []; omega) (by omega) (h1.symm.trans hw))
  exact hj (by rw [hs, h2])

def kcol (h : Fin 2) (u : Fin 128) : Fin 256 := ⟨128 * h.val + u.val, by omega⟩

theorem kcol_val (h : Fin 2) (u : Fin 128) : (kcol h u).val = 128 * h.val + u.val := rfl

theorem sum_fin256 (f : Fin 256 → EReal) : ∑ k : Fin 256, f k = ∑ h : Fin 2, ∑ u : Fin 128, f (kcol h u) := by
  rw [← Equiv.sum_comp (finProdFinEquiv (m := 2) (n := 128)) f, Fintype.sum_prod_type]
  exact Finset.sum_congr rfl fun h _ => Finset.sum_congr rfl fun u _ => congrArg f (Fin.ext (Nat.add_comm _ _))

-- Split the 256 columns into two paths of 128 lanes: of each path only lane u survives, and only if the path names s.
theorem sum_out256 (wout : Fin 2 → BitVec 32) (s : Fin 16) (u : Fin 128) (term selo : Fin 256 → EReal)
    (hselo : ∀ (h : Fin 2) (u' : Fin 128),
      selo (kcol h u') = if wout h = BitVec.ofNat 32 s.val ∧ u' = u then (1 : EReal) else 0) :
    ∑ k : Fin 256, term k * selo k
      = ∑ h : Fin 2, if wout h = BitVec.ofNat 32 s.val then term (kcol h u) else 0 := by
  rw [sum_fin256]
  refine Finset.sum_congr rfl fun h _ => ?_
  by_cases hw : wout h = BitVec.ofNat 32 s.val
  · rw [if_pos hw, Fintype.sum_eq_single u, hselo, if_pos ⟨hw, rfl⟩, mul_one]
    intro u' hu'
    rw [hselo, if_neg fun hh => hu' hh.2, mul_zero]
  · rw [if_neg hw]
    exact Finset.sum_eq_zero fun u' _ => by rw [hselo, if_neg fun hh => hw hh.1, mul_zero]

theorem sum_range_pair (G : ℕ → EReal) (n : ℕ) :
    ∑ p ∈ Finset.range (2 * (n + 1)), G p = ∑ p ∈ Finset.range (2 * n), G p + (G (2 * n) + G (2 * n + 1)) := by
  rw [show 2 * (n + 1) = 2 * n + 1 + 1 by ring, Finset.sum_range_succ, Finset.sum_range_succ, add_assoc]

end Cert.KernelIdeal.Val1

end
-- ==== Proof.KI.Val0.Algebra.lean ====
import proofs.«426359_j52879637348696_1_alg».proof.Proof.Gen.KernelIdeal.Points
import proofs.«426359_j52879637348696_1_alg».proof.Proof.Gen.KernelIdeal.Launch
import proofs.«426359_j52879637348696_1_alg».proof.Proof.KI.Val1.Sums

noncomputable section

namespace Cert.KernelIdeal.Val0

open Idealize.ShloMosaic Idealize.ShloMosaic.ValueIdx Cert.Proof Cert.KernelIdeal Cert.KernelIdeal.Gen Cert.KernelIdeal.Val1

theorem idx_facts : ∀ t : Fin cfg0.N,
    win0_0.index t (0 : Fin 2) = t.val / 16 ∧ win0_0.index t (1 : Fin 2) = 0
    ∧ win0_1.index t (0 : Fin 2) = t.val / 16 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val % 16
    ∧ win0_4.index t (0 : Fin 2) = 0 ∧ win0_4.index t (1 : Fin 2) = t.val % 16
    ∧ win0_5.index t (0 : Fin 2) = t.val % 16 ∧ win0_5.index t (1 : Fin 2) = 0
    ∧ win0_6.index t (0 : Fin 2) = t.val / 16 ∧ win0_6.index t (1 : Fin 2) = 0 :=
  (by decide +kernel : ∀ t : Fin grid0.N, _)

def node (t : Fin cfg0.N) (q : Fin 512) : Fin 4096 :=
  ⟨t.val / 16 * 512 + q.val, by have := lt_of_lt_of_eq t.isLt N_0; omega⟩

def gcol (t : Fin cfg0.N) (k : Fin 256) : Fin 4096 := ⟨t.val % 16 * 256 + k.val, by omega⟩

def tpath (t : Fin cfg0.N) (h : Fin 2) : Fin 32 := ⟨2 * (t.val % 16) + h.val, by omega⟩

theorem gcol_kcol (t : Fin cfg0.N) (h : Fin 2) (u : Fin 128) : gcol t (kcol h u) = Spec.pcol1 (tpath t h) u :=
  Fin.ext (by show t.val % 16 * 256 + (128 * h.val + u.val) = 128 * (2 * (t.val % 16) + h.val) + u.val; omega)

end Cert.KernelIdeal.Val0

end
-- ==== Proof.KI.Val0.Step.lean ====
import proofs.«426359_j52879637348696_1_alg».proof.Proof.KI.Val0.Algebra

noncomputable section

namespace Cert.KernelIdeal.Val0

open Idealize.ShloMosaic Idealize.ShloMosaic.ValueIdx Cert.Proof Cert.KernelIdeal Cert.KernelIdeal.Gen

variable (t : Fin cfg0.N) (a0 : Spec.X0) (a1 : Spec.X1) (a2 : Spec.C1) {a5 : Spec.I0} {a6 : Spec.Idx1} {a7 : Spec.Idx2} {a8 : Spec.Idx3}
  (T : Spec.Tables a5 a6 a7 a8) (z : Fin 4096) (s : Fin 16) (u : Fin 128)

-- What path p adds to lane u of output segment s at node z.
def pathTerm (p : Fin 32) : EReal :=
  if a6 (ix2 p 2) = BitVec.ofNat 32 s.val then
    Spec.term1 a0 a1 (a2 (ix1 p)) (T.r z) (T.t1 p 1) (T.t1 p 0) z u else 0

def pterm (p : ℕ) : EReal :=
  if h : p < 32 then pathTerm a0 a1 a2 T z s u ⟨p, h⟩ else 0

theorem pair_eq :
    ∑ h : Fin 2, pathTerm a0 a1 a2 T z s u (tpath t h)
      = pterm a0 a1 a2 T z s u (2 * (t.val % 16)) + pterm a0 a1 a2 T z s u (2 * (t.val % 16) + 1) := by
  rw [Fin.sum_univ_two]
  unfold pterm
  rw [dif_pos (show 2 * (t.val % 16) < 32 by omega), dif_pos (show 2 * (t.val % 16) + 1 < 32 by omega)]
  rfl

theorem pterm_sum :
    ∑ p ∈ Finset.range 32, pterm a0 a1 a2 T z s u p = Spec.out1 a0 a1 a2 T z s u :=
  (Finset.sum_range _).trans (Finset.sum_congr rfl fun (p : Fin 32) _ => dif_pos p.isLt)

end Cert.KernelIdeal.Val0

end
-- ==== Proof.KI.Val0.Point.lean ====
import proofs.«426359_j52879637348696_1_alg».proof.Proof.Gen.KernelIdeal.Skeleton
import proofs.«426359_j52879637348696_1_alg».proof.Proof.Spec
import Idealize.ShloMosaic.Lib.ValueIdx
import Idealize.ShloMosaic.Lib.KernelVsHost
import Idealize.ShloMosaic.Lib.StackMember
import Idealize.ShloMosaic.Lib.Pipeline.Value

noncomputable section

namespace Cert.KernelIdeal.Val0

open Idealize.ShloMosaic Idealize.ShloMosaic.ValueIdx
open Cert.KernelIdeal Cert.KernelIdeal.Gen Cert.Proof

theorem ix2_ext {n0 n1 : ℕ} {i : (⟨2, ![n0, n1]⟩ : Shape).Idx} {a : Fin n0} {b : Fin n1}
    (h0 : (i 0).val = a.val) (h1 : (i 1).val = b.val) : i = ix2 a b :=
  Fin.ext h0 ▸ Fin.ext h1 ▸ eq_ix2 i

-- Places a block's entry in its array one coordinate at a time, once the block index on that axis is known.
theorem emb_val {G : Pipeline.Grid} (W : Pipeline.Window sig G) (t : Fin G.N) (y : (W.xblock (G.coords t)).Idx)
    (a : Fin W.shape.rank) {k v : ℕ} (hk : W.index t a = k) (hv : k * W.size a + y a = v) :
    ((W.rect t).emb y a : ℕ) = v := by
  rw [W.rect_emb_val t y a, hk, hv]

def arr (f : Fin 4096 → Fin 16 → Fin 128 → EReal) : S4096x2048.Idx → EReal := fun i =>
  f (i 0) ⟨(i 1).val / 128, by have := idx2_lt1 i; omega⟩ ⟨(i 1).val % 128, Nat.mod_lt _ (by decide)⟩

theorem arr_apply (f : Fin 4096 → Fin 16 → Fin 128 → EReal) (z : Fin 4096) (s : Fin 16) (u : Fin 128) :
    arr f (ix2 z (Spec.col s u)) = f z s u := by
  unfold arr
  congr 1
  · exact Fin.ext (by show (128 * s.val + u.val) / 128 = s.val; omega)
  · exact Fin.ext (by show (128 * s.val + u.val) % 128 = u.val; omega)

theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

theorem dot_oh : dot_S512x64_S64x2048_S512x2048_1_0_0_1_n_n = DotDims.plain 512 64 2048 := rfl
theorem dot_sel : dot_S512x2048_S2048x256_S512x256_1_0_0_1_n_n = DotDims.plain 512 2048 256 := rfl
theorem dot_out : dot_S512x256_S256x2048_S512x2048_1_0_0_1_n_n = DotDims.plain 512 256 2048 := rfl

theorem pay2_apply (oh : Vec Ideal S512x64 .bf16) (x0 : Vec Ideal S64x2048 .bf16) (q : Fin 512) (j : Fin 2048) :
    k0_pay2 (F := Ideal) oh x0 (ix2 q j) = ∑ e : Fin 64, oh (ix2 q e) * x0 (ix2 e j) := by
  unfold k0_pay2
  simp only [shapeCast_self, dot_oh]
  rw [truncf_apply]
  exact matmul_plain_apply (φ₁ := .bf16) (φ₂ := .bf16) none oh x0 q j

theorem pay1_apply (i : S512x2048.Idx) : k0_pay1 (F := Ideal) i = 0 := by
  unfold k0_pay1
  exact Ideal.ofBits_zero_f32

theorem pay3_apply (x0z : Vec Ideal S512x2048 .bf16) (selx0 : Vec Ideal S2048x256 .bf16) (x1 : Vec Ideal S512x2048 .bf16)
    (sel0 : Vec Ideal S2048x256 .bf16) (selout : Vec Ideal S256x2048 .bf16) (acc : Vec Ideal S512x2048 .f32)
    (q : Fin 512) (j : Fin 2048) :
    k0_pay3 (F := Ideal) x0z selx0 x1 sel0 selout acc (ix2 q j)
      = acc (ix2 q j) + ∑ k : Fin 256,
          ((∑ i : Fin 2048, x0z (ix2 q i) * selx0 (ix2 i k)) * (∑ i : Fin 2048, x1 (ix2 q i) * sel0 (ix2 i k)))
            * selout (ix2 k j) := by
  unfold k0_pay3
  simp only [shapeCast_self, dot_sel, dot_out]
  rw [addf_apply, matmul_plain_apply]
  refine congrArg (acc (ix2 q j) + ·) (Finset.sum_congr rfl fun k _ => ?_)
  rw [truncf_apply, mulf_apply, matmul_plain_apply, matmul_plain_apply]

end Cert.KernelIdeal.Val0

end
-- ==== Proof.KI.Val0.lean ====
import proofs.«426359_j52879637348696_1_alg».proof.Proof.KI.Val0.Step
import proofs.«426359_j52879637348696_1_alg».proof.Proof.KI.Val0.Point
import proofs.«426359_j52879637348696_1_alg».proof.Proof.KI.Reg0

noncomputable section

namespace Cert.KernelIdeal.Val0

open Idealize.ShloMosaic Idealize.ShloMosaic.ValueIdx Idealize.ShloMosaic.TcCoe Idealize.SL.Sem
open Cert.Proof Cert.KernelIdeal Cert.KernelIdeal.Gen Cert.KernelIdeal.Val1

variable (V : (c : Dev nD) → (b : Ref sig .tc) → Buf (Elt Ideal) ((c : Thread nD τ).loc b)) (c : Dev nD)
  (t : Fin cfg0.N) (q : Fin 512) (e : Fin 64) (i j : Fin 2048) (k : Fin 256)

theorem iblk0 :
    Reg0.iblk V c 0 t (ix2 q j) = V c main_v0 (ix2 (node t q) j) := by
  obtain ⟨e0, e1, -⟩ := idx_facts t
  exact congrArg (V c main_v0) (ix2_ext (emb_val win0_0 t _ 0 e0 rfl) (emb_val win0_0 t _ 1 e1 (Nat.zero_add _)))

theorem iblk1 :
    Reg0.iblk V c 1 t (ix2 q e) = V c main_v2 (ix2 (node t q) e) := by
  obtain ⟨-, -, e0, e1, -⟩ := idx_facts t
  exact congrArg (V c main_v2) (ix2_ext (emb_val win0_1 t _ 0 e0 rfl) (emb_val win0_1 t _ 1 e1 (Nat.zero_add _)))

theorem iblk2 :
    Reg0.iblk V c 2 t (ix2 e j) = V c main_v1 (ix2 e j) := by
  obtain ⟨-, -, -, -, e0, e1, -⟩ := idx_facts t
  exact congrArg (V c main_v1) (ix2_ext (emb_val win0_2 t _ 0 e0 (Nat.zero_add _)) (emb_val win0_2 t _ 1 e1 (Nat.zero_add _)))

theorem iblk3 :
    Reg0.iblk V c 3 t (ix2 i k) = V c main_v15 (ix2 i (gcol t k)) := by
  obtain ⟨-, -, -, -, -, -, e0, e1, -⟩ := idx_facts t
  exact congrArg (V c main_v15) (ix2_ext (emb_val win0_3 t _ 0 e0 (Nat.zero_add _)) (emb_val win0_3 t _ 1 e1 rfl))

theorem iblk4 :
    Reg0.iblk V c 4 t (ix2 i k) = V c main_v24 (ix2 i (gcol t k)) := by
  obtain ⟨-, -, -, -, -, -, -, -, e0, e1, -⟩ := idx_facts t
  exact congrArg (V c main_v24) (ix2_ext (emb_val win0_4 t _ 0 e0 (Nat.zero_add _)) (emb_val win0_4 t _ 1 e1 rfl))

theorem iblk5 :
    Reg0.iblk V c 5 t (ix2 k j) = V c main_v29 (ix2 (gcol t k) j) := by
  obtain ⟨-, -, -, -, -, -, -, -, -, -, e0, e1, -⟩ := idx_facts t
  exact congrArg (V c main_v29) (ix2_ext (emb_val win0_5 t _ 0 e0 rfl) (emb_val win0_5 t _ 1 e1 (Nat.zero_add _)))

theorem emb6 :
    ((cfg0.win 6).blk t).view.emb (ix2 q j) = ix2 (node t q) j := by
  obtain ⟨-, -, -, -, -, -, -, -, -, -, -, -, e0, e1⟩ := idx_facts t
  exact ix2_ext (emb_val win0_6 t _ 0 e0 rfl) (emb_val win0_6 t _ 1 e1 (Nat.zero_add _))

variable (a0 : Spec.X0) (a1 : Spec.X1) (a2 : Spec.C1) {a5 : Spec.I0} {a6 : Spec.Idx1} {a7 : Spec.Idx2} {a8 : Spec.Idx3}
  (T : Spec.Tables a5 a6 a7 a8) (s : Fin 16) (u : Fin 128)
  (hx1 : (V c main_v0 : S4096x2048.Idx → EReal) = a1) (hx0 : (V c main_v1 : S64x2048.Idx → EReal) = a0)
  (hoh : ∀ (z : Fin 4096) (e : Fin 64), V c main_v2 (ix2 z e) = if a5 (ix1 z) = BitVec.ofNat 32 e.val then (1 : EReal) else 0)
  (hsel0 : ∀ (s : Fin 16) (u : Fin 128) (p : Fin 32) (u' : Fin 128), V c main_v15 (ix2 (Spec.col s u) (Spec.pcol1 p u'))
    = if a6 (ix2 p 0) = BitVec.ofNat 32 s.val ∧ u = u' then (1 : EReal) else 0)
  (hselx0 : ∀ (s : Fin 16) (u : Fin 128) (p : Fin 32) (u' : Fin 128), V c main_v24 (ix2 (Spec.col s u) (Spec.pcol1 p u'))
    = if a6 (ix2 p 1) = BitVec.ofNat 32 s.val ∧ u = u' then a2 (ix1 p) else 0)
  (hselout : ∀ (p : Fin 32) (u' : Fin 128) (s : Fin 16) (u : Fin 128), V c main_v29 (ix2 (Spec.pcol1 p u') (Spec.col s u))
    = if a6 (ix2 p 2) = BitVec.ofNat 32 s.val ∧ u' = u then (1 : EReal) else 0)

include hx0 hoh in
theorem scratch_row (j : Fin 2048) :
    k0_pay2 (F := Ideal) (Reg0.iblk V c 1 t) (Reg0.iblk V c 2 t) (ix2 q j) = a0 (ix2 (T.r (node t q)) j) := by
  rw [pay2_apply, ← sum_onehot64 _ _ (T.hr (node t q)) fun e => a0 (ix2 e j)]
  exact Finset.sum_congr rfl fun e _ => by rw [iblk1, hoh, iblk2, hx0]

include hx1 hsel0 hselx0 hselout in
theorem point_row (x0z : Vec Ideal S512x2048 .bf16) (acc : Vec Ideal S512x2048 .f32)
    (hx0z : ∀ j : Fin 2048, x0z (ix2 q j) = a0 (ix2 (T.r (node t q)) j)) :
    k0_pay3 (F := Ideal) x0z (Reg0.iblk V c 4 t) (Reg0.iblk V c 0 t) (Reg0.iblk V c 3 t) (Reg0.iblk V c 5 t) acc
        (ix2 q (Spec.col s u))
      = acc (ix2 q (Spec.col s u))
        + (pterm a0 a1 a2 T (node t q) s u (2 * (t.val % 16)) + pterm a0 a1 a2 T (node t q) s u (2 * (t.val % 16) + 1)) := by
  rw [← pair_eq, pay3_apply, sum_out256 (fun h => a6 (ix2 (tpath t h) 2)) s u _
    (fun k => Reg0.iblk V c 5 t (ix2 k (Spec.col s u))) fun h u' => by rw [iblk5, gcol_kcol, hselout]]
  refine congrArg (acc (ix2 q (Spec.col s u)) + ·) (Finset.sum_congr rfl fun h _ => ?_)
  rw [sum_sel2048 (a6 (ix2 (tpath t h) 1)) _ (T.ht1 (tpath t h) 1) u (a2 (ix1 (tpath t h))) (fun i => x0z (ix2 q i))
      (fun i => Reg0.iblk V c 4 t (ix2 i (kcol h u))) fun sg v => by rw [iblk4, gcol_kcol, hselx0],
    sum_sel2048 (a6 (ix2 (tpath t h) 0)) _ (T.ht1 (tpath t h) 0) u 1 (fun i => Reg0.iblk V c 0 t (ix2 q i))
      (fun i => Reg0.iblk V c 3 t (ix2 i (kcol h u))) fun sg v => by rw [iblk3, gcol_kcol, hsel0],
    hx0z, iblk0, hx1, mul_one]
  rfl

include hx1 hx0 hoh hsel0 hselx0 hselout

-- By induction on the point: a row tile's first point starts from zero, every later one adds its two paths to what the point before left.
theorem outs_inv : ∀ (n : ℕ) (hn : n < cfg0.N) (q : Fin 512),
    (∀ j : Fin 2048, (Reg0.outsAt V c n hn).2 (ix2 q j) = a0 (ix2 (T.r (node ⟨n, hn⟩ q)) j))
    ∧ (∀ (s : Fin 16) (u : Fin 128), (Reg0.outsAt V c n hn).1 (ix2 q (Spec.col s u))
        = ∑ p ∈ Finset.range (2 * (n % 16 + 1)), pterm a0 a1 a2 T (node ⟨n, hn⟩ q) s u p) := by
  intro n
  induction n using Nat.strong_induction_on with
  | _ n ih =>
    intro hn q
    by_cases h0 : n % 16 = 0
    · rw [show Reg0.outsAt V c n hn = _ from Reg0.outsAt_first V c ⟨n, hn⟩ h0]
      have hs := scratch_row V c ⟨n, hn⟩ q a0 T hx0 hoh
      refine ⟨hs, fun s u => ?_⟩
      refine (point_row V c ⟨n, hn⟩ q a0 a1 a2 T s u hx1 hsel0 hselx0 hselout _ _ hs).trans ?_
      rw [pay1_apply, zero_add, sum_range_pair]
      show _ = ∑ p ∈ Finset.range (2 * (n % 16)), _ + _
      rw [h0, Finset.sum_range_zero, zero_add]
    · have hn' : n - 1 < cfg0.N := by omega
      rw [show Reg0.outsAt V c n hn = _ from Reg0.outsAt_next V c ⟨n, hn⟩ h0]
      obtain ⟨ihs, iho⟩ := ih (n - 1) (by omega) hn' q
      rw [show node ⟨n - 1, hn'⟩ q = node ⟨n, hn⟩ q from
        Fin.ext (by show (n - 1) / 16 * 512 + q.val = n / 16 * 512 + q.val; rw [show (n - 1) / 16 = n / 16 by omega])] at ihs iho
      refine ⟨ihs, fun s u => ?_⟩
      refine (point_row V c ⟨n, hn⟩ q a0 a1 a2 T s u hx1 hsel0 hselx0 hselout _ _ ihs).trans ?_
      rw [sum_range_pair]
      show _ + _ = ∑ p ∈ Finset.range (2 * (n % 16)), _ + _
      rw [iho s u, show (n - 1) % 16 + 1 = n % 16 by omega]

theorem flushed_eq (t : Fin cfg0.N) (hf : (cfg0.win 6).flush t = true) :
    (Reg0.dat V c).flushed 6 t = ((cfg0.win 6).blk t).view.read (Elt Ideal) (arr (Spec.out1 a0 a1 a2 T)) := by
  show (cfg0.win 6).cut (grid0.coords t) ((Reg0.dat V c).after 6 t) = _
  rw [Reg0.after_out]
  funext y
  obtain ⟨q, j, rfl⟩ : ∃ (q : Fin 512) (j : Fin 2048), y = ix2 q j := ⟨y 0, y 1, eq_ix2 (n0 := 512) (n1 := 2048) y⟩
  obtain ⟨s, u, rfl⟩ : ∃ (s : Fin 16) (u : Fin 128), j = Spec.col s u := ⟨_, _, (Spec.col_div_mod j).symm⟩
  rw [View.read_apply, emb6, arr_apply]
  refine ((outs_inv V c a0 a1 a2 T hx1 hx0 hoh hsel0 hselx0 hselout t.val t.isLt q).2 s u).trans ?_
  rw [(flush0_6 t).mp hf]
  exact pterm_sum a0 a1 a2 T (node t q) s u

omit hx1 hx0 hoh hsel0 hselx0 hselout in
theorem cover (i : S4096x2048.Idx) :
    ∃ t : Fin cfg0.N, (cfg0.win 6).flush t = true ∧ i ∈ ((cfg0.win 6).blk t).view.set := by
  have hi0 : (i 0).val < 4096 := idx2_lt0 i
  have hi1 : (i 1).val < 2048 := idx2_lt1 i
  have hN : 16 * ((i 0).val / 512) + 15 < cfg0.N := lt_of_lt_of_eq (by omega) N_0.symm
  refine ⟨⟨_, hN⟩, (flush0_6 _).mpr (by show (16 * ((i 0).val / 512) + 15) % 16 = 15; omega), ?_⟩
  generalize ht : (⟨_, hN⟩ : Fin cfg0.N) = t
  have hv : t.val = 16 * ((i 0).val / 512) + 15 := by rw [← ht]
  obtain ⟨-, -, -, -, -, -, -, -, -, -, -, -, e0, e1⟩ := idx_facts t
  show i ∈ ((View.whole main_v30).slice (win0_6.rect t)).set
  rw [View.set_slice_whole, Rect.mem_set_unit]
  intro a
  match a with
  | ⟨0, _⟩ =>
    show win0_6.index t (0 : Fin 2) * 512 ≤ (i 0).val ∧ (i 0).val < win0_6.index t (0 : Fin 2) * 512 + 512
    rw [e0, hv]; omega
  | ⟨1, _⟩ =>
    show win0_6.index t (1 : Fin 2) * 2048 ≤ (i 1).val ∧ (i 1).val < win0_6.index t (1 : Fin 2) * 2048 + 2048
    rw [e1]; omega

variable (a5 a6 a7 a8) in
theorem region_value (z : Fin 4096) (s : Fin 16) (u : Fin 128) :
    (Reg0.dat (F := Ideal) V c).arrAt 6 cfg0.N (ix2 z (Spec.col s u)) = Spec.out1 a0 a1 a2 T z s u := by
  rw [(Reg0.dat (F := Ideal) V c).arrAt_eq_of_cover 6 (arr (Spec.out1 a0 a1 a2 T))
    (flushed_eq V c a0 a1 a2 T hx1 hx0 hoh hsel0 hselx0 hselout) cover]
  exact arr_apply _ z s u

end Cert.KernelIdeal.Val0

end
-- ==== Proof.KI.Val1.Point.lean ====
import proofs.«426359_j52879637348696_1_alg».proof.Proof.KI.Val0.Point
import proofs.«426359_j52879637348696_1_alg».proof.Proof.KI.Val1.Sums

noncomputable section

namespace Cert.KernelIdeal.Val1

open Idealize.ShloMosaic Idealize.ShloMosaic.ValueIdx Cert.Proof Cert.KernelIdeal.Gen Cert.KernelIdeal.Val0

theorem pay1_apply (j : S512x2048.Idx) : k1_pay1 (F := Ideal) j = 0 :=
  Val0.pay1_apply j

theorem pay2_apply (oh : Vec Ideal S512x64 .bf16) (x0 : Vec Ideal S64x2048 .bf16) (q : Fin 512) (j : Fin 2048) :
    k1_pay2 (F := Ideal) oh x0 (ix2 q j) = ∑ e : Fin 64, oh (ix2 q e) * x0 (ix2 e j) :=
  Val0.pay2_apply oh x0 q j

theorem pay3_apply (x0z : Vec Ideal S512x2048 .bf16) (selx0 : Vec Ideal S2048x256 .bf16) (x1 : Vec Ideal S512x2048 .bf16)
    (sel0 : Vec Ideal S2048x256 .bf16) (x1' : Vec Ideal S512x2048 .bf16) (sel1 : Vec Ideal S2048x256 .bf16)
    (selout : Vec Ideal S256x2048 .bf16) (acc : Vec Ideal S512x2048 .f32) (q : Fin 512) (j : Fin 2048) :
    k1_pay3 (F := Ideal) x0z selx0 x1 sel0 x1' sel1 selout acc (ix2 q j)
      = acc (ix2 q j) + ∑ k : Fin 256,
          ((∑ i : Fin 2048, x0z (ix2 q i) * selx0 (ix2 i k)) * (∑ i : Fin 2048, x1 (ix2 q i) * sel0 (ix2 i k))
            * (∑ i : Fin 2048, x1' (ix2 q i) * sel1 (ix2 i k))) * selout (ix2 k j) := by
  unfold k1_pay3
  simp only [shapeCast_self, dot_sel, dot_out]
  rw [addf_apply, matmul_plain_apply]
  refine congrArg (acc (ix2 q j) + ·) (Finset.sum_congr rfl fun k _ => ?_)
  rw [truncf_apply, mulf_apply, mulf_apply, matmul_plain_apply, matmul_plain_apply, matmul_plain_apply]

end Cert.KernelIdeal.Val1

end
-- ==== Proof.KI.Val1.Idx.lean ====
import proofs.«426359_j52879637348696_1_alg».proof.Proof.Gen.KernelIdeal.Points
import proofs.«426359_j52879637348696_1_alg».proof.Proof.Gen.KernelIdeal.Launch
import proofs.«426359_j52879637348696_1_alg».proof.Proof.KI.Val1.Sums

noncomputable section

namespace Cert.KernelIdeal.Val1

open Idealize.ShloMosaic Idealize.ShloMosaic.ValueIdx Cert.Proof Cert.KernelIdeal Cert.KernelIdeal.Gen

theorem idx_facts : ∀ t : Fin cfg1.N,
    win1_0.index t (0 : Fin 2) = t.val / 48 ∧ win1_0.index t (1 : Fin 2) = 0
    ∧ win1_1.index t (0 : Fin 2) = t.val / 48 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = t.val % 48
    ∧ win1_4.index t (0 : Fin 2) = 0 ∧ win1_4.index t (1 : Fin 2) = t.val % 48
    ∧ win1_5.index t (0 : Fin 2) = 0 ∧ win1_5.index t (1 : Fin 2) = t.val % 48
    ∧ win1_6.index t (0 : Fin 2) = t.val % 48 ∧ win1_6.index t (1 : Fin 2) = 0
    ∧ win1_7.index t (0 : Fin 2) = t.val / 48 ∧ win1_7.index t (1 : Fin 2) = 0 :=
  (by decide +kernel : ∀ t : Fin grid1.N, _)

def node (t : Fin cfg1.N) (q : Fin 512) : Fin 4096 :=
  ⟨t.val / 48 * 512 + q.val, by have := lt_of_lt_of_eq t.isLt N_1; omega⟩

def gcol (t : Fin cfg1.N) (k : Fin 256) : Fin 12288 := ⟨t.val % 48 * 256 + k.val, by omega⟩

def tpath (t : Fin cfg1.N) (h : Fin 2) : Fin 96 := ⟨2 * (t.val % 48) + h.val, by omega⟩

theorem gcol_kcol (t : Fin cfg1.N) (h : Fin 2) (u : Fin 128) : gcol t (kcol h u) = Spec.pcol2 (tpath t h) u :=
  Fin.ext (by show t.val % 48 * 256 + (128 * h.val + u.val) = 128 * (2 * (t.val % 48) + h.val) + u.val; omega)

end Cert.KernelIdeal.Val1

end
-- ==== Proof.KI.Val1.lean ====
import proofs.«426359_j52879637348696_1_alg».proof.Proof.KI.Reg1
import proofs.«426359_j52879637348696_1_alg».proof.Proof.KI.Val1.Point
import proofs.«426359_j52879637348696_1_alg».proof.Proof.KI.Val1.Idx

noncomputable section

namespace Cert.KernelIdeal.Val1

open Idealize.ShloMosaic Idealize.ShloMosaic.ValueIdx Idealize.ShloMosaic.TcCoe Idealize.SL.Sem
open Cert.Proof Cert.KernelIdeal Cert.KernelIdeal.Gen Cert.KernelIdeal.Val0

variable (V : (c : Dev nD) → (b : Ref sig .tc) → Buf (Elt Ideal) ((c : Thread nD τ).loc b)) (c : Dev nD)
  (t : Fin cfg1.N) (q : Fin 512) (e : Fin 64) (i j : Fin 2048) (k : Fin 256)

theorem iblk0 :
    Reg1.iblk V c 0 t (ix2 q j) = V c main_v0 (ix2 (node t q) j) := by
  obtain ⟨e0, e1, -⟩ := idx_facts t
  exact congrArg (V c main_v0) (ix2_ext (emb_val win1_0 t _ 0 e0 rfl) (emb_val win1_0 t _ 1 e1 (Nat.zero_add _)))

theorem iblk1 :
    Reg1.iblk V c 1 t (ix2 q e) = V c main_v2 (ix2 (node t q) e) := by
  obtain ⟨-, -, e0, e1, -⟩ := idx_facts t
  exact congrArg (V c main_v2) (ix2_ext (emb_val win1_1 t _ 0 e0 rfl) (emb_val win1_1 t _ 1 e1 (Nat.zero_add _)))

theorem iblk2 :
    Reg1.iblk V c 2 t (ix2 e j) = V c main_v1 (ix2 e j) := by
  obtain ⟨-, -, -, -, e0, e1, -⟩ := idx_facts t
  exact congrArg (V c main_v1) (ix2_ext (emb_val win1_2 t _ 0 e0 (Nat.zero_add _)) (emb_val win1_2 t _ 1 e1 (Nat.zero_add _)))

theorem iblk3 :
    Reg1.iblk V c 3 t (ix2 i k) = V c main_v43 (ix2 i (gcol t k)) := by
  obtain ⟨-, -, -, -, -, -, e0, e1, -⟩ := idx_facts t
  exact congrArg (V c main_v43) (ix2_ext (emb_val win1_3 t _ 0 e0 (Nat.zero_add _)) (emb_val win1_3 t _ 1 e1 rfl))

theorem iblk4 :
    Reg1.iblk V c 4 t (ix2 i k) = V c main_v49 (ix2 i (gcol t k)) := by
  obtain ⟨-, -, -, -, -, -, -, -, e0, e1, -⟩ := idx_facts t
  exact congrArg (V c main_v49) (ix2_ext (emb_val win1_4 t _ 0 e0 (Nat.zero_add _)) (emb_val win1_4 t _ 1 e1 rfl))

theorem iblk5 :
    Reg1.iblk V c 5 t (ix2 i k) = V c main_v58 (ix2 i (gcol t k)) := by
  obtain ⟨-, -, -, -, -, -, -, -, -, -, e0, e1, -⟩ := idx_facts t
  exact congrArg (V c main_v58) (ix2_ext (emb_val win1_5 t _ 0 e0 (Nat.zero_add _)) (emb_val win1_5 t _ 1 e1 rfl))

theorem iblk6 :
    Reg1.iblk V c 6 t (ix2 k j) = V c main_v63 (ix2 (gcol t k) j) := by
  obtain ⟨-, -, -, -, -, -, -, -, -, -, -, -, e0, e1, -⟩ := idx_facts t
  exact congrArg (V c main_v63) (ix2_ext (emb_val win1_6 t _ 0 e0 rfl) (emb_val win1_6 t _ 1 e1 (Nat.zero_add _)))

theorem emb7 :
    ((cfg1.win 7).blk t).view.emb (ix2 q j) = ix2 (node t q) j := by
  obtain ⟨-, -, -, -, -, -, -, -, -, -, -, -, -, -, e0, e1⟩ := idx_facts t
  exact ix2_ext (emb_val win1_7 t _ 0 e0 rfl) (emb_val win1_7 t _ 1 e1 (Nat.zero_add _))

variable (a0 : Spec.X0) (a1 : Spec.X1) (cf : Spec.C2) {a5 : Spec.I0} {a6 : Spec.Idx1} {a7 : Spec.Idx2} {a8 : Spec.Idx3}
  (T : Spec.Tables a5 a6 a7 a8) (z : Fin 4096) (s : Fin 16) (u : Fin 128)

-- What path p adds to lane u of output segment s at node z.
def pathTerm (p : Fin 96) : EReal :=
  if a7 (ix2 p 3) = BitVec.ofNat 32 s.val then
    Spec.term2 a0 a1 (cf (ix1 p)) (T.r z) (T.t2 p 2) (T.t2 p 0) (T.t2 p 1) z u else 0

def pterm (p : ℕ) : EReal :=
  if h : p < 96 then pathTerm a0 a1 cf T z s u ⟨p, h⟩ else 0

theorem pair_eq :
    ∑ h : Fin 2, pathTerm a0 a1 cf T z s u (tpath t h)
      = pterm a0 a1 cf T z s u (2 * (t.val % 48)) + pterm a0 a1 cf T z s u (2 * (t.val % 48) + 1) := by
  rw [Fin.sum_univ_two]
  unfold pterm
  rw [dif_pos (show 2 * (t.val % 48) < 96 by omega), dif_pos (show 2 * (t.val % 48) + 1 < 96 by omega)]
  rfl

theorem pterm_sum :
    ∑ p ∈ Finset.range 96, pterm a0 a1 cf T z s u p = Spec.out2 a0 a1 cf T z s u :=
  (Finset.sum_range _).trans (Finset.sum_congr rfl fun (p : Fin 96) _ => dif_pos p.isLt)

variable (hx1 : (V c main_v0 : S4096x2048.Idx → EReal) = a1) (hx0 : (V c main_v1 : S64x2048.Idx → EReal) = a0)
  (hoh : ∀ (z : Fin 4096) (e : Fin 64), V c main_v2 (ix2 z e) = if a5 (ix1 z) = BitVec.ofNat 32 e.val then (1 : EReal) else 0)
  (hsel0 : ∀ (s : Fin 16) (u : Fin 128) (p : Fin 96) (u' : Fin 128), V c main_v43 (ix2 (Spec.col s u) (Spec.pcol2 p u')) = if a7 (ix2 p 0) = BitVec.ofNat 32 s.val ∧ u = u' then (1 : EReal) else 0)
  (hsel1 : ∀ (s : Fin 16) (u : Fin 128) (p : Fin 96) (u' : Fin 128), V c main_v49 (ix2 (Spec.col s u) (Spec.pcol2 p u')) = if a7 (ix2 p 1) = BitVec.ofNat 32 s.val ∧ u = u' then (1 : EReal) else 0)
  (hselx0 : ∀ (s : Fin 16) (u : Fin 128) (p : Fin 96) (u' : Fin 128), V c main_v58 (ix2 (Spec.col s u) (Spec.pcol2 p u')) = if a7 (ix2 p 2) = BitVec.ofNat 32 s.val ∧ u = u' then cf (ix1 p) else 0)
  (hselout : ∀ (p : Fin 96) (u' : Fin 128) (s : Fin 16) (u : Fin 128), V c main_v63 (ix2 (Spec.pcol2 p u') (Spec.col s u)) = if a7 (ix2 p 3) = BitVec.ofNat 32 s.val ∧ u' = u then (1 : EReal) else 0)

include hx0 hoh in
theorem scratch_row (j : Fin 2048) :
    k1_pay2 (F := Ideal) (Reg1.iblk V c 1 t) (Reg1.iblk V c 2 t) (ix2 q j) = a0 (ix2 (T.r (node t q)) j) := by
  rw [pay2_apply, ← sum_onehot64 _ _ (T.hr (node t q)) fun e => a0 (ix2 e j)]
  exact Finset.sum_congr rfl fun e _ => by rw [iblk1, hoh, iblk2, hx0]

include hx1 hsel0 hsel1 hselx0 hselout in
theorem point_row (x0z : Vec Ideal S512x2048 .bf16) (acc : Vec Ideal S512x2048 .f32)
    (hx0z : ∀ j : Fin 2048, x0z (ix2 q j) = a0 (ix2 (T.r (node t q)) j)) :
    k1_pay3 (F := Ideal) x0z (Reg1.iblk V c 5 t) (Reg1.iblk V c 0 t) (Reg1.iblk V c 3 t) (Reg1.iblk V c 0 t)
        (Reg1.iblk V c 4 t) (Reg1.iblk V c 6 t) acc (ix2 q (Spec.col s u))
      = acc (ix2 q (Spec.col s u))
        + (pterm a0 a1 cf T (node t q) s u (2 * (t.val % 48)) + pterm a0 a1 cf T (node t q) s u (2 * (t.val % 48) + 1)) := by
  rw [← pair_eq, pay3_apply, sum_out256 (fun h => a7 (ix2 (tpath t h) 3)) s u _
    (fun k => Reg1.iblk V c 6 t (ix2 k (Spec.col s u))) fun h u' => by rw [iblk6, gcol_kcol, hselout]]
  refine congrArg (acc (ix2 q (Spec.col s u)) + ·) (Finset.sum_congr rfl fun h _ => ?_)
  rw [sum_sel2048 (a7 (ix2 (tpath t h) 2)) _ (T.ht2 (tpath t h) 2) u (cf (ix1 (tpath t h))) (fun i => x0z (ix2 q i))
      (fun i => Reg1.iblk V c 5 t (ix2 i (kcol h u))) fun sg v => by rw [iblk5, gcol_kcol, hselx0],
    sum_sel2048 (a7 (ix2 (tpath t h) 0)) _ (T.ht2 (tpath t h) 0) u 1 (fun i => Reg1.iblk V c 0 t (ix2 q i))
      (fun i => Reg1.iblk V c 3 t (ix2 i (kcol h u))) fun sg v => by rw [iblk3, gcol_kcol, hsel0],
    sum_sel2048 (a7 (ix2 (tpath t h) 1)) _ (T.ht2 (tpath t h) 1) u 1 (fun i => Reg1.iblk V c 0 t (ix2 q i))
      (fun i => Reg1.iblk V c 4 t (ix2 i (kcol h u))) fun sg v => by rw [iblk4, gcol_kcol, hsel1],
    hx0z, iblk0, iblk0, hx1, mul_one, mul_one]
  rfl

include hx1 hx0 hoh hsel0 hsel1 hselx0 hselout

-- By induction on the point: a row tile's first point starts from zero, every later one adds its two paths to what the point before left.
theorem outs_inv : ∀ (n : ℕ) (hn : n < cfg1.N) (q : Fin 512),
    (∀ j : Fin 2048, (Reg1.outsAt V c n hn).2 (ix2 q j) = a0 (ix2 (T.r (node ⟨n, hn⟩ q)) j))
    ∧ (∀ (s : Fin 16) (u : Fin 128), (Reg1.outsAt V c n hn).1 (ix2 q (Spec.col s u))
        = ∑ p ∈ Finset.range (2 * (n % 48 + 1)), pterm a0 a1 cf T (node ⟨n, hn⟩ q) s u p) := by
  intro n
  induction n using Nat.strong_induction_on with
  | _ n ih =>
    intro hn q
    by_cases h0 : n % 48 = 0
    · rw [show Reg1.outsAt V c n hn = _ from Reg1.outsAt_first V c ⟨n, hn⟩ h0]
      have hs := scratch_row V c ⟨n, hn⟩ q a0 T hx0 hoh
      refine ⟨hs, fun s u => ?_⟩
      refine (point_row V c ⟨n, hn⟩ q a0 a1 cf T s u hx1 hsel0 hsel1 hselx0 hselout _ _ hs).trans ?_
      rw [pay1_apply, zero_add, sum_range_pair]
      show _ = ∑ p ∈ Finset.range (2 * (n % 48)), _ + _
      rw [h0, Finset.sum_range_zero, zero_add]
    · have hn' : n - 1 < cfg1.N := by omega
      rw [show Reg1.outsAt V c n hn = _ from Reg1.outsAt_next V c ⟨n, hn⟩ h0]
      obtain ⟨ihs, iho⟩ := ih (n - 1) (by omega) hn' q
      rw [show node ⟨n - 1, hn'⟩ q = node ⟨n, hn⟩ q from
        Fin.ext (by show (n - 1) / 48 * 512 + q.val = n / 48 * 512 + q.val; rw [show (n - 1) / 48 = n / 48 by omega])] at ihs iho
      refine ⟨ihs, fun s u => ?_⟩
      refine (point_row V c ⟨n, hn⟩ q a0 a1 cf T s u hx1 hsel0 hsel1 hselx0 hselout _ _ ihs).trans ?_
      rw [sum_range_pair]
      show _ + _ = ∑ p ∈ Finset.range (2 * (n % 48)), _ + _
      rw [iho s u, show (n - 1) % 48 + 1 = n % 48 by omega]

theorem flushed_eq (t : Fin cfg1.N) (hf : (cfg1.win 7).flush t = true) :
    (Reg1.dat V c).flushed 7 t = ((cfg1.win 7).blk t).view.read (Elt Ideal) (arr (Spec.out2 a0 a1 cf T)) := by
  show (cfg1.win 7).cut (grid1.coords t) ((Reg1.dat V c).after 7 t) = _
  rw [Reg1.after_out]
  funext y
  obtain ⟨q, j, rfl⟩ : ∃ (q : Fin 512) (j : Fin 2048), y = ix2 q j := ⟨y 0, y 1, eq_ix2 (n0 := 512) (n1 := 2048) y⟩
  obtain ⟨s, u, rfl⟩ : ∃ (s : Fin 16) (u : Fin 128), j = Spec.col s u := ⟨_, _, (Spec.col_div_mod j).symm⟩
  rw [View.read_apply, emb7, arr_apply]
  refine ((outs_inv V c a0 a1 cf T hx1 hx0 hoh hsel0 hsel1 hselx0 hselout t.val t.isLt q).2 s u).trans ?_
  rw [(flush1_7 t).mp hf]
  exact pterm_sum a0 a1 cf T (node t q) s u

omit hx1 hx0 hoh hsel0 hsel1 hselx0 hselout in
theorem cover (i : S4096x2048.Idx) :
    ∃ t : Fin cfg1.N, (cfg1.win 7).flush t = true ∧ i ∈ ((cfg1.win 7).blk t).view.set := by
  have hi0 : (i 0).val < 4096 := idx2_lt0 i
  have hi1 : (i 1).val < 2048 := idx2_lt1 i
  have hN : 48 * ((i 0).val / 512) + 47 < cfg1.N := lt_of_lt_of_eq (by omega) N_1.symm
  refine ⟨⟨_, hN⟩, (flush1_7 _).mpr (by show (48 * ((i 0).val / 512) + 47) % 48 = 47; omega), ?_⟩
  generalize ht : (⟨_, hN⟩ : Fin cfg1.N) = t
  have hv : t.val = 48 * ((i 0).val / 512) + 47 := by rw [← ht]
  obtain ⟨-, -, -, -, -, -, -, -, -, -, -, -, -, -, e0, e1⟩ := idx_facts t
  show i ∈ ((View.whole main_v64).slice (win1_7.rect t)).set
  rw [View.set_slice_whole, Rect.mem_set_unit]
  intro a
  match a with
  | ⟨0, _⟩ =>
    show win1_7.index t (0 : Fin 2) * 512 ≤ (i 0).val ∧ (i 0).val < win1_7.index t (0 : Fin 2) * 512 + 512
    rw [e0, hv]; omega
  | ⟨1, _⟩ =>
    show win1_7.index t (1 : Fin 2) * 2048 ≤ (i 1).val ∧ (i 1).val < win1_7.index t (1 : Fin 2) * 2048 + 2048
    rw [e1]; omega

variable (a5 a6 a7 a8) in
theorem region_value (z : Fin 4096) (s : Fin 16) (u : Fin 128) :
    (Reg1.dat (F := Ideal) V c).arrAt 7 cfg1.N (ix2 z (Spec.col s u)) = Spec.out2 a0 a1 cf T z s u := by
  rw [(Reg1.dat (F := Ideal) V c).arrAt_eq_of_cover 7 (arr (Spec.out2 a0 a1 cf T))
    (flushed_eq V c a0 a1 cf T hx1 hx0 hoh hsel0 hsel1 hselx0 hselout) cover]
  exact arr_apply _ z s u

end Cert.KernelIdeal.Val1

end
-- ==== Proof.KI.Val2.Point.lean ====
import proofs.«426359_j52879637348696_1_alg».proof.Proof.Gen.KernelIdeal.Skeleton
import Idealize.ShloMosaic.Lib.ValueIdx
import Idealize.ShloMosaic.PureOps.Ideal.Laws
import Idealize.ShloMosaic.Lib.Pipeline.Value

noncomputable section

namespace Cert.KernelIdeal.Val2

open Cert.KernelIdeal Cert.KernelIdeal.Gen
open Idealize.ShloMosaic Idealize.ShloMosaic.ValueIdx
open Facts₀ Facts

variable [Facts]

/-- An `M × K` by `K × N` product into the zero block, at an entry: the sum over the contracted coordinate. -/
theorem mm_apply {M K N : ℕ} {φ₁ φ₂ : FTy} (A : FVec Ideal ⟨2, ![M, K]⟩ φ₁) (B : FVec Ideal ⟨2, ![K, N]⟩ φ₂) (a : Fin M) (b : Fin N) :
    matmul (DotDims.plain M K N) none A B (constant (F := Ideal) ⟨2, ![M, N]⟩ .f32 0x00000000#32) (ix2 a b)
      = ∑ c : Fin K, A (ix2 a c) * B (ix2 c b) := by
  show FloatOps.matmul _ none A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  congr 2 <;> exact Shape.idx_ext₂ (by first | rfl | exact c2) (by first | rfl | exact c2)

theorem pay2_apply (i : S512x2048.Idx) : k2_pay2 (F := Ideal) i = 0 :=
  Ideal.ofBits_zero_f32

theorem pay1_apply (contrib : FVec Ideal S512x2048 .f32) (acc : Vec Ideal S512x2048 .f32) (i : S512x2048.Idx) :
    k2_pay1 (F := Ideal) contrib acc i = acc i + contrib i := by
  unfold k2_pay1
  simp only [shapeCast_self]
  rfl

theorem pay3_apply (OH : Vec Ideal S512x64 .bf16) (X0 : Vec Ideal S64x2048 .bf16) (q : Fin 512) (j : Fin 2048) :
    k2_pay3 (F := Ideal) OH X0 (ix2 q j) = ∑ e : Fin 64, OH (ix2 q e) * X0 (ix2 e j) := by
  unfold k2_pay3
  simp only [shapeCast_self]
  rw [truncf_apply]
  exact mm_apply _ _ q j

/-- A point's contribution: the four selected factors multiplied entry by entry, then scattered by the output selection. -/
theorem pay4_apply (Z : Vec Ideal S512x2048 .bf16) (SX : Vec Ideal S2048x256 .bf16)
    (Xa : Vec Ideal S512x2048 .bf16) (S0 : Vec Ideal S2048x256 .bf16)
    (Xb : Vec Ideal S512x2048 .bf16) (S1 : Vec Ideal S2048x256 .bf16)
    (Xc : Vec Ideal S512x2048 .bf16) (S2 : Vec Ideal S2048x256 .bf16)
    (SO : Vec Ideal S256x2048 .bf16) (q : Fin 512) (c : Fin 2048) :
    k2_pay4 (F := Ideal) Z SX Xa S0 Xb S1 Xc S2 SO (ix2 q c)
      = ∑ k : Fin 256,
          ((∑ j : Fin 2048, Z (ix2 q j) * SX (ix2 j k)) * (∑ j : Fin 2048, Xa (ix2 q j) * S0 (ix2 j k))
            * (∑ j : Fin 2048, Xb (ix2 q j) * S1 (ix2 j k)) * (∑ j : Fin 2048, Xc (ix2 q j) * S2 (ix2 j k)))
          * SO (ix2 k c) := by
  unfold k2_pay4
  simp only [shapeCast_self]
  erw [mm_apply]
  refine Finset.sum_congr rfl fun k _ => ?_
  rw [truncf_apply, mulf_apply, mulf_apply, mulf_apply]
  erw [mm_apply, mm_apply, mm_apply, mm_apply]

end Cert.KernelIdeal.Val2

end
-- ==== Proof.KI.Val2.Sums.lean ====
import proofs.«426359_j52879637348696_1_alg».proof.Proof.Spec
import Mathlib.Algebra.BigOperators.Fin
import Mathlib.Data.EReal.Basic
import Mathlib.Logic.Equiv.Fin.Basic

noncomputable section

namespace Cert.KernelIdeal.Val2

open Cert.Proof Cert.Proof.Spec
open Idealize.ShloMosaic Idealize.ShloMosaic.ValueIdx

/-- Below 2^32 a number is determined by its 32-bit word. -/
theorem word_inj {n : ℕ} (hn : n ≤ 4294967296) {w : BitVec 32} {r e : Fin n} (hw : w = BitVec.ofNat 32 r.val)
    (he : w = BitVec.ofNat 32 e.val) : e = r := by
  have h := congrArg BitVec.toNat (he.symm.trans hw)
  simp only [BitVec.toNat_ofNat] at h
  exact Fin.ext (by omega)

/-- The 256 local columns of a column tile are the pairs (path of the tile, position). -/
def kcolEquiv : Fin 2 × Fin 128 ≃ Fin 256 := finProdFinEquiv

/-- Local column `128 · h + u'`: position `u'` of the tile's `h`-th path. -/
def kcol (h : Fin 2) (u' : Fin 128) : Fin 256 := kcolEquiv (h, u')

/-- The 128 paths are the pairs (column tile, path of the tile). -/
def pthEquiv : Fin 64 × Fin 2 ≃ Fin 128 := finProdFinEquiv

/-- Path `2 · n + h`: the `h`-th path of column tile `n`. -/
def pth (n : Fin 64) (h : Fin 2) : Fin 128 := pthEquiv (n, h)

/-- A row of the one-hot matrix of `w` times a column: the column's entry at the row `w` names. -/
theorem sum_onehot_row {w : BitVec 32} {r : Fin 64} (hw : w = BitVec.ofNat 32 r.val) (oh x : Fin 64 → EReal)
    (hoh : ∀ e : Fin 64, oh e = if w = BitVec.ofNat 32 e.val then 1 else 0) : ∑ e, oh e * x e = x r := by
  rw [Fintype.sum_eq_single r, hoh, if_pos hw, one_mul]
  intro e he
  rw [hoh, if_neg fun h => he (word_inj (by omega) hw h), zero_mul]

/-- A row of 16 × 128 entries times a column that is `c` at position `u0` of the segment `w` names and zero elsewhere. -/
theorem sum_sel_col {w : BitVec 32} {s0 : Fin 16} (hw : w = BitVec.ofNat 32 s0.val) (u0 : Fin 128) (c : EReal)
    (x g : Fin 2048 → EReal)
    (hg : ∀ (s : Fin 16) (u : Fin 128), g (col s u) = if w = BitVec.ofNat 32 s.val ∧ u = u0 then c else 0) :
    ∑ j, x j * g j = x (col s0 u0) * c := by
  rw [Fintype.sum_eq_single (col s0 u0), hg, if_pos ⟨hw, rfl⟩]
  intro j hj
  obtain ⟨s, u, rfl⟩ : ∃ (s : Fin 16) (u : Fin 128), j = col s u := ⟨_, _, (col_div_mod j).symm⟩
  rw [hg, if_neg, mul_zero]
  rintro ⟨h1, rfl⟩
  exact hj (by rw [word_inj (by omega) hw h1])

/-- The local columns of a tile against a column that is 1 at position `u` of the paths with `A` and zero elsewhere. -/
theorem sum_selout (A : Fin 2 → Prop) [DecidablePred A] (u : Fin 128) (W g : Fin 256 → EReal)
    (hg : ∀ (h : Fin 2) (u' : Fin 128), g (kcol h u') = if A h ∧ u' = u then 1 else 0) :
    ∑ k, W k * g k = ∑ h : Fin 2, if A h then W (kcol h u) else 0 := by
  rw [← Equiv.sum_comp kcolEquiv, Fintype.sum_prod_type]
  refine Finset.sum_congr rfl fun h _ => (Fintype.sum_eq_single u fun u' hu' => ?_).trans ?_
  · show W (kcol h u') * g (kcol h u') = 0
    rw [hg, if_neg fun hh => hu' hh.2, mul_zero]
  · show W (kcol h u) * g (kcol h u) = _
    simp only [hg, and_true, mul_ite, mul_one, mul_zero]

/-- What column tile `n` adds: the two paths of the tile (nothing past the 64 tiles). -/
def tileTerm (F : Fin 128 → EReal) (n : ℕ) : EReal := if hn : n < 64 then ∑ h, F (pth ⟨n, hn⟩ h) else 0

/-- The 64 column tiles hold all 128 paths. -/
theorem sum_tiles (F : Fin 128 → EReal) : ∑ n ∈ Finset.range 64, tileTerm F n = ∑ p, F p := by
  rw [← Fin.sum_univ_eq_sum_range, ← Equiv.sum_comp pthEquiv, Fintype.sum_prod_type]
  exact Finset.sum_congr rfl fun n _ => dif_pos n.isLt

end Cert.KernelIdeal.Val2

end
-- ==== Proof.KI.Val2.Index.lean ====
import proofs.«426359_j52879637348696_1_alg».proof.Proof.KI.Reg2
import proofs.«426359_j52879637348696_1_alg».proof.Proof.KI.Val2.Sums
import Idealize.ShloMosaic.Lib.Pipeline.Value

noncomputable section

namespace Cert.KernelIdeal.Val2

open Cert.KernelIdeal Cert.KernelIdeal.Gen Cert.Proof Cert.Proof.Spec
open Idealize.ShloMosaic Idealize.ShloMosaic.ValueIdx Idealize.ShloMosaic.TcCoe

theorem N_eq : cfg2.N = 512 := by decide

/-- The index maps over the 512 points: point `t` is row tile `t / 64`, column tile `t % 64`. -/
theorem idx_facts : ∀ t : Fin cfg2.N,
    (win2_0.index t (0 : Fin 2) = t.val / 64 ∧ win2_0.index t (1 : Fin 2) = 0)
    ∧ (win2_1.index t (0 : Fin 2) = t.val / 64 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = t.val % 64)
    ∧ (win2_4.index t (0 : Fin 2) = 0 ∧ win2_4.index t (1 : Fin 2) = t.val % 64)
    ∧ (win2_5.index t (0 : Fin 2) = 0 ∧ win2_5.index t (1 : Fin 2) = t.val % 64)
    ∧ (win2_6.index t (0 : Fin 2) = 0 ∧ win2_6.index t (1 : Fin 2) = t.val % 64)
    ∧ (win2_7.index t (0 : Fin 2) = t.val % 64 ∧ win2_7.index t (1 : Fin 2) = 0)
    ∧ win2_8.index t (0 : Fin 2) = t.val / 64 ∧ win2_8.index t (1 : Fin 2) = 0 :=
  (by decide +kernel : ∀ t : Fin grid2.N, _)

/-- Row `q` of row tile `z'`: node `512 · z' + q`. -/
def rowOf (z' : Fin 8) (q : Fin 512) : Fin 4096 := ⟨512 * z'.val + q.val, by omega⟩

/-- Block `n` of 256 columns at local column `kcol h u'`: position `u'` of path `2 · n + h`. -/
theorem kcol_off {i : ℕ} {n : Fin 64} (hi : i = n.val) (h : Fin 2) (u' : Fin 128) :
    i * 256 + 1 * (kcol h u').val = (pcol3 (pth n h) u').val := by
  show i * 256 + 1 * (u'.val + 128 * h.val) = 128 * (h.val + 2 * n.val) + u'.val
  omega

/-- Block `z'` of 512 rows at local row `q`. -/
theorem row_off {i : ℕ} {z' : Fin 8} (hi : i = z'.val) (q : Fin 512) : i * 512 + 1 * q.val = (rowOf z' q).val := by
  show i * 512 + 1 * q.val = 512 * z'.val + q.val
  omega

variable (V : (c : Dev nD) → (b : Ref sig .tc) → Buf (Elt Ideal) ((c : Thread nD τ).loc b)) (c : Dev nD)

/-- The eight input blocks at the point of row tile `z'`, column tile `n`, entry by entry: block index times block size plus the inner coordinate. -/
theorem blocks (t : Fin cfg2.N) (z' : Fin 8) (n : Fin 64) (ht : t.val = 64 * z'.val + n.val) :
    (∀ q j, (Reg2.iblk V c 0 t : Vec Ideal S512x2048 .bf16) (ix2 q j) = V c main_v0 (ix2 (rowOf z' q) j))
    ∧ (∀ q e, (Reg2.iblk V c 1 t : Vec Ideal S512x64 .bf16) (ix2 q e) = V c main_v2 (ix2 (rowOf z' q) e))
    ∧ (∀ e j, (Reg2.iblk V c 2 t : Vec Ideal S64x2048 .bf16) (ix2 e j) = V c main_v1 (ix2 e j))
    ∧ (∀ j h u', (Reg2.iblk V c 3 t : Vec Ideal S2048x256 .bf16) (ix2 j (kcol h u')) = V c main_v77 (ix2 j (pcol3 (pth n h) u')))
    ∧ (∀ j h u', (Reg2.iblk V c 4 t : Vec Ideal S2048x256 .bf16) (ix2 j (kcol h u')) = V c main_v83 (ix2 j (pcol3 (pth n h) u')))
    ∧ (∀ j h u', (Reg2.iblk V c 5 t : Vec Ideal S2048x256 .bf16) (ix2 j (kcol h u')) = V c main_v89 (ix2 j (pcol3 (pth n h) u')))
    ∧ (∀ j h u', (Reg2.iblk V c 6 t : Vec Ideal S2048x256 .bf16) (ix2 j (kcol h u')) = V c main_v98 (ix2 j (pcol3 (pth n h) u')))
    ∧ ∀ h u' j, (Reg2.iblk V c 7 t : Vec Ideal S256x2048 .bf16) (ix2 (kcol h u') j) = V c main_v103 (ix2 (pcol3 (pth n h) u') j) := by
  obtain ⟨⟨a0, a1⟩, ⟨b0, b1⟩, ⟨c0, c1⟩, ⟨d0, d1⟩, ⟨e0, e1⟩, ⟨f0, f1⟩, ⟨g0, g1⟩, ⟨h0, h1⟩, -⟩ := idx_facts t
  have hd : t.val / 64 = z'.val := by omega
  have hm : t.val % 64 = n.val := by omega
  exact ⟨fun q j => congrArg (V c main_v0) (Shape.idx_ext₂ (row_off (a0.trans hd) q) (win2_0.rect_emb_val_of_index_zero t 1 a1 _)),
    fun q e => congrArg (V c main_v2) (Shape.idx_ext₂ (row_off (b0.trans hd) q) (win2_1.rect_emb_val_of_index_zero t 1 b1 _)),
    fun e j => congrArg (V c main_v1) (Shape.idx_ext₂ (win2_2.rect_emb_val_of_index_zero t 0 c0 _) (win2_2.rect_emb_val_of_index_zero t 1 c1 _)),
    fun j h u' => congrArg (V c main_v77) (Shape.idx_ext₂ (win2_3.rect_emb_val_of_index_zero t 0 d0 _) (kcol_off (d1.trans hm) h u')),
    fun j h u' => congrArg (V c main_v83) (Shape.idx_ext₂ (win2_4.rect_emb_val_of_index_zero t 0 e0 _) (kcol_off (e1.trans hm) h u')),
    fun j h u' => congrArg (V c main_v89) (Shape.idx_ext₂ (win2_5.rect_emb_val_of_index_zero t 0 f0 _) (kcol_off (f1.trans hm) h u')),
    fun j h u' => congrArg (V c main_v98) (Shape.idx_ext₂ (win2_6.rect_emb_val_of_index_zero t 0 g0 _) (kcol_off (g1.trans hm) h u')),
    fun h u' j => congrArg (V c main_v103) (Shape.idx_ext₂ (kcol_off (h0.trans hm) h u') (win2_7.rect_emb_val_of_index_zero t 1 h1 _))⟩

end Cert.KernelIdeal.Val2

end
-- ==== Proof.KI.Val2.lean ====
import proofs.«426359_j52879637348696_1_alg».proof.Proof.KI.Val2.Point
import proofs.«426359_j52879637348696_1_alg».proof.Proof.KI.Val2.Index
import proofs.«426359_j52879637348696_1_alg».proof.Proof.Gen.KernelIdeal.Points

noncomputable section

namespace Cert.KernelIdeal.Val2

open Cert.KernelIdeal Cert.KernelIdeal.Gen Cert.Proof Cert.Proof.Spec
open Idealize.ShloMosaic Idealize.ShloMosaic.ValueIdx Idealize.ShloMosaic.TcCoe
open Facts₀ Facts

variable [Facts]

/-- What path `p` adds to output segment `s`, position `u`, of node `z`: its term if it names `s`, else nothing. -/
def pathTerm (a0 : Spec.X0) (a1 : Spec.X1) (cf : Spec.C3) {a5 : Spec.I0} {a6 : Spec.Idx1} {a7 : Spec.Idx2} {a8 : Spec.Idx3}
    (T : Spec.Tables a5 a6 a7 a8) (z : Fin 4096) (s : Fin 16) (u : Fin 128) (p : Fin 128) : EReal :=
  if a8 (ix2 p 4) = BitVec.ofNat 32 s.val then
    Spec.term3 a0 a1 (cf (ix1 p)) (T.r z) (T.t3 p 3) (T.t3 p 0) (T.t3 p 1) (T.t3 p 2) z u
  else 0

section Region

variable (V : (c : Dev nD) → (b : Ref sig .tc) → Buf (Elt Ideal) ((c : Thread nD τ).loc b)) (c : Dev nD)
  {a0 : Spec.X0} {a1 : Spec.X1} {cf : Spec.C3} {a5 : Spec.I0} {a6 : Spec.Idx1} {a7 : Spec.Idx2} {a8 : Spec.Idx3}
  (T : Spec.Tables a5 a6 a7 a8)
  (hx1 : (V c main_v0 : S4096x2048.Idx → EReal) = a1) (hx0 : (V c main_v1 : S64x2048.Idx → EReal) = a0)
  (hoh : ∀ (z : Fin 4096) (e : Fin 64), V c main_v2 (ix2 z e) = if a5 (ix1 z) = BitVec.ofNat 32 e.val then (1 : EReal) else 0)
  (hsel0 : ∀ (s : Fin 16) (u p u' : Fin 128), V c main_v77 (ix2 (col s u) (pcol3 p u')) = if a8 (ix2 p 0) = BitVec.ofNat 32 s.val ∧ u = u' then (1 : EReal) else 0)
  (hsel1 : ∀ (s : Fin 16) (u p u' : Fin 128), V c main_v83 (ix2 (col s u) (pcol3 p u')) = if a8 (ix2 p 1) = BitVec.ofNat 32 s.val ∧ u = u' then (1 : EReal) else 0)
  (hsel2 : ∀ (s : Fin 16) (u p u' : Fin 128), V c main_v89 (ix2 (col s u) (pcol3 p u')) = if a8 (ix2 p 2) = BitVec.ofNat 32 s.val ∧ u = u' then (1 : EReal) else 0)
  (hselx0 : ∀ (s : Fin 16) (u p u' : Fin 128), V c main_v98 (ix2 (col s u) (pcol3 p u')) = if a8 (ix2 p 3) = BitVec.ofNat 32 s.val ∧ u = u' then cf (ix1 p) else 0)
  (hselout : ∀ (p u' : Fin 128) (s : Fin 16) (u : Fin 128), V c main_v103 (ix2 (pcol3 p u') (col s u)) = if a8 (ix2 p 4) = BitVec.ofNat 32 s.val ∧ u' = u then (1 : EReal) else 0)

include hx0 hoh in
/-- The gathered rows at a point of row tile `z'`: row `q` is the row of `x0` that node `512 · z' + q` names. -/
theorem gathered (t : Fin cfg2.N) (z' : Fin 8) (n : Fin 64) (ht : t.val = 64 * z'.val + n.val) (q : Fin 512) (j : Fin 2048) :
    k2_pay3 (F := Ideal) (Reg2.iblk V c 1 t) (Reg2.iblk V c 2 t) (ix2 q j) = a0 (ix2 (T.r (rowOf z' q)) j) := by
  obtain ⟨-, b1, b2, -⟩ := blocks V c t z' n ht
  rw [pay3_apply]
  refine (sum_onehot_row (T.hr (rowOf z' q)) _ _ fun e => (b1 q e).trans (hoh _ _)).trans ?_
  exact (b2 _ j).trans (congrFun hx0 _)

include hx1 hsel0 hsel1 hsel2 hselx0 hselout in
/-- The contribution of the point of row tile `z'`, column tile `n`, over the gathered rows `Z`: the terms of the tile's two paths. -/
theorem point_contrib (t : Fin cfg2.N) (z' : Fin 8) (n : ℕ) (hn : n < 64) (ht : t.val = 64 * z'.val + n)
    (Z : Vec Ideal S512x2048 .bf16) (q : Fin 512) (hZ : ∀ j : Fin 2048, Z (ix2 q j) = a0 (ix2 (T.r (rowOf z' q)) j))
    (s : Fin 16) (u : Fin 128) :
    k2_pay4 (F := Ideal) Z (Reg2.iblk V c 6 t) (Reg2.iblk V c 0 t) (Reg2.iblk V c 3 t) (Reg2.iblk V c 0 t)
        (Reg2.iblk V c 4 t) (Reg2.iblk V c 0 t) (Reg2.iblk V c 5 t) (Reg2.iblk V c 7 t) (ix2 q (col s u))
      = tileTerm (pathTerm a0 a1 cf T (rowOf z' q) s u) n := by
  obtain ⟨b0, -, -, b3, b4, b5, b6, b7⟩ := blocks V c t z' ⟨n, hn⟩ ht
  rw [pay4_apply, sum_selout (fun h => a8 (ix2 (pth ⟨n, hn⟩ h) 4) = BitVec.ofNat 32 s.val) u _ (fun k => Reg2.iblk V c 7 t (ix2 k (col s u)))
    fun h u' => (b7 h u' _).trans (hselout _ _ _ _), tileTerm, dif_pos hn]
  refine Finset.sum_congr rfl fun h _ => ?_
  rw [sum_sel_col (T.ht3 (pth ⟨n, hn⟩ h) 3) u (cf (ix1 (pth ⟨n, hn⟩ h))) (fun j => Z (ix2 q j)) (fun j => Reg2.iblk V c 6 t (ix2 j (kcol h u)))
      fun sg u1 => (b6 _ h u).trans (hselx0 sg u1 _ u),
    sum_sel_col (T.ht3 (pth ⟨n, hn⟩ h) 0) u 1 (fun j => Reg2.iblk V c 0 t (ix2 q j)) (fun j => Reg2.iblk V c 3 t (ix2 j (kcol h u)))
      fun sg u1 => (b3 _ h u).trans (hsel0 sg u1 _ u),
    sum_sel_col (T.ht3 (pth ⟨n, hn⟩ h) 1) u 1 (fun j => Reg2.iblk V c 0 t (ix2 q j)) (fun j => Reg2.iblk V c 4 t (ix2 j (kcol h u)))
      fun sg u1 => (b4 _ h u).trans (hsel1 sg u1 _ u),
    sum_sel_col (T.ht3 (pth ⟨n, hn⟩ h) 2) u 1 (fun j => Reg2.iblk V c 0 t (ix2 q j)) (fun j => Reg2.iblk V c 5 t (ix2 j (kcol h u)))
      fun sg u1 => (b5 _ h u).trans (hsel2 sg u1 _ u),
    mul_one, mul_one, mul_one, hZ, b0, b0, b0, hx1]
  rfl

include hx1 hx0 hoh hsel0 hsel1 hsel2 hselx0 hselout in
/-- By induction on the column tile: the second component is the gathered rows, the first the terms of the tiles `0 … n`. -/
theorem tile_inv (z' : Fin 8) : ∀ (n : ℕ) (hn : n < 64) (t : Fin cfg2.N) (ht : t.val = 64 * z'.val + n),
    (∀ (q : Fin 512) (j : Fin 2048), (Reg2.outsAt V c t.val t.isLt).2 (ix2 q j) = a0 (ix2 (T.r (rowOf z' q)) j))
    ∧ ∀ (q : Fin 512) (s : Fin 16) (u : Fin 128), (Reg2.outsAt V c t.val t.isLt).1 (ix2 q (col s u))
        = ∑ n' ∈ Finset.range (n + 1), tileTerm (pathTerm a0 a1 cf T (rowOf z' q) s u) n'
  | 0, hn, t, ht => by
    have hZ := gathered V c T hx0 hoh t z' ⟨0, hn⟩ ht
    rw [Reg2.outsAt_first V c t (by omega)]
    refine ⟨hZ, fun q s u => ?_⟩
    show k2_pay1 (F := Ideal) _ _ (ix2 q (col s u)) = _
    rw [pay1_apply, pay2_apply, zero_add,
      point_contrib V c T hx1 hsel0 hsel1 hsel2 hselx0 hselout t z' 0 hn ht _ q (hZ q) s u]
    exact (Finset.sum_range_one _).symm
  | n + 1, hn, t, ht => by
    have hlt : t.val - 1 < cfg2.N := by have := t.isLt; omega
    have ih := tile_inv z' n (by omega) ⟨t.val - 1, hlt⟩ (by show t.val - 1 = 64 * z'.val + n; omega)
    rw [Reg2.outsAt_next V c t (by omega)]
    refine ⟨ih.1, fun q s u => ?_⟩
    show k2_pay1 (F := Ideal) _ _ (ix2 q (col s u)) = _
    rw [pay1_apply, ih.2 q s u,
      point_contrib V c T hx1 hsel0 hsel1 hsel2 hselx0 hselout t z' (n + 1) hn ht _ q (ih.1 q) s u]
    exact (Finset.sum_range_succ _ (n + 1)).symm

include hx1 hx0 hoh hsel0 hsel1 hsel2 hselx0 hselout in
/-- The output array is the specification's degree-3 part: rows `512 · z' + q` are the block of point `64 · z' + 63`, and such blocks are disjoint. -/
theorem region_value (z : Fin 4096) (s : Fin 16) (u : Fin 128) :
    (Reg2.dat (F := Ideal) V c).arrAt 8 cfg2.N (ix2 z (col s u)) = Spec.out3 a0 a1 cf T z s u := by
  have hN := N_eq
  have i8 := fun t => (idx_facts t).2.2.2.2.2.2.2.2
  obtain ⟨z', q, rfl⟩ : ∃ (z' : Fin 8) (q : Fin 512), z = rowOf z' q :=
    ⟨⟨z.val / 512, by omega⟩, ⟨z.val % 512, by omega⟩, Fin.ext (by show z.val = 512 * (z.val / 512) + z.val % 512; omega)⟩
  have hdisj : ∀ t t' : Fin cfg2.N, (cfg2.win 8).flush t = true → (cfg2.win 8).flush t' = true → t ≠ t' →
      Disjoint ((cfg2.win 8).blk t).view.set ((cfg2.win 8).blk t').view.set := fun t t' hf hf' hne =>
    (cfg2.win 8).disjoint_blk fun h => hne (Fin.ext (by
      have h0 : win2_8.index t (0 : Fin 2) = win2_8.index t' (0 : Fin 2) := congrFun h (0 : Fin 2)
      rw [(i8 t).1, (i8 t').1] at h0
      have := (flush2_8 t).mp hf
      have := (flush2_8 t').mp hf'
      omega))
  let t : Fin cfg2.N := ⟨64 * z'.val + 63, by omega⟩
  have hemb : ((cfg2.win 8).blk t).view.emb (ix2 q (col s u)) = ix2 (rowOf z' q) (col s u) :=
    Shape.idx_ext₂ (row_off ((i8 t).1.trans (by show (64 * z'.val + 63) / 64 = z'.val; omega)) q)
      (win2_8.rect_emb_val_of_index_zero t 1 (i8 t).2 _)
  refine (congrArg ((Reg2.dat V c).arrAt 8 cfg2.N) hemb.symm).trans (((Reg2.dat V c).arrAt_emb_eq_flushed 8 hdisj t
    ((flush2_8 t).mpr (by show (64 * z'.val + 63) % 64 = 63; omega)) _).trans ?_)
  show (cfg2.win 8).cut (grid2.coords t) ((Reg2.dat V c).after 8 t) (ix2 q (col s u)) = _
  rw [Reg2.after_out]
  show (Reg2.outsAt V c t.val t.isLt).1 (ix2 q (col s u)) = _
  rw [(tile_inv V c T hx1 hx0 hoh hsel0 hsel1 hsel2 hselx0 hselout z' 63 (by omega) t rfl).2 q s u]
  exact sum_tiles _

end Region

end Cert.KernelIdeal.Val2

end
-- ==== Proof.KI.Host0.lean ====
import proofs.«426359_j52879637348696_1_alg».proof.Proof.RegionsKI
import proofs.«426359_j52879637348696_1_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate

noncomputable section

namespace Cert.KernelIdeal.Host

open Idealize.ShloMosaic Idealize.ShloMosaic.ValueIdx

variable {n k : ℕ}

/-- The bit of an equality test, read as a number, is its indicator. -/
theorem bit_eq (φ : FTy) (a b : BitVec 32) :
    (FloatOps.uitofp (F := Ideal) φ (IntOp.cmpi .eq a b) : EReal) = if a = b then (1 : EReal) else 0 := by
  by_cases h : a = b
  · rw [if_pos h, StableHlo.Predicate.cmpi_eq_iff.2 h]
    show (((1#1 : BitVec 1).toNat : ℝ) : EReal) = 1
    simp
  · rw [if_neg h, eq_zero_of_ne_one (fun e => h (StableHlo.Predicate.cmpi_eq_iff.1 e))]
    show (((0#1 : BitVec 1).toNat : ℝ) : EReal) = 0
    simp

/-- A coordinate below `n` is zero when `n = 1`. -/
theorem val_eq_ite (p : Fin n) : p.val = if n = 1 then 0 else p.val := by
  have := p.isLt
  split <;> omega

/-- A vector laid along the rows of an `n × k` table reads, at `(p, s)`, its entry `p`. -/
theorem rows {α : Type} (v : (⟨1, ![n]⟩ : Shape).Idx → α) (p : Fin n) (s : Fin k)
    (h₁ : (⟨1, ![n]⟩ : Shape).BroadcastsInDim ⟨2, ![n, 1]⟩ ![0] := by decide)
    (h₂ : (⟨2, ![n, 1]⟩ : Shape).BroadcastsInDim ⟨2, ![n, k]⟩ ![0, 1] := by decide) :
    broadcastInDim ⟨2, ![n, k]⟩ ![0, 1] h₂ (broadcastInDim ⟨2, ![n, 1]⟩ ![0] h₁ v) (ix2 p s) = v (ix1 p) := by
  rw [broadcastInDim_apply _ h₂ _ (ix2 p s) (ix2 p 0) (fun a => match a with | ⟨0, _⟩ => val_eq_ite p | ⟨1, _⟩ => rfl)]
  exact broadcastInDim_apply _ h₁ v (ix2 p 0) (ix1 p) (fun a => match a with | ⟨0, _⟩ => val_eq_ite p)

/-- The one-hot table of `n` words over `k` classes: entry `(p, s)` is 1 when word `p` is the number `s`. -/
theorem onehot (φ : FTy) (x : IVec ⟨1, ![n]⟩ 32) (p : Fin n) (s : Fin k)
    (h₁ : (⟨1, ![n]⟩ : Shape).BroadcastsInDim ⟨2, ![n, 1]⟩ ![0] := by decide)
    (h₂ : (⟨2, ![n, 1]⟩ : Shape).BroadcastsInDim ⟨2, ![n, k]⟩ ![0, 1] := by decide)
    (h₃ : (⟨2, ![1, k]⟩ : Shape).BroadcastsInDim ⟨2, ![n, k]⟩ ![0, 1] := by decide) :
    (uitofp φ (cmpi .eq (broadcastInDim ⟨2, ![n, k]⟩ ![0, 1] h₂ (broadcastInDim ⟨2, ![n, 1]⟩ ![0] h₁ x))
        (broadcastInDim ⟨2, ![n, k]⟩ ![0, 1] h₃ (iotaInDim ⟨2, ![1, k]⟩ 32 1))) : FVec Ideal ⟨2, ![n, k]⟩ φ) (ix2 p s)
      = if x (ix1 p) = BitVec.ofNat 32 s.val then (1 : EReal) else 0 :=
  (congrArg₂ (fun a b => (FloatOps.uitofp (F := Ideal) φ (IntOp.cmpi .eq a b) : EReal)) (rows x p s h₁ h₂)
    (broadcastInDim_apply _ h₃ _ (ix2 p s) (ix2 0 s) (fun a => match a with | ⟨0, _⟩ => rfl | ⟨1, _⟩ => val_eq_ite s))).trans (bit_eq φ _ _)

/-- The 128 × 128 identity: row number against column number. -/
theorem eye (u u' : Fin 128) (h : (⟨0, ![]⟩ : Shape).BroadcastsInDim ⟨2, ![128, 128]⟩ ![] := by decide) :
    (uitofp .f32 (cmpi .eq (addi (iotaInDim ⟨2, ![128, 128]⟩ 32 0) (broadcastInDim ⟨2, ![128, 128]⟩ ![] h (constantI ⟨0, ![]⟩ 32 0#32)))
        (iotaInDim ⟨2, ![128, 128]⟩ 32 1)) : FVec Ideal ⟨2, ![128, 128]⟩ .f32) (ix2 u u') = if u = u' then (1 : EReal) else 0 := by
  refine (bit_eq .f32 _ _).trans (if_congr ?_ rfl rfl)
  show BitVec.ofNat 32 u.val + 0#32 = BitVec.ofNat 32 u'.val ↔ u = u'
  rw [BitVec.add_zero, Fin.ext_iff, ← BitVec.toNat_inj, BitVec.toNat_ofNat, BitVec.toNat_ofNat]
  omega

/-- Column `o` of an `n × w` table, as a vector. -/
theorem column {w : ℕ} (X : IVec ⟨2, ![n, w]⟩ 32) (o : ℕ) (ho : o < w) (p : Fin n)
    (h : (⟨2, ![n, w]⟩ : Shape).Slices ![0, o] ⟨2, ![n, 1]⟩ := by decide)
    (h' : (⟨2, ![n, 1]⟩ : Shape).ShapeCasts ⟨1, ![n]⟩ := by decide) :
    shapeCast ⟨1, ![n]⟩ (extractStridedSlice ⟨2, ![n, 1]⟩ ![0, o] X h) h' (ix1 p) = X (ix2 p ⟨o, ho⟩) := by
  rw [shapeCast_apply _ h' (ix1 p) (ix2 p 0) (by
    rw [Shape.rowMajor_val_two, Shape.rowMajor_val_one]
    show p.val * 1 + 0 = p.val
    omega)]
  exact extractStridedSlice_apply _ X h (ix2 p 0) (ix2 p ⟨o, ho⟩) (fun a => match a with
    | ⟨0, _⟩ => (Nat.zero_add _).symm
    | ⟨1, _⟩ => rfl)

/-- The Kronecker product with a 128 × 128 matrix: row `128 i + u`, column `128 j + u'` holds `A i j * B u u'`. -/
theorem kron {a b R C : ℕ} (A : FVec Ideal ⟨2, ![a, b]⟩ .f32) (B : FVec Ideal ⟨2, ![128, 128]⟩ .f32)
    (i : Fin a) (u : Fin 128) (j : Fin b) (u' : Fin 128) (r : Fin R) (c : Fin C)
    (hr : r.val = 128 * i.val + u.val := by rfl) (hc : c.val = 128 * j.val + u'.val := by rfl) (hC : C = 128 * b := by rfl)
    (h₀ : (⟨2, ![a, b]⟩ : Shape).BroadcastsInDim ⟨4, ![a, 1, b, 1]⟩ ![0, 2] := by decide)
    (h₁ : (⟨2, ![128, 128]⟩ : Shape).BroadcastsInDim ⟨4, ![1, 128, 1, 128]⟩ ![1, 3] := by decide)
    (h₂ : (⟨4, ![a, 1, b, 1]⟩ : Shape).BroadcastsInDim ⟨4, ![a, 128, b, 128]⟩ ![0, 1, 2, 3] := by decide)
    (h₃ : (⟨4, ![1, 128, 1, 128]⟩ : Shape).BroadcastsInDim ⟨4, ![a, 128, b, 128]⟩ ![0, 1, 2, 3] := by decide)
    (h₅ : (⟨4, ![a, 128, b, 128]⟩ : Shape).ShapeCasts ⟨2, ![R, C]⟩ := by decide) :
    shapeCast ⟨2, ![R, C]⟩ (mulf (broadcastInDim ⟨4, ![a, 128, b, 128]⟩ ![0, 1, 2, 3] h₂ (broadcastInDim ⟨4, ![a, 1, b, 1]⟩ ![0, 2] h₀ A))
        (broadcastInDim ⟨4, ![a, 128, b, 128]⟩ ![0, 1, 2, 3] h₃ (broadcastInDim ⟨4, ![1, 128, 1, 128]⟩ ![1, 3] h₁ B))) h₅ (ix2 r c)
      = A (ix2 i j) * B (ix2 u u') := by
  rw [shapeCast_apply _ h₅ (ix2 r c) (ix4 i u j u') (by
    rw [Shape.rowMajor_val_four, Shape.rowMajor_val_two]
    show ((i.val * 128 + u.val) * b + j.val) * 128 + u'.val = r.val * C + c.val
    rw [hr, hc, hC]
    ring), mulf_apply,
    broadcastInDim_apply _ h₂ _ (ix4 i u j u') (ix4 i 0 j 0) (fun x => match x with | ⟨0, _⟩ => val_eq_ite i | ⟨1, _⟩ => rfl | ⟨2, _⟩ => val_eq_ite j | ⟨3, _⟩ => rfl),
    broadcastInDim_apply _ h₀ A (ix4 i 0 j 0) (ix2 i j) (fun x => match x with | ⟨0, _⟩ => val_eq_ite i | ⟨1, _⟩ => val_eq_ite j),
    broadcastInDim_apply _ h₃ _ (ix4 i u j u') (ix4 0 u 0 u') (fun x => match x with | ⟨0, _⟩ => rfl | ⟨1, _⟩ => rfl | ⟨2, _⟩ => rfl | ⟨3, _⟩ => rfl),
    broadcastInDim_apply _ h₁ B (ix4 0 u 0 u') (ix2 u u') (fun x => match x with | ⟨0, _⟩ => rfl | ⟨1, _⟩ => rfl)]

/-- A product of indicators is the indicator of the conjunction. -/
theorem ind_mul_ind (P Q : Prop) [Decidable P] [Decidable Q] :
    (if P then (1 : EReal) else 0) * (if Q then (1 : EReal) else 0) = if P ∧ Q then (1 : EReal) else 0 := by
  by_cases hP : P <;> by_cases hQ : Q <;> simp [hP, hQ]

theorem ind_mul_mul_ind (P Q : Prop) [Decidable P] [Decidable Q] (x : EReal) :
    (if P then (1 : EReal) else 0) * x * (if Q then (1 : EReal) else 0) = if P ∧ Q then x else 0 := by
  by_cases hP : P <;> by_cases hQ : Q <;> simp [hP, hQ]

end Cert.KernelIdeal.Host

namespace Cert.KernelIdeal.Host0

open Cert.KernelIdeal Cert.KernelIdeal.Gen Cert.KernelIdeal.GenP Cert.KernelIdeal.Host
open Idealize.ShloMosaic Idealize.ShloMosaic.TcCoe Idealize.ShloMosaic.ValueIdx
open Cert.Proof

variable (m : (ℓ : Loc nD τ sig) → Buf (Elt Ideal) ℓ) (c : Dev nD)

theorem v0_1 : (V1 m c main_v0 : S4096x2048.Idx → EReal) = m ((c.tc : Thread nD τ).loc main_arg1) := by
  unfold V1
  after_results <;> rfl

theorem v1_1 : (V1 m c main_v1 : S64x2048.Idx → EReal) = m ((c.tc : Thread nD τ).loc main_arg0) := by
  unfold V1
  after_results <;> rfl

theorem v2_2 (p : Fin 4096) (s : Fin 64) :
    V2 m c main_v2 (ix2 p s) = if V1 m c main_arg5 (ix1 p) = BitVec.ofNat 32 s.val then (1 : EReal) else 0 := by
  unfold V2
  generalize V1 m c = X
  after_results
  exact onehot .bf16 _ p s

theorem x1b : (GenP.V14 m c main_v0 : S4096x2048.Idx → EReal) = m ((c.tc : Thread nD τ).loc main_arg1) := by
  rw [V14_of, V13_of, V12_of, V11_of, V10_of, V9_of, V8_of, V7_of, V6_of, V5_of, V4_of, V3_of, V2_of, v0_1] <;> decide

theorem x0b : (GenP.V14 m c main_v1 : S64x2048.Idx → EReal) = m ((c.tc : Thread nD τ).loc main_arg0) := by
  rw [V14_of, V13_of, V12_of, V11_of, V10_of, V9_of, V8_of, V7_of, V6_of, V5_of, V4_of, V3_of, V2_of, v1_1] <;> decide

theorem ohi0 (z : Fin 4096) (e : Fin 64) :
    (GenP.V14 m c main_v2 : S4096x64.Idx → EReal) (ix2 z e) = if m ((c.tc : Thread nD τ).loc main_arg5) (ix1 z) = BitVec.ofNat 32 e.val then (1 : EReal) else 0 := by
  rw [V14_of, V13_of, V12_of, V11_of, V10_of, V9_of, V8_of, V7_of, V6_of, V5_of, V4_of, V3_of, v2_2, V1_of]
    <;> first | rfl | decide

section
variable (s : Fin 16) (u : Fin 128) (p : Fin 32) (u' : Fin 128)

theorem v9_3 : V3 m c main_v9 (ix2 u u') = if u = u' then (1 : EReal) else 0 := by
  unfold V3
  generalize V2 m c = X
  after_results
  exact eye u u'

theorem v11_3 : V3 m c main_v11 (ix1 p) = V2 m c main_arg6 (ix2 p 0) := by
  unfold V3
  generalize V2 m c = X
  after_results
  exact column _ 0 (by omega) p

theorem v12_4 : V4 m c main_v12 (ix2 p s) = if V3 m c main_v11 (ix1 p) = BitVec.ofNat 32 s.val then (1 : EReal) else 0 := by
  unfold V4
  generalize V3 m c = X
  after_results
  exact onehot .f32 _ p s

theorem v13_5 : V5 m c main_v13 (ix2 s p) = V4 m c main_v12 (ix2 p s) := by
  unfold V5
  generalize V4 m c = X
  after_results
  exact transpose_ix2_apply _ _ s p

theorem v14_6 : V6 m c main_v14 (ix2 (Spec.col s u) (Spec.pcol1 p u'))
    = HMul.hMul (α := EReal) (β := EReal) (V5 m c main_v13 (ix2 s p)) (V5 m c main_v9 (ix2 u u')) := by
  unfold V6
  generalize V5 m c = X
  after_results
  exact kron _ _ s u p u' _ _

theorem v15_7 : V7 m c main_v15 = V6 m c main_v14 := by
  unfold V7
  generalize V6 m c = X
  after_results <;> rfl

theorem v17_7 : V7 m c main_v17 (ix1 p) = V6 m c main_arg6 (ix2 p 1) := by
  unfold V7
  generalize V6 m c = X
  after_results
  exact column _ 1 (by omega) p

theorem v18_8 : V8 m c main_v18 (ix2 p s) = if V7 m c main_v17 (ix1 p) = BitVec.ofNat 32 s.val then (1 : EReal) else 0 := by
  unfold V8
  generalize V7 m c = X
  after_results
  exact onehot .f32 _ p s

theorem v22_9 : V9 m c main_v22 (ix2 s p) = HMul.hMul (α := EReal) (β := EReal) (V8 m c main_v18 (ix2 p s)) (V8 m c main_arg2 (ix1 p)) := by
  unfold V9
  generalize V8 m c = X
  after_results
  exact (transpose_ix2_apply _ _ s p).trans (congrArg _ (rows _ p s))

theorem v23_10 : V10 m c main_v23 (ix2 (Spec.col s u) (Spec.pcol1 p u'))
    = HMul.hMul (α := EReal) (β := EReal) (V9 m c main_v22 (ix2 s p)) (V9 m c main_v9 (ix2 u u')) := by
  unfold V10
  generalize V9 m c = X
  after_results
  exact kron _ _ s u p u' _ _

theorem v24_11 : V11 m c main_v24 = V10 m c main_v23 := by
  unfold V11
  generalize V10 m c = X
  after_results <;> rfl

theorem v26_11 : V11 m c main_v26 (ix1 p) = V10 m c main_arg6 (ix2 p 2) := by
  unfold V11
  generalize V10 m c = X
  after_results
  exact column _ 2 (by omega) p

theorem v27_12 : V12 m c main_v27 (ix2 p s) = if V11 m c main_v26 (ix1 p) = BitVec.ofNat 32 s.val then (1 : EReal) else 0 := by
  unfold V12
  generalize V11 m c = X
  after_results
  exact onehot .f32 _ p s

theorem v28_13 : V13 m c main_v28 (ix2 (Spec.pcol1 p u) (Spec.col s u'))
    = HMul.hMul (α := EReal) (β := EReal) (V12 m c main_v27 (ix2 p s)) (V12 m c main_v9 (ix2 u u')) := by
  unfold V13
  generalize V12 m c = X
  after_results
  exact kron _ _ p u s u' _ _

theorem v29_14 : V14 m c main_v29 = V13 m c main_v28 := by
  unfold V14
  generalize V13 m c = X
  after_results <;> rfl

theorem sel0 :
    (GenP.V14 m c main_v15 : S2048x4096.Idx → EReal) (ix2 (Spec.col s u) (Spec.pcol1 p u'))
      = if m ((c.tc : Thread nD τ).loc main_arg6) (ix2 p 0) = BitVec.ofNat 32 s.val ∧ u = u' then (1 : EReal) else 0 := by
  rw [V14_of, V13_of, V12_of, V11_of, V10_of, V9_of, V8_of, v15_7, v14_6, v13_5, v12_4, v11_3, V2_of, V1_of, V5_of, V4_of, v9_3, ind_mul_ind]
    <;> first | rfl | decide

theorem selx0 :
    (GenP.V14 m c main_v24 : S2048x4096.Idx → EReal) (ix2 (Spec.col s u) (Spec.pcol1 p u'))
      = (if m ((c.tc : Thread nD τ).loc main_arg6) (ix2 p 1) = BitVec.ofNat 32 s.val ∧ u = u' then m ((c.tc : Thread nD τ).loc main_arg2) (ix1 p) else 0 : EReal) := by
  rw [V14_of, V13_of, V12_of, v24_11, v23_10, v22_9, v18_8, v17_7, V6_of, V5_of, V4_of, V3_of, V2_of, V1_of, V8_of, V7_of, V6_of, V5_of, V4_of, V3_of, V2_of, V1_of, V9_of, V8_of, V7_of, V6_of, V5_of, V4_of, v9_3, ind_mul_mul_ind]
    <;> first | rfl | decide

end

theorem selout (p : Fin 32) (u' : Fin 128) (s : Fin 16) (u : Fin 128) :
    (GenP.V14 m c main_v29 : S4096x2048.Idx → EReal) (ix2 (Spec.pcol1 p u') (Spec.col s u))
      = if m ((c.tc : Thread nD τ).loc main_arg6) (ix2 p 2) = BitVec.ofNat 32 s.val ∧ u' = u then (1 : EReal) else 0 := by
  rw [v29_14, v28_13, v27_12, v26_11, V10_of, V9_of, V8_of, V7_of, V6_of, V5_of, V4_of, V3_of, V2_of, V1_of, V12_of, V11_of, V10_of, V9_of, V8_of, V7_of, V6_of, V5_of, V4_of, v9_3, ind_mul_ind]
    <;> first | rfl | decide

end Cert.KernelIdeal.Host0
-- ==== Proof.KI.Host1.lean ====
import proofs.«426359_j52879637348696_1_alg».proof.Proof.KI.Host0

noncomputable section

namespace Cert.KernelIdeal.Host1

open Cert.KernelIdeal Cert.KernelIdeal.Gen Cert.KernelIdeal.GenP Cert.KernelIdeal.Host
open Idealize.ShloMosaic Idealize.ShloMosaic.TcCoe Idealize.ShloMosaic.ValueIdx
open Cert.Proof

variable (m : (ℓ : Loc nD τ sig) → Buf (Elt Ideal) ℓ) (outs : GenP.Outs (F := Ideal)) (c : Dev nD)

section
variable (s : Fin 16) (u : Fin 128) (p : Fin 96) (u' : Fin 128)

theorem v37_16 : V16 m outs c main_v37 (ix2 u u') = if u = u' then (1 : EReal) else 0 := by
  unfold V16
  generalize V15 m outs c = X
  after_results
  exact eye u u'

theorem v39_16 : V16 m outs c main_v39 (ix1 p) = V15 m outs c main_arg7 (ix2 p 0) := by
  unfold V16
  generalize V15 m outs c = X
  after_results
  exact column _ 0 (by omega) p

theorem v40_17 : V17 m outs c main_v40 (ix2 p s) = if V16 m outs c main_v39 (ix1 p) = BitVec.ofNat 32 s.val then (1 : EReal) else 0 := by
  unfold V17
  generalize V16 m outs c = X
  after_results
  exact onehot .f32 _ p s

theorem v41_18 : V18 m outs c main_v41 (ix2 s p) = V17 m outs c main_v40 (ix2 p s) := by
  unfold V18
  generalize V17 m outs c = X
  after_results
  exact transpose_ix2_apply _ _ s p

theorem v42_19 : V19 m outs c main_v42 (ix2 (Spec.col s u) (Spec.pcol2 p u'))
    = HMul.hMul (α := EReal) (β := EReal) (V18 m outs c main_v41 (ix2 s p)) (V18 m outs c main_v37 (ix2 u u')) := by
  unfold V19
  generalize V18 m outs c = X
  after_results
  exact kron _ _ s u p u' _ _

theorem v43_20 : V20 m outs c main_v43 = V19 m outs c main_v42 := by
  unfold V20
  generalize V19 m outs c = X
  after_results <;> rfl

theorem v45_20 : V20 m outs c main_v45 (ix1 p) = V19 m outs c main_arg7 (ix2 p 1) := by
  unfold V20
  generalize V19 m outs c = X
  after_results
  exact column _ 1 (by omega) p

theorem v46_21 : V21 m outs c main_v46 (ix2 p s) = if V20 m outs c main_v45 (ix1 p) = BitVec.ofNat 32 s.val then (1 : EReal) else 0 := by
  unfold V21
  generalize V20 m outs c = X
  after_results
  exact onehot .f32 _ p s

theorem v47_22 : V22 m outs c main_v47 (ix2 s p) = V21 m outs c main_v46 (ix2 p s) := by
  unfold V22
  generalize V21 m outs c = X
  after_results
  exact transpose_ix2_apply _ _ s p

theorem v48_23 : V23 m outs c main_v48 (ix2 (Spec.col s u) (Spec.pcol2 p u'))
    = HMul.hMul (α := EReal) (β := EReal) (V22 m outs c main_v47 (ix2 s p)) (V22 m outs c main_v37 (ix2 u u')) := by
  unfold V23
  generalize V22 m outs c = X
  after_results
  exact kron _ _ s u p u' _ _

theorem v49_24 : V24 m outs c main_v49 = V23 m outs c main_v48 := by
  unfold V24
  generalize V23 m outs c = X
  after_results <;> rfl

theorem v51_24 : V24 m outs c main_v51 (ix1 p) = V23 m outs c main_arg7 (ix2 p 2) := by
  unfold V24
  generalize V23 m outs c = X
  after_results
  exact column _ 2 (by omega) p

theorem v52_25 : V25 m outs c main_v52 (ix2 p s) = if V24 m outs c main_v51 (ix1 p) = BitVec.ofNat 32 s.val then (1 : EReal) else 0 := by
  unfold V25
  generalize V24 m outs c = X
  after_results
  exact onehot .f32 _ p s

theorem v56_26 : V26 m outs c main_v56 (ix2 s p) = HMul.hMul (α := EReal) (β := EReal) (V25 m outs c main_v52 (ix2 p s)) (V25 m outs c main_arg3 (ix1 p)) := by
  unfold V26
  generalize V25 m outs c = X
  after_results
  exact (transpose_ix2_apply _ _ s p).trans (congrArg _ (rows _ p s))

theorem v57_27 : V27 m outs c main_v57 (ix2 (Spec.col s u) (Spec.pcol2 p u'))
    = HMul.hMul (α := EReal) (β := EReal) (V26 m outs c main_v56 (ix2 s p)) (V26 m outs c main_v37 (ix2 u u')) := by
  unfold V27
  generalize V26 m outs c = X
  after_results
  exact kron _ _ s u p u' _ _

theorem v58_28 : V28 m outs c main_v58 = V27 m outs c main_v57 := by
  unfold V28
  generalize V27 m outs c = X
  after_results <;> rfl

theorem v60_28 : V28 m outs c main_v60 (ix1 p) = V27 m outs c main_arg7 (ix2 p 3) := by
  unfold V28
  generalize V27 m outs c = X
  after_results
  exact column _ 3 (by omega) p

theorem v61_29 : V29 m outs c main_v61 (ix2 p s) = if V28 m outs c main_v60 (ix1 p) = BitVec.ofNat 32 s.val then (1 : EReal) else 0 := by
  unfold V29
  generalize V28 m outs c = X
  after_results
  exact onehot .f32 _ p s

theorem v62_30 : V30 m outs c main_v62 (ix2 (Spec.pcol2 p u) (Spec.col s u'))
    = HMul.hMul (α := EReal) (β := EReal) (V29 m outs c main_v61 (ix2 p s)) (V29 m outs c main_v37 (ix2 u u')) := by
  unfold V30
  generalize V29 m outs c = X
  after_results
  exact kron _ _ p u s u' _ _

theorem v63_31 : V31 m outs c main_v63 = V30 m outs c main_v62 := by
  unfold V31
  generalize V30 m outs c = X
  after_results <;> rfl

theorem arg7_15 : V15 m outs c main_arg7 = m ((c.tc : Thread nD τ).loc main_arg7) := by
  rw [V15_of, V14_of, V13_of, V12_of, V11_of, V10_of, V9_of, V8_of, V7_of, V6_of, V5_of, V4_of, V3_of, V2_of, V1_of] <;> first | rfl | decide

theorem sel0 :
    GenP.V31 m outs c main_v43 (ix2 (Spec.col s u) (Spec.pcol2 p u'))
      = if m ((c.tc : Thread nD τ).loc main_arg7) (ix2 p 0) = BitVec.ofNat 32 s.val ∧ u = u' then (1 : EReal) else 0 := by
  rw [V31_of, V30_of, V29_of, V28_of, V27_of, V26_of, V25_of, V24_of, V23_of, V22_of, V21_of, v43_20, v42_19, v41_18, v40_17, v39_16, arg7_15, V18_of, V17_of, v37_16, ind_mul_ind]
    <;> first | rfl | decide

theorem sel1 :
    GenP.V31 m outs c main_v49 (ix2 (Spec.col s u) (Spec.pcol2 p u'))
      = if m ((c.tc : Thread nD τ).loc main_arg7) (ix2 p 1) = BitVec.ofNat 32 s.val ∧ u = u' then (1 : EReal) else 0 := by
  rw [V31_of, V30_of, V29_of, V28_of, V27_of, V26_of, V25_of, v49_24, v48_23, v47_22, v46_21, v45_20, V19_of, V18_of, V17_of, V16_of, arg7_15, V22_of, V21_of, V20_of, V19_of, V18_of, V17_of, v37_16, ind_mul_ind]
    <;> first | rfl | decide

theorem selx0 :
    GenP.V31 m outs c main_v58 (ix2 (Spec.col s u) (Spec.pcol2 p u'))
      = if m ((c.tc : Thread nD τ).loc main_arg7) (ix2 p 2) = BitVec.ofNat 32 s.val ∧ u = u' then (m ((c.tc : Thread nD τ).loc main_arg3) (ix1 p) : EReal) else (0 : EReal) := by
  rw [V31_of, V30_of, V29_of, v58_28, v57_27, v56_26, v52_25, v51_24, V23_of, V22_of, V21_of, V20_of, V19_of, V18_of, V17_of, V16_of, arg7_15, V25_of, V24_of, V23_of, V22_of, V21_of, V20_of, V19_of, V18_of, V17_of, V16_of, V15_of, V14_of, V13_of, V12_of, V11_of, V10_of, V9_of, V8_of, V7_of, V6_of, V5_of, V4_of, V3_of, V2_of, V1_of, V26_of, V25_of, V24_of, V23_of, V22_of, V21_of, V20_of, V19_of, V18_of, V17_of, v37_16, ind_mul_mul_ind]
    <;> first | rfl | decide

end

theorem selout (p : Fin 96) (u' : Fin 128) (s : Fin 16) (u : Fin 128) :
    GenP.V31 m outs c main_v63 (ix2 (Spec.pcol2 p u') (Spec.col s u))
      = if m ((c.tc : Thread nD τ).loc main_arg7) (ix2 p 3) = BitVec.ofNat 32 s.val ∧ u' = u then (1 : EReal) else 0 := by
  rw [v63_31, v62_30, v61_29, v60_28, V27_of, V26_of, V25_of, V24_of, V23_of, V22_of, V21_of, V20_of, V19_of, V18_of, V17_of, V16_of, arg7_15, V29_of, V28_of, V27_of, V26_of, V25_of, V24_of, V23_of, V22_of, V21_of, V20_of, V19_of, V18_of, V17_of, v37_16, ind_mul_ind]
    <;> first | rfl | decide

theorem x1b : (GenP.V31 m outs c main_v0 : S4096x2048.Idx → EReal) = m ((c.tc : Thread nD τ).loc main_arg1) := by
  rw [V31_of, V30_of, V29_of, V28_of, V27_of, V26_of, V25_of, V24_of, V23_of, V22_of, V21_of, V20_of, V19_of, V18_of, V17_of, V16_of, V15_of, Host0.x1b] <;> decide

theorem x0b : (GenP.V31 m outs c main_v1 : S64x2048.Idx → EReal) = m ((c.tc : Thread nD τ).loc main_arg0) := by
  rw [V31_of, V30_of, V29_of, V28_of, V27_of, V26_of, V25_of, V24_of, V23_of, V22_of, V21_of, V20_of, V19_of, V18_of, V17_of, V16_of, V15_of, Host0.x0b] <;> decide

theorem ohi0 (z : Fin 4096) (e : Fin 64) :
    GenP.V31 m outs c main_v2 (ix2 z e) = if m ((c.tc : Thread nD τ).loc main_arg5) (ix1 z) = BitVec.ofNat 32 e.val then (1 : EReal) else 0 := by
  rw [V31_of, V30_of, V29_of, V28_of, V27_of, V26_of, V25_of, V24_of, V23_of, V22_of, V21_of, V20_of, V19_of, V18_of, V17_of, V16_of, V15_of, Host0.ohi0] <;> decide

end Cert.KernelIdeal.Host1
-- ==== Proof.KI.Host2.lean ====
import proofs.«426359_j52879637348696_1_alg».proof.Proof.KI.Host0

noncomputable section

namespace Cert.KernelIdeal.Host2

open Cert.KernelIdeal Cert.KernelIdeal.Gen Cert.KernelIdeal.GenP Cert.KernelIdeal.Host
open Idealize.ShloMosaic Idealize.ShloMosaic.TcCoe Idealize.ShloMosaic.ValueIdx
open Cert.Proof

variable (m : (ℓ : Loc nD τ sig) → Buf (Elt Ideal) ℓ) (outs : GenP.Outs (F := Ideal)) (c : Dev nD)

section
variable (s : Fin 16) (u : Fin 128) (p : Fin 128) (u' : Fin 128)

theorem v71_33 : V33 m outs c main_v71 (ix2 u u') = if u = u' then (1 : EReal) else 0 := by
  unfold V33
  generalize V32 m outs c = X
  after_results
  exact eye u u'

theorem v73_33 : V33 m outs c main_v73 (ix1 p) = V32 m outs c main_arg8 (ix2 p 0) := by
  unfold V33
  generalize V32 m outs c = X
  after_results
  exact column _ 0 (by omega) p

theorem v74_34 : V34 m outs c main_v74 (ix2 p s) = if V33 m outs c main_v73 (ix1 p) = BitVec.ofNat 32 s.val then (1 : EReal) else 0 := by
  unfold V34
  generalize V33 m outs c = X
  after_results
  exact onehot .f32 _ p s

theorem v75_35 : V35 m outs c main_v75 (ix2 s p) = V34 m outs c main_v74 (ix2 p s) := by
  unfold V35
  generalize V34 m outs c = X
  after_results
  exact transpose_ix2_apply _ _ s p

theorem v76_36 : V36 m outs c main_v76 (ix2 (Spec.col s u) (Spec.pcol3 p u'))
    = HMul.hMul (α := EReal) (β := EReal) (V35 m outs c main_v75 (ix2 s p)) (V35 m outs c main_v71 (ix2 u u')) := by
  unfold V36
  generalize V35 m outs c = X
  after_results
  exact kron _ _ s u p u' _ _

theorem v77_37 : V37 m outs c main_v77 = V36 m outs c main_v76 := by
  unfold V37
  generalize V36 m outs c = X
  after_results <;> rfl

theorem v79_37 : V37 m outs c main_v79 (ix1 p) = V36 m outs c main_arg8 (ix2 p 1) := by
  unfold V37
  generalize V36 m outs c = X
  after_results
  exact column _ 1 (by omega) p

theorem v80_38 : V38 m outs c main_v80 (ix2 p s) = if V37 m outs c main_v79 (ix1 p) = BitVec.ofNat 32 s.val then (1 : EReal) else 0 := by
  unfold V38
  generalize V37 m outs c = X
  after_results
  exact onehot .f32 _ p s

theorem v81_39 : V39 m outs c main_v81 (ix2 s p) = V38 m outs c main_v80 (ix2 p s) := by
  unfold V39
  generalize V38 m outs c = X
  after_results
  exact transpose_ix2_apply _ _ s p

theorem v82_40 : V40 m outs c main_v82 (ix2 (Spec.col s u) (Spec.pcol3 p u'))
    = HMul.hMul (α := EReal) (β := EReal) (V39 m outs c main_v81 (ix2 s p)) (V39 m outs c main_v71 (ix2 u u')) := by
  unfold V40
  generalize V39 m outs c = X
  after_results
  exact kron _ _ s u p u' _ _

theorem v83_41 : V41 m outs c main_v83 = V40 m outs c main_v82 := by
  unfold V41
  generalize V40 m outs c = X
  after_results <;> rfl

theorem v85_41 : V41 m outs c main_v85 (ix1 p) = V40 m outs c main_arg8 (ix2 p 2) := by
  unfold V41
  generalize V40 m outs c = X
  after_results
  exact column _ 2 (by omega) p

theorem v86_42 : V42 m outs c main_v86 (ix2 p s) = if V41 m outs c main_v85 (ix1 p) = BitVec.ofNat 32 s.val then (1 : EReal) else 0 := by
  unfold V42
  generalize V41 m outs c = X
  after_results
  exact onehot .f32 _ p s

theorem v87_43 : V43 m outs c main_v87 (ix2 s p) = V42 m outs c main_v86 (ix2 p s) := by
  unfold V43
  generalize V42 m outs c = X
  after_results
  exact transpose_ix2_apply _ _ s p

theorem v88_44 : V44 m outs c main_v88 (ix2 (Spec.col s u) (Spec.pcol3 p u'))
    = HMul.hMul (α := EReal) (β := EReal) (V43 m outs c main_v87 (ix2 s p)) (V43 m outs c main_v71 (ix2 u u')) := by
  unfold V44
  generalize V43 m outs c = X
  after_results
  exact kron _ _ s u p u' _ _

theorem v89_45 : V45 m outs c main_v89 = V44 m outs c main_v88 := by
  unfold V45
  generalize V44 m outs c = X
  after_results <;> rfl

theorem v91_45 : V45 m outs c main_v91 (ix1 p) = V44 m outs c main_arg8 (ix2 p 3) := by
  unfold V45
  generalize V44 m outs c = X
  after_results
  exact column _ 3 (by omega) p

theorem v92_46 : V46 m outs c main_v92 (ix2 p s) = if V45 m outs c main_v91 (ix1 p) = BitVec.ofNat 32 s.val then (1 : EReal) else 0 := by
  unfold V46
  generalize V45 m outs c = X
  after_results
  exact onehot .f32 _ p s

theorem v96_47 : V47 m outs c main_v96 (ix2 s p) = HMul.hMul (α := EReal) (β := EReal) (V46 m outs c main_v92 (ix2 p s)) (V46 m outs c main_arg4 (ix1 p)) := by
  unfold V47
  generalize V46 m outs c = X
  after_results
  exact (transpose_ix2_apply _ _ s p).trans (congrArg _ (rows _ p s))

theorem v97_48 : V48 m outs c main_v97 (ix2 (Spec.col s u) (Spec.pcol3 p u'))
    = HMul.hMul (α := EReal) (β := EReal) (V47 m outs c main_v96 (ix2 s p)) (V47 m outs c main_v71 (ix2 u u')) := by
  unfold V48
  generalize V47 m outs c = X
  after_results
  exact kron _ _ s u p u' _ _

theorem v98_49 : V49 m outs c main_v98 = V48 m outs c main_v97 := by
  unfold V49
  generalize V48 m outs c = X
  after_results <;> rfl

theorem v100_49 : V49 m outs c main_v100 (ix1 p) = V48 m outs c main_arg8 (ix2 p 4) := by
  unfold V49
  generalize V48 m outs c = X
  after_results
  exact column _ 4 (by omega) p

theorem v101_50 : V50 m outs c main_v101 (ix2 p s) = if V49 m outs c main_v100 (ix1 p) = BitVec.ofNat 32 s.val then (1 : EReal) else 0 := by
  unfold V50
  generalize V49 m outs c = X
  after_results
  exact onehot .f32 _ p s

theorem v102_51 : V51 m outs c main_v102 (ix2 (Spec.pcol3 p u) (Spec.col s u'))
    = HMul.hMul (α := EReal) (β := EReal) (V50 m outs c main_v101 (ix2 p s)) (V50 m outs c main_v71 (ix2 u u')) := by
  unfold V51
  generalize V50 m outs c = X
  after_results
  exact kron _ _ p u s u' _ _

theorem v103_52 : V52 m outs c main_v103 = V51 m outs c main_v102 := by
  unfold V52
  generalize V51 m outs c = X
  after_results <;> rfl

theorem arg8_32 : V32 m outs c main_arg8 = m ((c.tc : Thread nD τ).loc main_arg8) := by
  rw [V32_of, V31_of, V30_of, V29_of, V28_of, V27_of, V26_of, V25_of, V24_of, V23_of, V22_of, V21_of, V20_of, V19_of, V18_of, V17_of, V16_of, V15_of, V14_of, V13_of, V12_of, V11_of, V10_of, V9_of, V8_of, V7_of, V6_of, V5_of, V4_of, V3_of, V2_of, V1_of] <;> first | rfl | decide

theorem sel0 :
    GenP.V52 m outs c main_v77 (ix2 (Spec.col s u) (Spec.pcol3 p u'))
      = if m ((c.tc : Thread nD τ).loc main_arg8) (ix2 p 0) = BitVec.ofNat 32 s.val ∧ u = u' then (1 : EReal) else 0 := by
  rw [V52_of, V51_of, V50_of, V49_of, V48_of, V47_of, V46_of, V45_of, V44_of, V43_of, V42_of, V41_of, V40_of, V39_of, V38_of, v77_37, v76_36, v75_35, v74_34, v73_33, arg8_32, V35_of, V34_of, v71_33, ind_mul_ind]
    <;> first | rfl | decide

theorem sel1 :
    GenP.V52 m outs c main_v83 (ix2 (Spec.col s u) (Spec.pcol3 p u'))
      = if m ((c.tc : Thread nD τ).loc main_arg8) (ix2 p 1) = BitVec.ofNat 32 s.val ∧ u = u' then (1 : EReal) else 0 := by
  rw [V52_of, V51_of, V50_of, V49_of, V48_of, V47_of, V46_of, V45_of, V44_of, V43_of, V42_of, v83_41, v82_40, v81_39, v80_38, v79_37, V36_of, V35_of, V34_of, V33_of, arg8_32, V39_of, V38_of, V37_of, V36_of, V35_of, V34_of, v71_33, ind_mul_ind]
    <;> first | rfl | decide

theorem sel2 :
    GenP.V52 m outs c main_v89 (ix2 (Spec.col s u) (Spec.pcol3 p u'))
      = if m ((c.tc : Thread nD τ).loc main_arg8) (ix2 p 2) = BitVec.ofNat 32 s.val ∧ u = u' then (1 : EReal) else 0 := by
  rw [V52_of, V51_of, V50_of, V49_of, V48_of, V47_of, V46_of, v89_45, v88_44, v87_43, v86_42, v85_41, V40_of, V39_of, V38_of, V37_of, V36_of, V35_of, V34_of, V33_of, arg8_32, V43_of, V42_of, V41_of, V40_of, V39_of, V38_of, V37_of, V36_of, V35_of, V34_of, v71_33, ind_mul_ind]
    <;> first | rfl | decide

theorem selx0 :
    GenP.V52 m outs c main_v98 (ix2 (Spec.col s u) (Spec.pcol3 p u'))
      = (if m ((c.tc : Thread nD τ).loc main_arg8) (ix2 p 3) = BitVec.ofNat 32 s.val ∧ u = u' then m ((c.tc : Thread nD τ).loc main_arg4) (ix1 p) else 0 : EReal) := by
  rw [V52_of, V51_of, V50_of, v98_49, v97_48, v96_47, v92_46, v91_45, V44_of, V43_of, V42_of, V41_of, V40_of, V39_of, V38_of, V37_of, V36_of, V35_of, V34_of, V33_of, arg8_32, V46_of, V45_of, V44_of, V43_of, V42_of, V41_of, V40_of, V39_of, V38_of, V37_of, V36_of, V35_of, V34_of, V33_of, V32_of, V31_of, V30_of, V29_of, V28_of, V27_of, V26_of, V25_of, V24_of, V23_of, V22_of, V21_of, V20_of, V19_of, V18_of, V17_of, V16_of, V15_of, V14_of, V13_of, V12_of, V11_of, V10_of, V9_of, V8_of, V7_of, V6_of, V5_of, V4_of, V3_of, V2_of, V1_of, V47_of, V46_of, V45_of, V44_of, V43_of, V42_of, V41_of, V40_of, V39_of, V38_of, V37_of, V36_of, V35_of, V34_of, v71_33, ind_mul_mul_ind]
    <;> first | rfl | decide

end

theorem selout (p : Fin 128) (u' : Fin 128) (s : Fin 16) (u : Fin 128) :
    GenP.V52 m outs c main_v103 (ix2 (Spec.pcol3 p u') (Spec.col s u))
      = if m ((c.tc : Thread nD τ).loc main_arg8) (ix2 p 4) = BitVec.ofNat 32 s.val ∧ u' = u then (1 : EReal) else 0 := by
  rw [v103_52, v102_51, v101_50, v100_49, V48_of, V47_of, V46_of, V45_of, V44_of, V43_of, V42_of, V41_of, V40_of, V39_of, V38_of, V37_of, V36_of, V35_of, V34_of, V33_of, arg8_32, V50_of, V49_of, V48_of, V47_of, V46_of, V45_of, V44_of, V43_of, V42_of, V41_of, V40_of, V39_of, V38_of, V37_of, V36_of, V35_of, V34_of, v71_33, ind_mul_ind]
    <;> first | rfl | decide

theorem keep (r : Ref sig .tc) (h : r = main_v0 ∨ r = main_v1 ∨ r = main_v2) : V52 m outs c r = V14 m c r := by
  rcases h with rfl | rfl | rfl <;> rw [V52_of, V51_of, V50_of, V49_of, V48_of, V47_of, V46_of, V45_of, V44_of, V43_of, V42_of, V41_of, V40_of, V39_of, V38_of, V37_of, V36_of, V35_of, V34_of, V33_of, V32_of, V31_of, V30_of, V29_of, V28_of, V27_of, V26_of, V25_of, V24_of, V23_of, V22_of, V21_of, V20_of, V19_of, V18_of, V17_of, V16_of, V15_of] <;> decide

theorem x1b : (GenP.V52 m outs c main_v0 : S4096x2048.Idx → EReal) = m ((c.tc : Thread nD τ).loc main_arg1) := by
  rw [keep m outs c _ (.inl rfl), Host0.x1b]

theorem x0b : (GenP.V52 m outs c main_v1 : S64x2048.Idx → EReal) = m ((c.tc : Thread nD τ).loc main_arg0) := by
  rw [keep m outs c _ (.inr (.inl rfl)), Host0.x0b]

theorem ohi0 (z : Fin 4096) (e : Fin 64) :
    GenP.V52 m outs c main_v2 (ix2 z e) = if m ((c.tc : Thread nD τ).loc main_arg5) (ix1 z) = BitVec.ofNat 32 e.val then (1 : EReal) else 0 := by
  rw [keep m outs c _ (.inr (.inr rfl)), Host0.ohi0]

end Cert.KernelIdeal.Host2
-- ==== Proof.KI.Value.lean ====
import proofs.«426359_j52879637348696_1_alg».proof.Proof.Spec
import proofs.«426359_j52879637348696_1_alg».proof.Proof.KI.Inst
import proofs.«426359_j52879637348696_1_alg».proof.Proof.KI.Tail
import proofs.«426359_j52879637348696_1_alg».proof.Proof.KI.Val0
import proofs.«426359_j52879637348696_1_alg».proof.Proof.KI.Val1
import proofs.«426359_j52879637348696_1_alg».proof.Proof.KI.Val2
import proofs.«426359_j52879637348696_1_alg».proof.Proof.KI.Host0
import proofs.«426359_j52879637348696_1_alg».proof.Proof.KI.Host1
import proofs.«426359_j52879637348696_1_alg».proof.Proof.KI.Host2

noncomputable section

namespace Cert.KernelIdeal.Value

open Cert.KernelIdeal Cert.KernelIdeal.Gen Cert.KernelIdeal.GenP
open Idealize.ShloMosaic Idealize.ShloMosaic.TcCoe Idealize.ShloMosaic.ValueIdx
open Idealize.SL Idealize.SL.Sem
open Cert.Proof

/-- The result is the sum of what the three calls leave, and each leaves its degree's part of the specification. -/
theorem result_apply (m : (ℓ : Loc nD τ sig) → Buf (Elt Ideal) ℓ) (c : Dev nD)
    (T : Spec.Tables (m ((c.tc : Thread nD τ).loc main_arg5)) (m ((c.tc : Thread nD τ).loc main_arg6)) (m ((c.tc : Thread nD τ).loc main_arg7)) (m ((c.tc : Thread nD τ).loc main_arg8)))
    (z : Fin 4096) (s : Fin 16) (u : Fin 128) :
    (GenP.V54 m (Inst.outs m) c main_v105 : S4096x2048.Idx → EReal) (ix2 z (Spec.col s u))
      = Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) T z s u :=
  (Tail.result_apply m (Inst.outs m) c (ix2 z (Spec.col s u))).trans
    (congrArg₂ (fun a b : EReal => a + b)
      (congrArg₂ (fun a b : EReal => a + b)
        ((congrFun (Inst.outs_15 m c) _).trans (Val0.region_value (Inst.vf (GenP.V14 m)) c _ _ _ _ _ _ _ T
          (Host0.x1b m c) (Host0.x0b m c) (Host0.ohi0 m c) (Host0.sel0 m c) (Host0.selx0 m c) (Host0.selout m c) z s u))
        ((congrFun (Inst.outs_32 m c) _).trans (Val1.region_value (Inst.vf (GenP.V31 m (Inst.outsA m))) c _ _ _ _ _ _ _ T
          (Host1.x1b m (Inst.outsA m) c) (Host1.x0b m (Inst.outsA m) c) (Host1.ohi0 m (Inst.outsA m) c)
          (Host1.sel0 m (Inst.outsA m) c) (Host1.sel1 m (Inst.outsA m) c) (Host1.selx0 m (Inst.outsA m) c)
          (Host1.selout m (Inst.outsA m) c) z s u)))
      ((congrFun (Inst.outs_53 m c) _).trans (Val2.region_value (Inst.vf (GenP.V52 m (Inst.outsB m))) c T
        (Host2.x1b m (Inst.outsB m) c) (Host2.x0b m (Inst.outsB m) c) (Host2.ohi0 m (Inst.outsB m) c)
        (Host2.sel0 m (Inst.outsB m) c) (Host2.sel1 m (Inst.outsB m) c) (Host2.sel2 m (Inst.outsB m) c)
        (Host2.selx0 m (Inst.outsB m) c) (Host2.selout m (Inst.outsB m) c) z s u)))

end Cert.KernelIdeal.Value

end
-- ==== Proof.RefOps.lean ====
import proofs.«426359_j52879637348696_1_alg».proof.ReferenceIdeal
import Idealize.ShloMosaic.Lib.StableHlo.Run

noncomputable section

namespace Cert.ReferenceIdeal.RefOps

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

abbrev ops0 : List (HloOp τ sig (Elt F)) :=
  [ StableHlo.reshape main_arg0 main_v0 rfl shapeCasts_S64x2048_S64x16x128,
    StableHlo.reshape main_arg1 main_v1 rfl shapeCasts_S4096x2048_S4096x16x128,
    StableHlo.nullary main_c (constantI S_ 32 0#32),
    StableHlo.unary main_c main_v2 (broadcastInDim S4096 ![] bcast_S_S4096),
    StableHlo.binary main_arg5 main_v2 main_v3 (cmpi .slt),
    StableHlo.nullary main_c_0 (constantI S_ 32 64#32),
    StableHlo.unary main_c_0 main_v4 (broadcastInDim S4096 ![] bcast_S_S4096),
    StableHlo.binary main_arg5 main_v4 main_v5 addi,
    StableHlo.ternary main_v3 main_v5 main_arg5 main_v6 select,
    StableHlo.unary main_v6 main_v7 (broadcastInDim S4096x1 ![0] bcast_S4096_S4096x1_0),
    StableHlo.binary main_v0 main_v7 main_v8 (fun x i => Host.gather gather_S64x16x128_S4096x1_S4096x16x128_12_0_n_n_0_1_116128 x i),
    StableHlo.nullary main_cst (constant S_ .f32 0x00000000#32),
    StableHlo.unary main_cst main_v9 (broadcastInDim S4096x16x128 ![] bcast_S_S4096x16x128),
    StableHlo.unary main_arg6 main_v10 (extractStridedSlice S32x1 ![0, 1] · slices_S32x3_S32x1_0_1),
    StableHlo.reshape main_v10 main_v11 rfl shapeCasts_S32x1_S32,
    StableHlo.TRef.nullary main_call0.c (constantI S_ 32 0#32),
    StableHlo.TRef.unary main_call0.c main_call0.v0 (broadcastInDim S32 ![] bcast_S_S32),
    StableHlo.TRef.binary (.of main_v11 : TRef sig ⟨S32, .i32⟩) main_call0.v0 main_call0.v1 (cmpi .slt),
    StableHlo.TRef.nullary main_call0.c_0 (constantI S_ 32 16#32),
    StableHlo.TRef.unary main_call0.c_0 main_call0.v2 (broadcastInDim S32 ![] bcast_S_S32),
    StableHlo.TRef.binary (.of main_v11 : TRef sig ⟨S32, .i32⟩) main_call0.v2 main_call0.v3 addi,
    StableHlo.TRef.ternary main_call0.v1 main_call0.v3 (.of main_v11 : TRef sig ⟨S32, .i32⟩) main_call0.call0.v0 select,
    StableHlo.TRef.unary main_call0.call0.v0 main_call0.v5 (broadcastInDim S32x1 ![0] bcast_S32_S32x1_0),
    StableHlo.TRef.nullary main_call0.c_1 (constantI S1 32 15#32),
    StableHlo.TRef.nullary main_call0.c_2 (constantI S_ 32 0#32),
    StableHlo.TRef.unary main_call0.c_2 main_call0.v6 (broadcastInDim S32x1 ![] bcast_S_S32x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S32x1 ![0, 1] bcast_S1x1_S32x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S32x1_S32_d1 h_S_),
    StableHlo.TRef.binary (.of main_v8 : TRef sig ⟨S4096x16x128, .f32⟩) main_call0.v5 main_call0.v13 (fun x i => Host.gather gather_S4096x16x128_S32x1_S4096x32x128_02_1_n_n_1_1_40961128 x i),
    StableHlo.TRef.unary main_call0.v12 main_call0.v14 (broadcastInDim S4096x32x128 ![1] bcast_S32_S4096x32x128_1),
    StableHlo.TRef.nullary main_call0.cst (constant S_ .f32 0x7FC00000#32),
    StableHlo.TRef.unary main_call0.cst main_call0.v15 (broadcastInDim S4096x32x128 ![] bcast_S_S4096x32x128),
    StableHlo.TRef.ternary main_call0.v14 main_call0.v13 main_call0.v15 main_call0.v16 select ]

abbrev ops1 : List (HloOp τ sig (Elt F)) :=
  [ StableHlo.unary main_arg2 main_v13 (broadcastInDim S1x32x1 ![1] bcast_S32_S1x32x1_1),
    StableHlo.unary main_v13 main_v14 (broadcastInDim S4096x32x128 ![0, 1, 2] bcast_S1x32x1_S4096x32x128_0_1_2),
    StableHlo.binary main_v12 main_v14 main_v15 mulf,
    StableHlo.unary main_arg6 main_v16 (extractStridedSlice S32x1 ![0, 0] · slices_S32x3_S32x1_0_0),
    StableHlo.reshape main_v16 main_v17 rfl shapeCasts_S32x1_S32,
    StableHlo.TRef.nullary main_call1.c (constantI S_ 32 0#32),
    StableHlo.TRef.unary main_call1.c main_call1.v0 (broadcastInDim S32 ![] bcast_S_S32),
    StableHlo.TRef.binary (.of main_v17 : TRef sig ⟨S32, .i32⟩) main_call1.v0 main_call1.v1 (cmpi .slt),
    StableHlo.TRef.nullary main_call1.c_0 (constantI S_ 32 16#32),
    StableHlo.TRef.unary main_call1.c_0 main_call1.v2 (broadcastInDim S32 ![] bcast_S_S32),
    StableHlo.TRef.binary (.of main_v17 : TRef sig ⟨S32, .i32⟩) main_call1.v2 main_call1.v3 addi,
    StableHlo.TRef.ternary main_call1.v1 main_call1.v3 (.of main_v17 : TRef sig ⟨S32, .i32⟩) main_call1.call0.v0 select,
    StableHlo.TRef.unary main_call1.call0.v0 main_call1.v5 (broadcastInDim S32x1 ![0] bcast_S32_S32x1_0),
    StableHlo.TRef.nullary main_call1.c_1 (constantI S1 32 15#32),
    StableHlo.TRef.nullary main_call1.c_2 (constantI S_ 32 0#32),
    StableHlo.TRef.unary main_call1.c_2 main_call1.v6 (broadcastInDim S32x1 ![] bcast_S_S32x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S32x1 ![0, 1] bcast_S1x1_S32x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S32x1_S32_d1 h_S_),
    StableHlo.TRef.binary (.of main_v1 : TRef sig ⟨S4096x16x128, .f32⟩) main_call1.v5 main_call1.v13 (fun x i => Host.gather gather_S4096x16x128_S32x1_S4096x32x128_02_1_n_n_1_1_40961128 x i),
    StableHlo.TRef.unary main_call1.v12 main_call1.v14 (broadcastInDim S4096x32x128 ![1] bcast_S32_S4096x32x128_1),
    StableHlo.TRef.nullary main_call1.cst (constant S_ .f32 0x7FC00000#32),
    StableHlo.TRef.unary main_call1.cst main_call1.v15 (broadcastInDim S4096x32x128 ![] bcast_S_S4096x32x128),
    StableHlo.TRef.ternary main_call1.v14 main_call1.v13 main_call1.v15 main_call1.v16 select ]

abbrev ops2 : List (HloOp τ sig (Elt F)) :=
  [ StableHlo.binary main_v15 main_v18 main_v19 mulf,
    StableHlo.unary main_v19 main_v20 (transpose S32x4096x128 [1, 0, 2] · transposes_S4096x32x128_S32x4096x128_1_0_2),
    StableHlo.unary main_arg6 main_v21 (extractStridedSlice S32x1 ![0, 2] · slices_S32x3_S32x1_0_2),
    StableHlo.reshape main_v21 main_v22 rfl shapeCasts_S32x1_S32,
    StableHlo.nullary main_cst_1 (constant S_ .f32 0x00000000#32),
    StableHlo.unary main_cst_1 main_v23 (broadcastInDim S16x4096x128 ![] bcast_S_S16x4096x128),
    StableHlo.unary main_v22 main_v24 (broadcastInDim S32x1 ![0] bcast_S32_S32x1_0),
    StableHlo.ternary main_v23 main_v24 main_v20 main_v25 (fun x i u => Host.scatterAdd scatter_S16x4096x128_S32x1_S32x4096x128_12_0_0_1 x i u),
    StableHlo.unary main_v25 main_v26 (transpose S4096x16x128 [1, 0, 2] · transposes_S16x4096x128_S4096x16x128_1_0_2),
    StableHlo.binary main_v9 main_v26 main_v27 addf,
    StableHlo.unary main_arg7 main_v28 (extractStridedSlice S96x1 ![0, 2] · slices_S96x4_S96x1_0_2),
    StableHlo.reshape main_v28 main_v29 rfl shapeCasts_S96x1_S96,
    StableHlo.TRef.nullary main_call2.c (constantI S_ 32 0#32),
    StableHlo.TRef.unary main_call2.c main_call2.v0 (broadcastInDim S96 ![] bcast_S_S96),
    StableHlo.TRef.binary (.of main_v29 : TRef sig ⟨S96, .i32⟩) main_call2.v0 main_call2.v1 (cmpi .slt),
    StableHlo.TRef.nullary main_call2.c_0 (constantI S_ 32 16#32),
    StableHlo.TRef.unary main_call2.c_0 main_call2.v2 (broadcastInDim S96 ![] bcast_S_S96),
    StableHlo.TRef.binary (.of main_v29 : TRef sig ⟨S96, .i32⟩) main_call2.v2 main_call2.v3 addi,
    StableHlo.TRef.ternary main_call2.v1 main_call2.v3 (.of main_v29 : TRef sig ⟨S96, .i32⟩) main_call2.call0.v0 select,
    StableHlo.TRef.unary main_call2.call0.v0 main_call2.v5 (broadcastInDim S96x1 ![0] bcast_S96_S96x1_0),
    StableHlo.TRef.nullary main_call2.c_1 (constantI S1 32 15#32),
    StableHlo.TRef.nullary main_call2.c_2 (constantI S_ 32 0#32),
    StableHlo.TRef.unary main_call2.c_2 main_call2.v6 (broadcastInDim S96x1 ![] bcast_S_S96x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S96x1 ![0, 1] bcast_S1x1_S96x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S96x1_S96_d1 h_S_),
    StableHlo.TRef.binary (.of main_v8 : TRef sig ⟨S4096x16x128, .f32⟩) main_call2.v5 main_call2.v13 (fun x i => Host.gather gather_S4096x16x128_S96x1_S4096x96x128_02_1_n_n_1_1_40961128 x i),
    StableHlo.TRef.unary main_call2.v12 main_call2.v14 (broadcastInDim S4096x96x128 ![1] bcast_S96_S4096x96x128_1),
    StableHlo.TRef.nullary main_call2.cst (constant S_ .f32 0x7FC00000#32),
    StableHlo.TRef.unary main_call2.cst main_call2.v15 (broadcastInDim S4096x96x128 ![] bcast_S_S4096x96x128),
    StableHlo.TRef.ternary main_call2.v14 main_call2.v13 main_call2.v15 main_call2.v16 select ]

abbrev ops3 : List (HloOp τ sig (Elt F)) :=
  [ StableHlo.unary main_arg3 main_v31 (broadcastInDim S1x96x1 ![1] bcast_S96_S1x96x1_1),
    StableHlo.unary main_v31 main_v32 (broadcastInDim S4096x96x128 ![0, 1, 2] bcast_S1x96x1_S4096x96x128_0_1_2),
    StableHlo.binary main_v30 main_v32 main_v33 mulf,
    StableHlo.unary main_arg7 main_v34 (extractStridedSlice S96x1 ![0, 0] · slices_S96x4_S96x1_0_0),
    StableHlo.reshape main_v34 main_v35 rfl shapeCasts_S96x1_S96,
    StableHlo.TRef.nullary main_call3.c (constantI S_ 32 0#32),
    StableHlo.TRef.unary main_call3.c main_call3.v0 (broadcastInDim S96 ![] bcast_S_S96),
    StableHlo.TRef.binary (.of main_v35 : TRef sig ⟨S96, .i32⟩) main_call3.v0 main_call3.v1 (cmpi .slt),
    StableHlo.TRef.nullary main_call3.c_0 (constantI S_ 32 16#32),
    StableHlo.TRef.unary main_call3.c_0 main_call3.v2 (broadcastInDim S96 ![] bcast_S_S96),
    StableHlo.TRef.binary (.of main_v35 : TRef sig ⟨S96, .i32⟩) main_call3.v2 main_call3.v3 addi,
    StableHlo.TRef.ternary main_call3.v1 main_call3.v3 (.of main_v35 : TRef sig ⟨S96, .i32⟩) main_call3.call0.v0 select,
    StableHlo.TRef.unary main_call3.call0.v0 main_call3.v5 (broadcastInDim S96x1 ![0] bcast_S96_S96x1_0),
    StableHlo.TRef.nullary main_call3.c_1 (constantI S1 32 15#32),
    StableHlo.TRef.nullary main_call3.c_2 (constantI S_ 32 0#32),
    StableHlo.TRef.unary main_call3.c_2 main_call3.v6 (broadcastInDim S96x1 ![] bcast_S_S96x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S96x1 ![0, 1] bcast_S1x1_S96x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S96x1_S96_d1 h_S_),
    StableHlo.TRef.binary (.of main_v1 : TRef sig ⟨S4096x16x128, .f32⟩) main_call3.v5 main_call3.v13 (fun x i => Host.gather gather_S4096x16x128_S96x1_S4096x96x128_02_1_n_n_1_1_40961128 x i),
    StableHlo.TRef.unary main_call3.v12 main_call3.v14 (broadcastInDim S4096x96x128 ![1] bcast_S96_S4096x96x128_1),
    StableHlo.TRef.nullary main_call3.cst (constant S_ .f32 0x7FC00000#32),
    StableHlo.TRef.unary main_call3.cst main_call3.v15 (broadcastInDim S4096x96x128 ![] bcast_S_S4096x96x128),
    StableHlo.TRef.ternary main_call3.v14 main_call3.v13 main_call3.v15 main_call3.v16 select ]

abbrev ops4 : List (HloOp τ sig (Elt F)) :=
  [ StableHlo.binary main_v33 main_v36 main_v37 mulf,
    StableHlo.unary main_arg7 main_v38 (extractStridedSlice S96x1 ![0, 1] · slices_S96x4_S96x1_0_1),
    StableHlo.reshape main_v38 main_v39 rfl shapeCasts_S96x1_S96,
    StableHlo.TRef.nullary main_call4.c (constantI S_ 32 0#32),
    StableHlo.TRef.unary main_call4.c main_call4.v0 (broadcastInDim S96 ![] bcast_S_S96),
    StableHlo.TRef.binary (.of main_v39 : TRef sig ⟨S96, .i32⟩) main_call4.v0 main_call4.v1 (cmpi .slt),
    StableHlo.TRef.nullary main_call4.c_0 (constantI S_ 32 16#32),
    StableHlo.TRef.unary main_call4.c_0 main_call4.v2 (broadcastInDim S96 ![] bcast_S_S96),
    StableHlo.TRef.binary (.of main_v39 : TRef sig ⟨S96, .i32⟩) main_call4.v2 main_call4.v3 addi,
    StableHlo.TRef.ternary main_call4.v1 main_call4.v3 (.of main_v39 : TRef sig ⟨S96, .i32⟩) main_call4.call0.v0 select,
    StableHlo.TRef.unary main_call4.call0.v0 main_call4.v5 (broadcastInDim S96x1 ![0] bcast_S96_S96x1_0),
    StableHlo.TRef.nullary main_call4.c_1 (constantI S1 32 15#32),
    StableHlo.TRef.nullary main_call4.c_2 (constantI S_ 32 0#32),
    StableHlo.TRef.unary main_call4.c_2 main_call4.v6 (broadcastInDim S96x1 ![] bcast_S_S96x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S96x1 ![0, 1] bcast_S1x1_S96x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S96x1_S96_d1 h_S_),
    StableHlo.TRef.binary (.of main_v1 : TRef sig ⟨S4096x16x128, .f32⟩) main_call4.v5 main_call4.v13 (fun x i => Host.gather gather_S4096x16x128_S96x1_S4096x96x128_02_1_n_n_1_1_40961128 x i),
    StableHlo.TRef.unary main_call4.v12 main_call4.v14 (broadcastInDim S4096x96x128 ![1] bcast_S96_S4096x96x128_1),
    StableHlo.TRef.nullary main_call4.cst (constant S_ .f32 0x7FC00000#32),
    StableHlo.TRef.unary main_call4.cst main_call4.v15 (broadcastInDim S4096x96x128 ![] bcast_S_S4096x96x128),
    StableHlo.TRef.ternary main_call4.v14 main_call4.v13 main_call4.v15 main_call4.v16 select ]

abbrev ops5 : List (HloOp τ sig (Elt F)) :=
  [ StableHlo.binary main_v37 main_v40 main_v41 mulf,
    StableHlo.unary main_v41 main_v42 (transpose S96x4096x128 [1, 0, 2] · transposes_S4096x96x128_S96x4096x128_1_0_2),
    StableHlo.unary main_arg7 main_v43 (extractStridedSlice S96x1 ![0, 3] · slices_S96x4_S96x1_0_3),
    StableHlo.reshape main_v43 main_v44 rfl shapeCasts_S96x1_S96,
    StableHlo.nullary main_cst_2 (constant S_ .f32 0x00000000#32),
    StableHlo.unary main_cst_2 main_v45 (broadcastInDim S16x4096x128 ![] bcast_S_S16x4096x128),
    StableHlo.unary main_v44 main_v46 (broadcastInDim S96x1 ![0] bcast_S96_S96x1_0),
    StableHlo.ternary main_v45 main_v46 main_v42 main_v47 (fun x i u => Host.scatterAdd scatter_S16x4096x128_S96x1_S96x4096x128_12_0_0_1 x i u),
    StableHlo.unary main_v47 main_v48 (transpose S4096x16x128 [1, 0, 2] · transposes_S16x4096x128_S4096x16x128_1_0_2),
    StableHlo.binary main_v27 main_v48 main_v49 addf,
    StableHlo.unary main_arg8 main_v50 (extractStridedSlice S128x1 ![0, 3] · slices_S128x5_S128x1_0_3),
    StableHlo.reshape main_v50 main_v51 rfl shapeCasts_S128x1_S128,
    StableHlo.TRef.nullary main_call5.c (constantI S_ 32 0#32),
    StableHlo.TRef.unary main_call5.c main_call5.v0 (broadcastInDim S128 ![] bcast_S_S128),
    StableHlo.TRef.binary (.of main_v51 : TRef sig ⟨S128, .i32⟩) main_call5.v0 main_call5.v1 (cmpi .slt),
    StableHlo.TRef.nullary main_call5.c_0 (constantI S_ 32 16#32),
    StableHlo.TRef.unary main_call5.c_0 main_call5.v2 (broadcastInDim S128 ![] bcast_S_S128),
    StableHlo.TRef.binary (.of main_v51 : TRef sig ⟨S128, .i32⟩) main_call5.v2 main_call5.v3 addi,
    StableHlo.TRef.ternary main_call5.v1 main_call5.v3 (.of main_v51 : TRef sig ⟨S128, .i32⟩) main_call5.call0.v0 select,
    StableHlo.TRef.unary main_call5.call0.v0 main_call5.v5 (broadcastInDim S128x1 ![0] bcast_S128_S128x1_0),
    StableHlo.TRef.nullary main_call5.c_1 (constantI S1 32 15#32),
    StableHlo.TRef.nullary main_call5.c_2 (constantI S_ 32 0#32),
    StableHlo.TRef.unary main_call5.c_2 main_call5.v6 (broadcastInDim S128x1 ![] bcast_S_S128x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S128x1 ![0, 1] bcast_S1x1_S128x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S128x1_S128_d1 h_S_),
    StableHlo.TRef.binary (.of main_v8 : TRef sig ⟨S4096x16x128, .f32⟩) main_call5.v5 main_call5.v13 (fun x i => Host.gather gather_S4096x16x128_S128x1_S4096x128x128_02_1_n_n_1_1_40961128 x i),
    StableHlo.TRef.unary main_call5.v12 main_call5.v14 (broadcastInDim S4096x128x128 ![1] bcast_S128_S4096x128x128_1),
    StableHlo.TRef.nullary main_call5.cst (constant S_ .f32 0x7FC00000#32),
    StableHlo.TRef.unary main_call5.cst main_call5.v15 (broadcastInDim S4096x128x128 ![] bcast_S_S4096x128x128),
    StableHlo.TRef.ternary main_call5.v14 main_call5.v13 main_call5.v15 main_call5.v16 select,
    StableHlo.unary main_arg4 main_v53 (broadcastInDim S1x128x1 ![1] bcast_S128_S1x128x1_1),
    StableHlo.unary main_v53 main_v54 (broadcastInDim S4096x128x128 ![0, 1, 2] bcast_S1x128x1_S4096x128x128_0_1_2) ]

abbrev ops6 : List (HloOp τ sig (Elt F)) :=
  [ StableHlo.binary main_v52 main_v54 main_v55 mulf,
    StableHlo.unary main_arg8 main_v56 (extractStridedSlice S128x1 ![0, 0] · slices_S128x5_S128x1_0_0),
    StableHlo.reshape main_v56 main_v57 rfl shapeCasts_S128x1_S128,
    StableHlo.TRef.nullary main_call6.c (constantI S_ 32 0#32),
    StableHlo.TRef.unary main_call6.c main_call6.v0 (broadcastInDim S128 ![] bcast_S_S128),
    StableHlo.TRef.binary (.of main_v57 : TRef sig ⟨S128, .i32⟩) main_call6.v0 main_call6.v1 (cmpi .slt),
    StableHlo.TRef.nullary main_call6.c_0 (constantI S_ 32 16#32),
    StableHlo.TRef.unary main_call6.c_0 main_call6.v2 (broadcastInDim S128 ![] bcast_S_S128),
    StableHlo.TRef.binary (.of main_v57 : TRef sig ⟨S128, .i32⟩) main_call6.v2 main_call6.v3 addi,
    StableHlo.TRef.ternary main_call6.v1 main_call6.v3 (.of main_v57 : TRef sig ⟨S128, .i32⟩) main_call6.call0.v0 select,
    StableHlo.TRef.unary main_call6.call0.v0 main_call6.v5 (broadcastInDim S128x1 ![0] bcast_S128_S128x1_0),
    StableHlo.TRef.nullary main_call6.c_1 (constantI S1 32 15#32),
    StableHlo.TRef.nullary main_call6.c_2 (constantI S_ 32 0#32),
    StableHlo.TRef.unary main_call6.c_2 main_call6.v6 (broadcastInDim S128x1 ![] bcast_S_S128x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S128x1 ![0, 1] bcast_S1x1_S128x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S128x1_S128_d1 h_S_),
    StableHlo.TRef.binary (.of main_v1 : TRef sig ⟨S4096x16x128, .f32⟩) main_call6.v5 main_call6.v13 (fun x i => Host.gather gather_S4096x16x128_S128x1_S4096x128x128_02_1_n_n_1_1_40961128 x i),
    StableHlo.TRef.unary main_call6.v12 main_call6.v14 (broadcastInDim S4096x128x128 ![1] bcast_S128_S4096x128x128_1),
    StableHlo.TRef.nullary main_call6.cst (constant S_ .f32 0x7FC00000#32),
    StableHlo.TRef.unary main_call6.cst main_call6.v15 (broadcastInDim S4096x128x128 ![] bcast_S_S4096x128x128),
    StableHlo.TRef.ternary main_call6.v14 main_call6.v13 main_call6.v15 main_call6.v16 select ]

abbrev ops7 : List (HloOp τ sig (Elt F)) :=
  [ StableHlo.binary main_v55 main_v58 main_v59 mulf,
    StableHlo.unary main_arg8 main_v60 (extractStridedSlice S128x1 ![0, 1] · slices_S128x5_S128x1_0_1),
    StableHlo.reshape main_v60 main_v61 rfl shapeCasts_S128x1_S128,
    StableHlo.TRef.nullary main_call7.c (constantI S_ 32 0#32),
    StableHlo.TRef.unary main_call7.c main_call7.v0 (broadcastInDim S128 ![] bcast_S_S128),
    StableHlo.TRef.binary (.of main_v61 : TRef sig ⟨S128, .i32⟩) main_call7.v0 main_call7.v1 (cmpi .slt),
    StableHlo.TRef.nullary main_call7.c_0 (constantI S_ 32 16#32),
    StableHlo.TRef.unary main_call7.c_0 main_call7.v2 (broadcastInDim S128 ![] bcast_S_S128),
    StableHlo.TRef.binary (.of main_v61 : TRef sig ⟨S128, .i32⟩) main_call7.v2 main_call7.v3 addi,
    StableHlo.TRef.ternary main_call7.v1 main_call7.v3 (.of main_v61 : TRef sig ⟨S128, .i32⟩) main_call7.call0.v0 select,
    StableHlo.TRef.unary main_call7.call0.v0 main_call7.v5 (broadcastInDim S128x1 ![0] bcast_S128_S128x1_0),
    StableHlo.TRef.nullary main_call7.c_1 (constantI S1 32 15#32),
    StableHlo.TRef.nullary main_call7.c_2 (constantI S_ 32 0#32),
    StableHlo.TRef.unary main_call7.c_2 main_call7.v6 (broadcastInDim S128x1 ![] bcast_S_S128x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S128x1 ![0, 1] bcast_S1x1_S128x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S128x1_S128_d1 h_S_),
    StableHlo.TRef.binary (.of main_v1 : TRef sig ⟨S4096x16x128, .f32⟩) main_call7.v5 main_call7.v13 (fun x i => Host.gather gather_S4096x16x128_S128x1_S4096x128x128_02_1_n_n_1_1_40961128 x i),
    StableHlo.TRef.unary main_call7.v12 main_call7.v14 (broadcastInDim S4096x128x128 ![1] bcast_S128_S4096x128x128_1),
    StableHlo.TRef.nullary main_call7.cst (constant S_ .f32 0x7FC00000#32),
    StableHlo.TRef.unary main_call7.cst main_call7.v15 (broadcastInDim S4096x128x128 ![] bcast_S_S4096x128x128),
    StableHlo.TRef.ternary main_call7.v14 main_call7.v13 main_call7.v15 main_call7.v16 select ]

abbrev ops8 : List (HloOp τ sig (Elt F)) :=
  [ StableHlo.binary main_v59 main_v62 main_v63 mulf,
    StableHlo.unary main_arg8 main_v64 (extractStridedSlice S128x1 ![0, 2] · slices_S128x5_S128x1_0_2),
    StableHlo.reshape main_v64 main_v65 rfl shapeCasts_S128x1_S128,
    StableHlo.TRef.nullary main_call8.c (constantI S_ 32 0#32),
    StableHlo.TRef.unary main_call8.c main_call8.v0 (broadcastInDim S128 ![] bcast_S_S128),
    StableHlo.TRef.binary (.of main_v65 : TRef sig ⟨S128, .i32⟩) main_call8.v0 main_call8.v1 (cmpi .slt),
    StableHlo.TRef.nullary main_call8.c_0 (constantI S_ 32 16#32),
    StableHlo.TRef.unary main_call8.c_0 main_call8.v2 (broadcastInDim S128 ![] bcast_S_S128),
    StableHlo.TRef.binary (.of main_v65 : TRef sig ⟨S128, .i32⟩) main_call8.v2 main_call8.v3 addi,
    StableHlo.TRef.ternary main_call8.v1 main_call8.v3 (.of main_v65 : TRef sig ⟨S128, .i32⟩) main_call8.call0.v0 select,
    StableHlo.TRef.unary main_call8.call0.v0 main_call8.v5 (broadcastInDim S128x1 ![0] bcast_S128_S128x1_0),
    StableHlo.TRef.nullary main_call8.c_1 (constantI S1 32 15#32),
    StableHlo.TRef.nullary main_call8.c_2 (constantI S_ 32 0#32),
    StableHlo.TRef.unary main_call8.c_2 main_call8.v6 (broadcastInDim S128x1 ![] bcast_S_S128x1),
    StableHlo.TRef.binary main_call8.v5 main_call8.v6 main_call8.v7 (cmpi .sge),
    StableHlo.TRef.unary main_call8.c_1 main_call8.v8 (broadcastInDim S1x1 ![1] bcast_S1_S1x1_1),
    StableHlo.TRef.unary main_call8.v8 main_call8.v9 (broadcastInDim S128x1 ![0, 1] bcast_S1x1_S128x1_0_1),
    StableHlo.TRef.binary main_call8.v5 main_call8.v9 main_call8.v10 (cmpi .sle),
    StableHlo.TRef.binary main_call8.v7 main_call8.v10 main_call8.v11 andi,
    StableHlo.TRef.nullary main_call8.c_3 (constantI S_ 1 1#1),
    StableHlo.TRef.binary main_call8.v11 main_call8.c_3 main_call8.v12 (fun x v => Host.reduce IntOp.andi x v reducesTo_S128x1_S128_d1 h_S_),
    StableHlo.TRef.binary (.of main_v1 : TRef sig ⟨S4096x16x128, .f32⟩) main_call8.v5 main_call8.v13 (fun x i => Host.gather gather_S4096x16x128_S128x1_S4096x128x128_02_1_n_n_1_1_40961128 x i),
    StableHlo.TRef.unary main_call8.v12 main_call8.v14 (broadcastInDim S4096x128x128 ![1] bcast_S128_S4096x128x128_1),
    StableHlo.TRef.nullary main_call8.cst (constant S_ .f32 0x7FC00000#32),
    StableHlo.TRef.unary main_call8.cst main_call8.v15 (broadcastInDim S4096x128x128 ![] bcast_S_S4096x128x128),
    StableHlo.TRef.ternary main_call8.v14 main_call8.v13 main_call8.v15 main_call8.v16 select ]

abbrev ops9 : List (HloOp τ sig (Elt F)) :=
  [ StableHlo.binary main_v63 main_v66 main_v67 mulf,
    StableHlo.unary main_v67 main_v68 (transpose S128x4096x128 [1, 0, 2] · transposes_S4096x128x128_S128x4096x128_1_0_2),
    StableHlo.unary main_arg8 main_v69 (extractStridedSlice S128x1 ![0, 4] · slices_S128x5_S128x1_0_4),
    StableHlo.reshape main_v69 main_v70 rfl shapeCasts_S128x1_S128,
    StableHlo.nullary main_cst_3 (constant S_ .f32 0x00000000#32),
    StableHlo.unary main_cst_3 main_v71 (broadcastInDim S16x4096x128 ![] bcast_S_S16x4096x128),
    StableHlo.unary main_v70 main_v72 (broadcastInDim S128x1 ![0] bcast_S128_S128x1_0),
    StableHlo.ternary main_v71 main_v72 main_v68 main_v73 (fun x i u => Host.scatterAdd scatter_S16x4096x128_S128x1_S128x4096x128_12_0_0_1 x i u),
    StableHlo.unary main_v73 main_v74 (transpose S4096x16x128 [1, 0, 2] · transposes_S16x4096x128_S4096x16x128_1_0_2),
    StableHlo.binary main_v49 main_v74 main_v75 addf,
    StableHlo.reshape main_v75 main_v76 rfl shapeCasts_S4096x16x128_S4096x2048 ]

end Cert.ReferenceIdeal.RefOps

end
-- ==== Proof.RefTerm.lean ====
import proofs.«426359_j52879637348696_1_alg».proof.ReferenceIdeal

noncomputable section

namespace Cert.ReferenceIdeal.RefTerm

open Idealize.ShloMosaic Idealize.SL.Sem
open Cert.ReferenceIdeal Cert.ReferenceIdeal.Facts₀ Cert.ReferenceIdeal.Facts

variable {F : FTy → Type} [FloatOps F] [Cert.ReferenceIdeal.Facts]

/-- The fill-mode take of `P` segments along the middle axis: a negative segment number is wrapped by `+16`, and a number outside `[0, 15]` is answered by NaN. The same at the three path counts. -/
def take32 (x : FVec F S4096x16x128 .f32) (i : IVec S32 32) : FVec F S4096x32x128 .f32 :=
  let c : IVec S_ 32 := constantI S_ 32 0#32
  let v0 : IVec S32 32 := broadcastInDim S32 ![] bcast_S_S32 c
  let v1 : IVec S32 1 := cmpi .slt i v0
  let c_0 : IVec S_ 32 := constantI S_ 32 16#32
  let v2 : IVec S32 32 := broadcastInDim S32 ![] bcast_S_S32 c_0
  let v3 : IVec S32 32 := addi i v2
  let v4 : IVec S32 32 := select v1 v3 i
  let v5 : IVec S32x1 32 := broadcastInDim S32x1 ![0] bcast_S32_S32x1_0 v4
  let c_1 : IVec S1 32 := constantI S1 32 15#32
  let c_2 : IVec S_ 32 := constantI S_ 32 0#32
  let v6 : IVec S32x1 32 := broadcastInDim S32x1 ![] bcast_S_S32x1 c_2
  let v7 : IVec S32x1 1 := cmpi .sge v5 v6
  let v8 : IVec S1x1 32 := broadcastInDim S1x1 ![1] bcast_S1_S1x1_1 c_1
  let v9 : IVec S32x1 32 := broadcastInDim S32x1 ![0, 1] bcast_S1x1_S32x1_0_1 v8
  let v10 : IVec S32x1 1 := cmpi .sle v5 v9
  let v11 : IVec S32x1 1 := andi v7 v10
  let c_3 : IVec S_ 1 := constantI S_ 1 1#1
  let v12 : IVec S32 1 := Host.reduce IntOp.andi v11 c_3 reducesTo_S32x1_S32_d1 h_S_
  let v13 : FVec F S4096x32x128 .f32 := Host.gather gather_S4096x16x128_S32x1_S4096x32x128_02_1_n_n_1_1_40961128 x v5
  let v14 : IVec S4096x32x128 1 := broadcastInDim S4096x32x128 ![1] bcast_S32_S4096x32x128_1 v12
  let cst : FVec F S_ .f32 := constant S_ .f32 0x7FC00000#32
  let v15 : FVec F S4096x32x128 .f32 := broadcastInDim S4096x32x128 ![] bcast_S_S4096x32x128 cst
  select v14 v13 v15

def take96 (x : FVec F S4096x16x128 .f32) (i : IVec S96 32) : FVec F S4096x96x128 .f32 :=
  let c : IVec S_ 32 := constantI S_ 32 0#32
  let v0 : IVec S96 32 := broadcastInDim S96 ![] bcast_S_S96 c
  let v1 : IVec S96 1 := cmpi .slt i v0
  let c_0 : IVec S_ 32 := constantI S_ 32 16#32
  let v2 : IVec S96 32 := broadcastInDim S96 ![] bcast_S_S96 c_0
  let v3 : IVec S96 32 := addi i v2
  let v4 : IVec S96 32 := select v1 v3 i
  let v5 : IVec S96x1 32 := broadcastInDim S96x1 ![0] bcast_S96_S96x1_0 v4
  let c_1 : IVec S1 32 := constantI S1 32 15#32
  let c_2 : IVec S_ 32 := constantI S_ 32 0#32
  let v6 : IVec S96x1 32 := broadcastInDim S96x1 ![] bcast_S_S96x1 c_2
  let v7 : IVec S96x1 1 := cmpi .sge v5 v6
  let v8 : IVec S1x1 32 := broadcastInDim S1x1 ![1] bcast_S1_S1x1_1 c_1
  let v9 : IVec S96x1 32 := broadcastInDim S96x1 ![0, 1] bcast_S1x1_S96x1_0_1 v8
  let v10 : IVec S96x1 1 := cmpi .sle v5 v9
  let v11 : IVec S96x1 1 := andi v7 v10
  let c_3 : IVec S_ 1 := constantI S_ 1 1#1
  let v12 : IVec S96 1 := Host.reduce IntOp.andi v11 c_3 reducesTo_S96x1_S96_d1 h_S_
  let v13 : FVec F S4096x96x128 .f32 := Host.gather gather_S4096x16x128_S96x1_S4096x96x128_02_1_n_n_1_1_40961128 x v5
  let v14 : IVec S4096x96x128 1 := broadcastInDim S4096x96x128 ![1] bcast_S96_S4096x96x128_1 v12
  let cst : FVec F S_ .f32 := constant S_ .f32 0x7FC00000#32
  let v15 : FVec F S4096x96x128 .f32 := broadcastInDim S4096x96x128 ![] bcast_S_S4096x96x128 cst
  select v14 v13 v15

def take128 (x : FVec F S4096x16x128 .f32) (i : IVec S128 32) : FVec F S4096x128x128 .f32 :=
  let c : IVec S_ 32 := constantI S_ 32 0#32
  let v0 : IVec S128 32 := broadcastInDim S128 ![] bcast_S_S128 c
  let v1 : IVec S128 1 := cmpi .slt i v0
  let c_0 : IVec S_ 32 := constantI S_ 32 16#32
  let v2 : IVec S128 32 := broadcastInDim S128 ![] bcast_S_S128 c_0
  let v3 : IVec S128 32 := addi i v2
  let v4 : IVec S128 32 := select v1 v3 i
  let v5 : IVec S128x1 32 := broadcastInDim S128x1 ![0] bcast_S128_S128x1_0 v4
  let c_1 : IVec S1 32 := constantI S1 32 15#32
  let c_2 : IVec S_ 32 := constantI S_ 32 0#32
  let v6 : IVec S128x1 32 := broadcastInDim S128x1 ![] bcast_S_S128x1 c_2
  let v7 : IVec S128x1 1 := cmpi .sge v5 v6
  let v8 : IVec S1x1 32 := broadcastInDim S1x1 ![1] bcast_S1_S1x1_1 c_1
  let v9 : IVec S128x1 32 := broadcastInDim S128x1 ![0, 1] bcast_S1x1_S128x1_0_1 v8
  let v10 : IVec S128x1 1 := cmpi .sle v5 v9
  let v11 : IVec S128x1 1 := andi v7 v10
  let c_3 : IVec S_ 1 := constantI S_ 1 1#1
  let v12 : IVec S128 1 := Host.reduce IntOp.andi v11 c_3 reducesTo_S128x1_S128_d1 h_S_
  let v13 : FVec F S4096x128x128 .f32 := Host.gather gather_S4096x16x128_S128x1_S4096x128x128_02_1_n_n_1_1_40961128 x v5
  let v14 : IVec S4096x128x128 1 := broadcastInDim S4096x128x128 ![1] bcast_S128_S4096x128x128_1 v12
  let cst : FVec F S_ .f32 := constant S_ .f32 0x7FC00000#32
  let v15 : FVec F S4096x128x128 .f32 := broadcastInDim S4096x128x128 ![] bcast_S_S4096x128x128 cst
  select v14 v13 v15

/-- The rows of `x0` the nodes name, as rows of 16 segments (a negative row index wrapped by `+64`). -/
def x0g (a0 : FVec F S64x2048 .f32) (a5 : IVec S4096 32) : FVec F S4096x16x128 .f32 :=
  let main_v0 : FVec F S64x16x128 .f32 := shapeCast S64x16x128 a0 shapeCasts_S64x2048_S64x16x128
  let main_c : IVec S_ 32 := constantI S_ 32 0#32
  let main_v2 : IVec S4096 32 := broadcastInDim S4096 ![] bcast_S_S4096 main_c
  let main_v3 : IVec S4096 1 := cmpi .slt a5 main_v2
  let main_c_0 : IVec S_ 32 := constantI S_ 32 64#32
  let main_v4 : IVec S4096 32 := broadcastInDim S4096 ![] bcast_S_S4096 main_c_0
  let main_v5 : IVec S4096 32 := addi a5 main_v4
  let main_v6 : IVec S4096 32 := select main_v3 main_v5 a5
  let main_v7 : IVec S4096x1 32 := broadcastInDim S4096x1 ![0] bcast_S4096_S4096x1_0 main_v6
  let main_v8 : FVec F S4096x16x128 .f32 := Host.gather gather_S64x16x128_S4096x1_S4096x16x128_12_0_n_n_0_1_116128 main_v0 main_v7
  main_v8

/-- One degree: the paths' products of their taken segments and coefficients, scatter-added over the segment axis into a zero array. -/
def deg1 (main_v8 main_v1 : FVec F S4096x16x128 .f32) (a2 : FVec F S32 .f32) (a6 : IVec S32x3 32) :
    FVec F S4096x16x128 .f32 :=
  let main_v10 : IVec S32x1 32 := extractStridedSlice S32x1 ![0, 1] a6 slices_S32x3_S32x1_0_1
  let main_v11 : IVec S32 32 := shapeCast S32 main_v10 shapeCasts_S32x1_S32
  let main_v12 : FVec F S4096x32x128 .f32 := take32 main_v8 main_v11
  let main_v13 : FVec F S1x32x1 .f32 := broadcastInDim S1x32x1 ![1] bcast_S32_S1x32x1_1 a2
  let main_v14 : FVec F S4096x32x128 .f32 := broadcastInDim S4096x32x128 ![0, 1, 2] bcast_S1x32x1_S4096x32x128_0_1_2 main_v13
  let main_v15 : FVec F S4096x32x128 .f32 := mulf main_v12 main_v14
  let main_v16 : IVec S32x1 32 := extractStridedSlice S32x1 ![0, 0] a6 slices_S32x3_S32x1_0_0
  let main_v17 : IVec S32 32 := shapeCast S32 main_v16 shapeCasts_S32x1_S32
  let main_v18 : FVec F S4096x32x128 .f32 := take32 main_v1 main_v17
  let main_v19 : FVec F S4096x32x128 .f32 := mulf main_v15 main_v18
  let main_v20 : FVec F S32x4096x128 .f32 := transpose S32x4096x128 [1, 0, 2] main_v19 transposes_S4096x32x128_S32x4096x128_1_0_2
  let main_v21 : IVec S32x1 32 := extractStridedSlice S32x1 ![0, 2] a6 slices_S32x3_S32x1_0_2
  let main_v22 : IVec S32 32 := shapeCast S32 main_v21 shapeCasts_S32x1_S32
  let main_cst_1 : FVec F S_ .f32 := constant S_ .f32 0x00000000#32
  let main_v23 : FVec F S16x4096x128 .f32 := broadcastInDim S16x4096x128 ![] bcast_S_S16x4096x128 main_cst_1
  let main_v24 : IVec S32x1 32 := broadcastInDim S32x1 ![0] bcast_S32_S32x1_0 main_v22
  let main_v25 : FVec F S16x4096x128 .f32 := Host.scatterAdd scatter_S16x4096x128_S32x1_S32x4096x128_12_0_0_1 main_v23 main_v24 main_v20
  let main_v26 : FVec F S4096x16x128 .f32 := transpose S4096x16x128 [1, 0, 2] main_v25 transposes_S16x4096x128_S4096x16x128_1_0_2
  main_v26

def deg2 (main_v8 main_v1 : FVec F S4096x16x128 .f32) (a3 : FVec F S96 .f32) (a7 : IVec S96x4 32) :
    FVec F S4096x16x128 .f32 :=
  let main_v28 : IVec S96x1 32 := extractStridedSlice S96x1 ![0, 2] a7 slices_S96x4_S96x1_0_2
  let main_v29 : IVec S96 32 := shapeCast S96 main_v28 shapeCasts_S96x1_S96
  let main_v30 : FVec F S4096x96x128 .f32 := take96 main_v8 main_v29
  let main_v31 : FVec F S1x96x1 .f32 := broadcastInDim S1x96x1 ![1] bcast_S96_S1x96x1_1 a3
  let main_v32 : FVec F S4096x96x128 .f32 := broadcastInDim S4096x96x128 ![0, 1, 2] bcast_S1x96x1_S4096x96x128_0_1_2 main_v31
  let main_v33 : FVec F S4096x96x128 .f32 := mulf main_v30 main_v32
  let main_v34 : IVec S96x1 32 := extractStridedSlice S96x1 ![0, 0] a7 slices_S96x4_S96x1_0_0
  let main_v35 : IVec S96 32 := shapeCast S96 main_v34 shapeCasts_S96x1_S96
  let main_v36 : FVec F S4096x96x128 .f32 := take96 main_v1 main_v35
  let main_v37 : FVec F S4096x96x128 .f32 := mulf main_v33 main_v36
  let main_v38 : IVec S96x1 32 := extractStridedSlice S96x1 ![0, 1] a7 slices_S96x4_S96x1_0_1
  let main_v39 : IVec S96 32 := shapeCast S96 main_v38 shapeCasts_S96x1_S96
  let main_v40 : FVec F S4096x96x128 .f32 := take96 main_v1 main_v39
  let main_v41 : FVec F S4096x96x128 .f32 := mulf main_v37 main_v40
  let main_v42 : FVec F S96x4096x128 .f32 := transpose S96x4096x128 [1, 0, 2] main_v41 transposes_S4096x96x128_S96x4096x128_1_0_2
  let main_v43 : IVec S96x1 32 := extractStridedSlice S96x1 ![0, 3] a7 slices_S96x4_S96x1_0_3
  let main_v44 : IVec S96 32 := shapeCast S96 main_v43 shapeCasts_S96x1_S96
  let main_cst_2 : FVec F S_ .f32 := constant S_ .f32 0x00000000#32
  let main_v45 : FVec F S16x4096x128 .f32 := broadcastInDim S16x4096x128 ![] bcast_S_S16x4096x128 main_cst_2
  let main_v46 : IVec S96x1 32 := broadcastInDim S96x1 ![0] bcast_S96_S96x1_0 main_v44
  let main_v47 : FVec F S16x4096x128 .f32 := Host.scatterAdd scatter_S16x4096x128_S96x1_S96x4096x128_12_0_0_1 main_v45 main_v46 main_v42
  let main_v48 : FVec F S4096x16x128 .f32 := transpose S4096x16x128 [1, 0, 2] main_v47 transposes_S16x4096x128_S4096x16x128_1_0_2
  main_v48

def deg3 (main_v8 main_v1 : FVec F S4096x16x128 .f32) (a4 : FVec F S128 .f32) (a8 : IVec S128x5 32) :
    FVec F S4096x16x128 .f32 :=
  let main_v50 : IVec S128x1 32 := extractStridedSlice S128x1 ![0, 3] a8 slices_S128x5_S128x1_0_3
  let main_v51 : IVec S128 32 := shapeCast S128 main_v50 shapeCasts_S128x1_S128
  let main_v52 : FVec F S4096x128x128 .f32 := take128 main_v8 main_v51
  let main_v53 : FVec F S1x128x1 .f32 := broadcastInDim S1x128x1 ![1] bcast_S128_S1x128x1_1 a4
  let main_v54 : FVec F S4096x128x128 .f32 := broadcastInDim S4096x128x128 ![0, 1, 2] bcast_S1x128x1_S4096x128x128_0_1_2 main_v53
  let main_v55 : FVec F S4096x128x128 .f32 := mulf main_v52 main_v54
  let main_v56 : IVec S128x1 32 := extractStridedSlice S128x1 ![0, 0] a8 slices_S128x5_S128x1_0_0
  let main_v57 : IVec S128 32 := shapeCast S128 main_v56 shapeCasts_S128x1_S128
  let main_v58 : FVec F S4096x128x128 .f32 := take128 main_v1 main_v57
  let main_v59 : FVec F S4096x128x128 .f32 := mulf main_v55 main_v58
  let main_v60 : IVec S128x1 32 := extractStridedSlice S128x1 ![0, 1] a8 slices_S128x5_S128x1_0_1
  let main_v61 : IVec S128 32 := shapeCast S128 main_v60 shapeCasts_S128x1_S128
  let main_v62 : FVec F S4096x128x128 .f32 := take128 main_v1 main_v61
  let main_v63 : FVec F S4096x128x128 .f32 := mulf main_v59 main_v62
  let main_v64 : IVec S128x1 32 := extractStridedSlice S128x1 ![0, 2] a8 slices_S128x5_S128x1_0_2
  let main_v65 : IVec S128 32 := shapeCast S128 main_v64 shapeCasts_S128x1_S128
  let main_v66 : FVec F S4096x128x128 .f32 := take128 main_v1 main_v65
  let main_v67 : FVec F S4096x128x128 .f32 := mulf main_v63 main_v66
  let main_v68 : FVec F S128x4096x128 .f32 := transpose S128x4096x128 [1, 0, 2] main_v67 transposes_S4096x128x128_S128x4096x128_1_0_2
  let main_v69 : IVec S128x1 32 := extractStridedSlice S128x1 ![0, 4] a8 slices_S128x5_S128x1_0_4
  let main_v70 : IVec S128 32 := shapeCast S128 main_v69 shapeCasts_S128x1_S128
  let main_cst_3 : FVec F S_ .f32 := constant S_ .f32 0x00000000#32
  let main_v71 : FVec F S16x4096x128 .f32 := broadcastInDim S16x4096x128 ![] bcast_S_S16x4096x128 main_cst_3
  let main_v72 : IVec S128x1 32 := broadcastInDim S128x1 ![0] bcast_S128_S128x1_0 main_v70
  let main_v73 : FVec F S16x4096x128 .f32 := Host.scatterAdd scatter_S16x4096x128_S128x1_S128x4096x128_12_0_0_1 main_v71 main_v72 main_v68
  let main_v74 : FVec F S4096x16x128 .f32 := transpose S4096x16x128 [1, 0, 2] main_v73 transposes_S16x4096x128_S4096x16x128_1_0_2
  main_v74

/-- The reference's result as one term of its nine arguments: the three degrees added onto a zero array. -/
def refOut (a0 : FVec F S64x2048 .f32) (a1 : FVec F S4096x2048 .f32) (a2 : FVec F S32 .f32) (a3 : FVec F S96 .f32)
    (a4 : FVec F S128 .f32) (a5 : IVec S4096 32) (a6 : IVec S32x3 32) (a7 : IVec S96x4 32) (a8 : IVec S128x5 32) :
    FVec F S4096x2048 .f32 :=
  let main_v1 : FVec F S4096x16x128 .f32 := shapeCast S4096x16x128 a1 shapeCasts_S4096x2048_S4096x16x128
  let main_v8 : FVec F S4096x16x128 .f32 := x0g a0 a5
  let main_cst : FVec F S_ .f32 := constant S_ .f32 0x00000000#32
  let main_v9 : FVec F S4096x16x128 .f32 := broadcastInDim S4096x16x128 ![] bcast_S_S4096x16x128 main_cst
  let main_v26 : FVec F S4096x16x128 .f32 := deg1 main_v8 main_v1 a2 a6
  let main_v27 : FVec F S4096x16x128 .f32 := addf main_v9 main_v26
  let main_v48 : FVec F S4096x16x128 .f32 := deg2 main_v8 main_v1 a3 a7
  let main_v49 : FVec F S4096x16x128 .f32 := addf main_v27 main_v48
  let main_v74 : FVec F S4096x16x128 .f32 := deg3 main_v8 main_v1 a4 a8
  let main_v75 : FVec F S4096x16x128 .f32 := addf main_v49 main_v74
  shapeCast S4096x2048 main_v75 shapeCasts_S4096x16x128_S4096x2048

end Cert.ReferenceIdeal.RefTerm

end
-- ==== Proof.RefRun.lean ====
import proofs.«426359_j52879637348696_1_alg».proof.Proof.RefOps
import proofs.«426359_j52879637348696_1_alg».proof.Proof.RefTerm
import Idealize.ShloMosaic.Lib.StableHlo.Run
import Idealize.ShloMosaic.Lib.Pipeline.Frame
import Idealize.ShloMosaic.PureOps.Ideal

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts
open Cert.ReferenceIdeal.RefOps Cert.ReferenceIdeal.RefTerm

variable {F : FTy → Type} [FloatOps F] [Cert.ReferenceIdeal.Facts]

local notation "⟪" b "⟫" => Proc.devRef Proc.tc b

abbrev opsA : List (HloOp τ sig (Elt F)) := ops0 ++ (ops1 ++ (ops2 ++ (ops3 ++ (ops4 ++ ops5))))
abbrev opsB : List (HloOp τ sig (Elt F)) := ops6 ++ (ops7 ++ (ops8 ++ ops9))
abbrev ops : List (HloOp τ sig (Elt F)) := opsA ++ opsB

set_option maxRecDepth 8192 in
set_option maxHeartbeats 4000000 in
theorem part0_eq (c : Dev nD) : main_part0 (F := F) c = seq opsA := rfl
set_option maxRecDepth 8192 in
set_option maxHeartbeats 4000000 in
theorem part1_eq (c : Dev nD) : main_part1 (F := F) c = seq opsB := rfl
theorem main_eq (c : Dev nD) : main (F := F) c = seq ops := by
  rw [ops, seq_append, ← part0_eq c, ← part1_eq c]; rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, opsA, opsB, List.forall_append]
  refine ⟨⟨?_, ?_, ?_, ?_, ?_, ?_⟩, ?_, ?_, ?_, ?_⟩ <;>
    simp only [List.Forall, nullary_bufs_sub, unary_bufs_sub, binary_bufs_sub, ternary_bufs_sub, reshape_bufs_sub, and_self]

theorem ops_fresh : ∀ op ∈ (ops : List (HloOp τ sig (Elt F))), op.fresh = ∅ := by
  simp only [ops, opsA, opsB, List.forall_mem_append]
  refine ⟨⟨?_, ?_, ?_, ?_, ?_, ?_⟩, ?_, ?_, ?_, ?_⟩ <;>
    (intro _ h; (repeat (cases h with | head => rfl | tail _ h => ?_)); exact nomatch h)

def acc32 (acc : FVec F S4096x16x128 .f32) (t : FVec F S4096x32x128 .f32) (a6 : IVec S32x3 32) : FVec F S4096x16x128 .f32 :=
  addf acc (transpose S4096x16x128 [1, 0, 2]
    (Host.scatterAdd scatter_S16x4096x128_S32x1_S32x4096x128_12_0_0_1
      (broadcastInDim S16x4096x128 ![] bcast_S_S16x4096x128 (constant S_ .f32 0x00000000#32 : FVec F S_ .f32))
      (broadcastInDim S32x1 ![0] bcast_S32_S32x1_0
        (shapeCast S32 (extractStridedSlice S32x1 ![0, 2] a6 slices_S32x3_S32x1_0_2) shapeCasts_S32x1_S32))
      (transpose S32x4096x128 [1, 0, 2] t transposes_S4096x32x128_S32x4096x128_1_0_2))
    transposes_S16x4096x128_S4096x16x128_1_0_2)

def acc96 (acc : FVec F S4096x16x128 .f32) (t : FVec F S4096x96x128 .f32) (a7 : IVec S96x4 32) : FVec F S4096x16x128 .f32 :=
  addf acc (transpose S4096x16x128 [1, 0, 2]
    (Host.scatterAdd scatter_S16x4096x128_S96x1_S96x4096x128_12_0_0_1
      (broadcastInDim S16x4096x128 ![] bcast_S_S16x4096x128 (constant S_ .f32 0x00000000#32 : FVec F S_ .f32))
      (broadcastInDim S96x1 ![0] bcast_S96_S96x1_0
        (shapeCast S96 (extractStridedSlice S96x1 ![0, 3] a7 slices_S96x4_S96x1_0_3) shapeCasts_S96x1_S96))
      (transpose S96x4096x128 [1, 0, 2] t transposes_S4096x96x128_S96x4096x128_1_0_2))
    transposes_S16x4096x128_S4096x16x128_1_0_2)

def acc128 (acc : FVec F S4096x16x128 .f32) (t : FVec F S4096x128x128 .f32) (a8 : IVec S128x5 32) : FVec F S4096x16x128 .f32 :=
  addf acc (transpose S4096x16x128 [1, 0, 2]
    (Host.scatterAdd scatter_S16x4096x128_S128x1_S128x4096x128_12_0_0_1
      (broadcastInDim S16x4096x128 ![] bcast_S_S16x4096x128 (constant S_ .f32 0x00000000#32 : FVec F S_ .f32))
      (broadcastInDim S128x1 ![0] bcast_S128_S128x1_0
        (shapeCast S128 (extractStridedSlice S128x1 ![0, 4] a8 slices_S128x5_S128x1_0_4) shapeCasts_S128x1_S128))
      (transpose S128x4096x128 [1, 0, 2] t transposes_S4096x128x128_S128x4096x128_1_0_2))
    transposes_S16x4096x128_S4096x16x128_1_0_2)

set_option maxHeartbeats 2000000 in
theorem stage0 (W : Valuation τ sig (Elt F)) :
    after ops0 W (no_index ⟪main_v1⟫) = shapeCast S4096x16x128 (W ⟪main_arg1⟫) shapeCasts_S4096x2048_S4096x16x128
    ∧ after ops0 W (no_index ⟪main_v8⟫) = x0g (W ⟪main_arg0⟫) (W ⟪main_arg5⟫)
    ∧ after ops0 W (no_index ⟪main_v9⟫)
        = broadcastInDim S4096x16x128 ![] bcast_S_S4096x16x128 (constant S_ .f32 0x00000000#32 : FVec F S_ .f32)
    ∧ after ops0 W (no_index ⟪main_v12⟫)
        = take32 (x0g (W ⟪main_arg0⟫) (W ⟪main_arg5⟫))
            (shapeCast S32 (extractStridedSlice S32x1 ![0, 1] (W ⟪main_arg6⟫) slices_S32x3_S32x1_0_1) shapeCasts_S32x1_S32)
    ∧ after ops0 W (no_index ⟪main_arg6⟫) = W ⟪main_arg6⟫
    ∧ after ops0 W (no_index ⟪main_arg2⟫) = W ⟪main_arg2⟫
    ∧ after ops0 W (no_index ⟪main_arg7⟫) = W ⟪main_arg7⟫
    ∧ after ops0 W (no_index ⟪main_arg3⟫) = W ⟪main_arg3⟫
    ∧ after ops0 W (no_index ⟪main_arg8⟫) = W ⟪main_arg8⟫
    ∧ after ops0 W (no_index ⟪main_arg4⟫) = W ⟪main_arg4⟫ := by
  refine ⟨?_, ?_, ?_, ?_, ?_, ?_, ?_, ?_, ?_, ?_⟩ <;> (after_results_simp <;> (try simp only [TRef.ofBuf, TRef.toBuf, cast_eq]) <;> rfl)

set_option maxHeartbeats 2000000 in
theorem stage1 (W : Valuation τ sig (Elt F)) :
    after ops1 W (no_index ⟪main_v15⟫)
        = mulf (W ⟪main_v12⟫) (broadcastInDim S4096x32x128 ![0, 1, 2] bcast_S1x32x1_S4096x32x128_0_1_2
            (broadcastInDim S1x32x1 ![1] bcast_S32_S1x32x1_1 (W ⟪main_arg2⟫)))
    ∧ after ops1 W (no_index ⟪main_v18⟫)
        = take32 (W ⟪main_v1⟫)
            (shapeCast S32 (extractStridedSlice S32x1 ![0, 0] (W ⟪main_arg6⟫) slices_S32x3_S32x1_0_0) shapeCasts_S32x1_S32)
    ∧ after ops1 W (no_index ⟪main_v1⟫) = W ⟪main_v1⟫
    ∧ after ops1 W (no_index ⟪main_v8⟫) = W ⟪main_v8⟫
    ∧ after ops1 W (no_index ⟪main_v9⟫) = W ⟪main_v9⟫
    ∧ after ops1 W (no_index ⟪main_arg6⟫) = W ⟪main_arg6⟫
    ∧ after ops1 W (no_index ⟪main_arg7⟫) = W ⟪main_arg7⟫
    ∧ after ops1 W (no_index ⟪main_arg3⟫) = W ⟪main_arg3⟫
    ∧ after ops1 W (no_index ⟪main_arg8⟫) = W ⟪main_arg8⟫
    ∧ after ops1 W (no_index ⟪main_arg4⟫) = W ⟪main_arg4⟫ := by
  refine ⟨?_, ?_, ?_, ?_, ?_, ?_, ?_, ?_, ?_, ?_⟩ <;> (after_results_simp <;> (try simp only [TRef.ofBuf, TRef.toBuf, cast_eq]) <;> rfl)

set_option maxHeartbeats 2000000 in
theorem stage2 (W : Valuation τ sig (Elt F)) :
    after ops2 W (no_index ⟪main_v27⟫)
        = acc32 (W ⟪main_v9⟫) (mulf (W ⟪main_v15⟫) (W ⟪main_v18⟫)) (W ⟪main_arg6⟫)
    ∧ after ops2 W (no_index ⟪main_v30⟫)
        = take96 (W ⟪main_v8⟫)
            (shapeCast S96 (extractStridedSlice S96x1 ![0, 2] (W ⟪main_arg7⟫) slices_S96x4_S96x1_0_2) shapeCasts_S96x1_S96)
    ∧ after ops2 W (no_index ⟪main_v1⟫) = W ⟪main_v1⟫
    ∧ after ops2 W (no_index ⟪main_v8⟫) = W ⟪main_v8⟫
    ∧ after ops2 W (no_index ⟪main_arg7⟫) = W ⟪main_arg7⟫
    ∧ after ops2 W (no_index ⟪main_arg3⟫) = W ⟪main_arg3⟫
    ∧ after ops2 W (no_index ⟪main_arg8⟫) = W ⟪main_arg8⟫
    ∧ after ops2 W (no_index ⟪main_arg4⟫) = W ⟪main_arg4⟫ := by
  refine ⟨?_, ?_, ?_, ?_, ?_, ?_, ?_, ?_⟩ <;> (after_results_simp <;> (try simp only [TRef.ofBuf, TRef.toBuf, cast_eq]) <;> rfl)

set_option maxHeartbeats 2000000 in
theorem stage3 (W : Valuation τ sig (Elt F)) :
    after ops3 W (no_index ⟪main_v33⟫)
        = mulf (W ⟪main_v30⟫) (broadcastInDim S4096x96x128 ![0, 1, 2] bcast_S1x96x1_S4096x96x128_0_1_2
            (broadcastInDim S1x96x1 ![1] bcast_S96_S1x96x1_1 (W ⟪main_arg3⟫)))
    ∧ after ops3 W (no_index ⟪main_v36⟫)
        = take96 (W ⟪main_v1⟫)
            (shapeCast S96 (extractStridedSlice S96x1 ![0, 0] (W ⟪main_arg7⟫) slices_S96x4_S96x1_0_0) shapeCasts_S96x1_S96)
    ∧ after ops3 W (no_index ⟪main_v1⟫) = W ⟪main_v1⟫
    ∧ after ops3 W (no_index ⟪main_v8⟫) = W ⟪main_v8⟫
    ∧ after ops3 W (no_index ⟪main_v27⟫) = W ⟪main_v27⟫
    ∧ after ops3 W (no_index ⟪main_arg7⟫) = W ⟪main_arg7⟫
    ∧ after ops3 W (no_index ⟪main_arg8⟫) = W ⟪main_arg8⟫
    ∧ after ops3 W (no_index ⟪main_arg4⟫) = W ⟪main_arg4⟫ := by
  refine ⟨?_, ?_, ?_, ?_, ?_, ?_, ?_, ?_⟩ <;> (after_results_simp <;> (try simp only [TRef.ofBuf, TRef.toBuf, cast_eq]) <;> rfl)

set_option maxHeartbeats 2000000 in
theorem stage4 (W : Valuation τ sig (Elt F)) :
    after ops4 W (no_index ⟪main_v37⟫) = mulf (W ⟪main_v33⟫) (W ⟪main_v36⟫)
    ∧ after ops4 W (no_index ⟪main_v40⟫)
        = take96 (W ⟪main_v1⟫)
            (shapeCast S96 (extractStridedSlice S96x1 ![0, 1] (W ⟪main_arg7⟫) slices_S96x4_S96x1_0_1) shapeCasts_S96x1_S96)
    ∧ after ops4 W (no_index ⟪main_v1⟫) = W ⟪main_v1⟫
    ∧ after ops4 W (no_index ⟪main_v8⟫) = W ⟪main_v8⟫
    ∧ after ops4 W (no_index ⟪main_v27⟫) = W ⟪main_v27⟫
    ∧ after ops4 W (no_index ⟪main_arg7⟫) = W ⟪main_arg7⟫
    ∧ after ops4 W (no_index ⟪main_arg8⟫) = W ⟪main_arg8⟫
    ∧ after ops4 W (no_index ⟪main_arg4⟫) = W ⟪main_arg4⟫ := by
  refine ⟨?_, ?_, ?_, ?_, ?_, ?_, ?_, ?_⟩ <;> (after_results_simp <;> (try simp only [TRef.ofBuf, TRef.toBuf, cast_eq]) <;> rfl)

set_option maxHeartbeats 2000000 in
theorem stage5 (W : Valuation τ sig (Elt F)) :
    after ops5 W (no_index ⟪main_v49⟫)
        = acc96 (W ⟪main_v27⟫) (mulf (W ⟪main_v37⟫) (W ⟪main_v40⟫)) (W ⟪main_arg7⟫)
    ∧ after ops5 W (no_index ⟪main_v52⟫)
        = take128 (W ⟪main_v8⟫)
            (shapeCast S128 (extractStridedSlice S128x1 ![0, 3] (W ⟪main_arg8⟫) slices_S128x5_S128x1_0_3) shapeCasts_S128x1_S128)
    ∧ after ops5 W (no_index ⟪main_v54⟫)
        = broadcastInDim S4096x128x128 ![0, 1, 2] bcast_S1x128x1_S4096x128x128_0_1_2
            (broadcastInDim S1x128x1 ![1] bcast_S128_S1x128x1_1 (W ⟪main_arg4⟫))
    ∧ after ops5 W (no_index ⟪main_v1⟫) = W ⟪main_v1⟫
    ∧ after ops5 W (no_index ⟪main_arg8⟫) = W ⟪main_arg8⟫ := by
  refine ⟨?_, ?_, ?_, ?_, ?_⟩ <;> (after_results_simp <;> (try simp only [TRef.ofBuf, TRef.toBuf, cast_eq]) <;> rfl)

set_option maxHeartbeats 2000000 in
theorem stage6 (W : Valuation τ sig (Elt F)) :
    after ops6 W (no_index ⟪main_v55⟫) = mulf (W ⟪main_v52⟫) (W ⟪main_v54⟫)
    ∧ after ops6 W (no_index ⟪main_v58⟫)
        = take128 (W ⟪main_v1⟫)
            (shapeCast S128 (extractStridedSlice S128x1 ![0, 0] (W ⟪main_arg8⟫) slices_S128x5_S128x1_0_0) shapeCasts_S128x1_S128)
    ∧ after ops6 W (no_index ⟪main_v1⟫) = W ⟪main_v1⟫
    ∧ after ops6 W (no_index ⟪main_v49⟫) = W ⟪main_v49⟫
    ∧ after ops6 W (no_index ⟪main_arg8⟫) = W ⟪main_arg8⟫ := by
  refine ⟨?_, ?_, ?_, ?_, ?_⟩ <;> (after_results_simp <;> (try simp only [TRef.ofBuf, TRef.toBuf, cast_eq]) <;> rfl)

set_option maxHeartbeats 2000000 in
theorem stage7 (W : Valuation τ sig (Elt F)) :
    after ops7 W (no_index ⟪main_v59⟫) = mulf (W ⟪main_v55⟫) (W ⟪main_v58⟫)
    ∧ after ops7 W (no_index ⟪main_v62⟫)
        = take128 (W ⟪main_v1⟫)
            (shapeCast S128 (extractStridedSlice S128x1 ![0, 1] (W ⟪main_arg8⟫) slices_S128x5_S128x1_0_1) shapeCasts_S128x1_S128)
    ∧ after ops7 W (no_index ⟪main_v1⟫) = W ⟪main_v1⟫
    ∧ after ops7 W (no_index ⟪main_v49⟫) = W ⟪main_v49⟫
    ∧ after ops7 W (no_index ⟪main_arg8⟫) = W ⟪main_arg8⟫ := by
  refine ⟨?_, ?_, ?_, ?_, ?_⟩ <;> (after_results_simp <;> (try simp only [TRef.ofBuf, TRef.toBuf, cast_eq]) <;> rfl)

set_option maxHeartbeats 2000000 in
theorem stage8 (W : Valuation τ sig (Elt F)) :
    after ops8 W (no_index ⟪main_v63⟫) = mulf (W ⟪main_v59⟫) (W ⟪main_v62⟫)
    ∧ after ops8 W (no_index ⟪main_v66⟫)
        = take128 (W ⟪main_v1⟫)
            (shapeCast S128 (extractStridedSlice S128x1 ![0, 2] (W ⟪main_arg8⟫) slices_S128x5_S128x1_0_2) shapeCasts_S128x1_S128)
    ∧ after ops8 W (no_index ⟪main_v49⟫) = W ⟪main_v49⟫
    ∧ after ops8 W (no_index ⟪main_arg8⟫) = W ⟪main_arg8⟫ := by
  refine ⟨?_, ?_, ?_, ?_⟩ <;> (after_results_simp <;> (try simp only [TRef.ofBuf, TRef.toBuf, cast_eq]) <;> rfl)

set_option maxHeartbeats 2000000 in
theorem stage9 (W : Valuation τ sig (Elt F)) :
    after ops9 W (no_index ⟪main_v76⟫)
      = shapeCast S4096x2048 (acc128 (W ⟪main_v49⟫) (mulf (W ⟪main_v63⟫) (W ⟪main_v66⟫)) (W ⟪main_arg8⟫))
          shapeCasts_S4096x16x128_S4096x2048 := by
  (after_results_simp <;> (try simp only [TRef.ofBuf, TRef.toBuf, cast_eq]) <;> rfl)

set_option maxHeartbeats 2000000 in
/-- The ten pieces' readings chained: the result buffer holds `refOut` of the arguments. -/
theorem out_eq (V : Valuation τ sig (Elt F)) :
    after ops V ⟪main_v76⟫
      = refOut (V ⟪main_arg0⟫) (V ⟪main_arg1⟫) (V ⟪main_arg2⟫) (V ⟪main_arg3⟫) (V ⟪main_arg4⟫) (V ⟪main_arg5⟫)
          (V ⟪main_arg6⟫) (V ⟪main_arg7⟫) (V ⟪main_arg8⟫) := by
  simp only [ops, opsA, opsB, after_append, stage9, stage8, stage7, stage6, stage5, stage4, stage3, stage2, stage1, stage0]
  rfl

abbrev argRefs : List (Ref sig .tc) :=
  [main_arg0, main_arg1, main_arg2, main_arg3, main_arg4, main_arg5, main_arg6, main_arg7, main_arg8]

set_option maxHeartbeats 2000000 in
theorem arg_keep (V : Valuation τ sig (Elt F)) (r : Ref sig .tc) (hr : r ∈ argRefs) : after ops V ⟪r⟫ = V ⟪r⟫ := by
  simp only [argRefs, List.mem_cons, List.not_mem_nil, or_false] at hr
  simp only [ops, opsA, opsB, after_append]
  rcases hr with rfl | rfl | rfl | rfl | rfl | rfl | rfl | rfl | rfl <;> after_results_simp

/-- Every weakly fair execution of the reference ends with the result at `refOut` of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v76)
        = refOut (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun _ h c => ⟨(h c main_v76).trans (out_eq (F := Ideal) _),
      (h c main_arg0).trans (arg_keep (F := Ideal) _ main_arg0 (by decide)),
      (h c main_arg1).trans (arg_keep (F := Ideal) _ main_arg1 (by decide)),
      (h c main_arg2).trans (arg_keep (F := Ideal) _ main_arg2 (by decide)),
      (h c main_arg3).trans (arg_keep (F := Ideal) _ main_arg3 (by decide)),
      (h c main_arg4).trans (arg_keep (F := Ideal) _ main_arg4 (by decide)),
      (h c main_arg5).trans (arg_keep (F := Ideal) _ main_arg5 (by decide)),
      (h c main_arg6).trans (arg_keep (F := Ideal) _ main_arg6 (by decide)),
      (h c main_arg7).trans (arg_keep (F := Ideal) _ main_arg7 (by decide)),
      (h c main_arg8).trans (arg_keep (F := Ideal) _ main_arg8 (by decide))⟩)
    (run_seq scopedRefs_eq scopedSems_eq (defs (F := Ideal)) (main (F := Ideal)) (fun _ => ops (F := Ideal)) main_eq (fun _ => ops_sub) m ρ
      (fun _ => ops_fresh))

end Cert.ReferenceIdeal.RefRun

end
-- ==== Proof.RefValue.Ops.lean ====
import proofs.«426359_j52879637348696_1_alg».proof.Proof.RefTerm
import proofs.«426359_j52879637348696_1_alg».proof.Proof.Spec
import Idealize.ShloMosaic.Lib.ValueIdx
import Idealize.ShloMosaic.Lib.Pipeline.Value
import Idealize.ShloMosaic.Lib.Affine
import Idealize.ShloMosaic.Lib.StableHlo.Predicate
import Idealize.ShloMosaic.PureOps.Ideal.Laws

noncomputable section

namespace Cert.ReferenceIdeal.RefValue

open Idealize.ShloMosaic Idealize.ShloMosaic.ValueIdx Idealize.ShloMosaic.StableHlo.Predicate
open Cert.ReferenceIdeal Cert.ReferenceIdeal.Facts₀ Cert.ReferenceIdeal.Facts Cert.Proof.Spec
open scoped BigOperators

variable {α : Type} {a b c n m : ℕ}

abbrev Sh1 (a : ℕ) : Shape := ⟨1, ![a]⟩
abbrev Sh2 (a b : ℕ) : Shape := ⟨2, ![a, b]⟩
abbrev Sh3 (a b c : ℕ) : Shape := ⟨3, ![a, b, c]⟩

/-- A row of 2048 is 16 segments of 128 lanes: `(s, u)` is column `128 s + u`. -/
theorem seg_apply (x : (Sh2 a 2048).Idx → α) (h : (Sh2 a 2048).ShapeCasts (Sh3 a 16 128)) (r : Fin a) (s : Fin 16) (u : Fin 128) :
    shapeCast (Sh3 a 16 128) x h (ix3 r s u) = x (ix2 r (col s u)) := by
  refine shapeCast_apply x h _ _ ?_
  rw [Shape.rowMajor_val_two, Shape.rowMajor_val_three]
  show r.val * 2048 + (128 * s.val + u.val) = (r.val * 16 + s.val) * 128 + u.val
  omega

theorem unseg_apply (x : (Sh3 a 16 128).Idx → α) (h : (Sh3 a 16 128).ShapeCasts (Sh2 a 2048)) (r : Fin a) (s : Fin 16) (u : Fin 128) :
    shapeCast (Sh2 a 2048) x h (ix2 r (col s u)) = x (ix3 r s u) := by
  refine shapeCast_apply x h _ _ ?_
  rw [Shape.rowMajor_val_two, Shape.rowMajor_val_three]
  show (r.val * 16 + s.val) * 128 + u.val = r.val * 2048 + (128 * s.val + u.val)
  omega

theorem swap_apply (x : (Sh3 a b c).Idx → α) (h : (Sh3 a b c).Transposes [1, 0, 2] (Sh3 b a c)) (j : Fin b) (i : Fin a) (k : Fin c) :
    transpose (Sh3 b a c) [1, 0, 2] x h (ix3 j i k) = x (ix3 i j k) :=
  transpose_apply _ x h _ _ fun d => match d with
    | ⟨0, _⟩ => rfl
    | ⟨1, _⟩ => rfl
    | ⟨2, _⟩ => rfl

/-- A broadcast keeps the coordinate on an axis of any extent. -/
theorem bval (p : Fin n) : p.val = if n = 1 then 0 else p.val := by split <;> omega

/-- A word reads signed as the small number `k` exactly when it is the word of `k`. -/
theorem toInt_eq_iff (w : BitVec 32) (k : ℕ) (hk : k < 2 ^ 31) : w.toInt = (k : ℤ) ↔ w = BitVec.ofNat 32 k := by
  rw [← toInt_ofNat_small k hk]
  exact BitVec.toInt_inj

/-- The wrap of negative indices keeps a vector of nonnegative words. -/
theorem wrap_keep {sh : Shape} (i y : IVec sh 32) (h : S_.BroadcastsInDim sh (![] : Fin 0 → Fin sh.rank))
    (hi : ∀ q, 0 ≤ (i q).toInt) : select (cmpi .slt i (broadcastInDim sh ![] h (constantI S_ 32 0#32))) y i = i := by
  funext q
  refine if_neg fun hc => ?_
  have : (i q).toInt < (0#32 : BitVec 32).toInt := IntOp.cmpi_slt.mp hc
  have : (0#32 : BitVec 32).toInt = 0 := by decide
  have := hi q
  omega

theorem foldl_andi_one {ι : Type} (f : ι → BitVec 1) (hf : ∀ q, f q = 1#1) :
    ∀ l : List ι, l.foldl (fun r q => IntOp.andi r (f q)) 1#1 = 1#1
  | [] => rfl
  | q :: l => by
    rw [List.foldl_cons, hf q]
    exact foldl_andi_one f hf l

theorem select_of_one {sh : Shape} (k : IVec sh 1) (x y : sh.Idx → α) (j : sh.Idx) (hk : k j = 1#1) : select k x y j = x j :=
  (congrArg (Scalar.select · (x j) (y j)) hk).trans (select_one _ _)

/-- The gather of `n` segments out of each row's 16. -/
abbrev segGather (n : ℕ) (wf : GatherDims.WF S4096x16x128 (Sh2 n 1) (Sh3 4096 n 128) [0, 2] [1] [] [1] [] 1 ![4096, 1, 128]) :
    GatherDims S4096x16x128 (Sh2 n 1) (Sh3 4096 n 128) := ⟨[0, 2], [1], [], [], [1], 1, ![4096, 1, 128], wf⟩

/-- The segment gather reads the segment its start index names, read signed and clamped into `[0, 15]`. -/
theorem segGather_apply {wf} (x : S4096x16x128.Idx → α) (idx : IVec (Sh2 n 1) 32) (z : Fin 4096) (p : Fin n) (u : Fin 128) :
    Host.gather (segGather n wf) x idx (ix3 z p u) = x (ix3 z ⟨min (idx (ix2 p 0)).toInt.toNat 15, by omega⟩ u) := by
  have hsi : (segGather n wf).siIdx (ix3 z p u) ⟨0, Nat.zero_lt_one⟩ = ix2 p 0 := funext fun d => Fin.ext <| by
    match d with
    | ⟨0, _⟩ => rfl
    | ⟨1, _⟩ => rfl
  refine congrArg x (funext fun d => Fin.ext ?_)
  match d with
  | ⟨0, _⟩ => exact Nat.zero_add _
  | ⟨1, _⟩ => exact congrArg (fun q => min (idx q).toInt.toNat 15) hsi
  | ⟨2, _⟩ => exact Nat.zero_add _

/-- The row gather reads the row its start index names, read signed and clamped into `[0, 63]`. -/
theorem rowGather_apply [Facts₀] (x : S64x16x128.Idx → α) (idx : IVec S4096x1 32) (z : Fin 4096) (s : Fin 16) (u : Fin 128) :
    Host.gather gather_S64x16x128_S4096x1_S4096x16x128_12_0_n_n_0_1_116128 x idx (ix3 z s u)
      = x (ix3 ⟨min (idx (ix2 z 0)).toInt.toNat 63, by omega⟩ s u) := by
  have hsi : gather_S64x16x128_S4096x1_S4096x16x128_12_0_n_n_0_1_116128.siIdx (ix3 z s u) ⟨0, Nat.zero_lt_one⟩ = ix2 z 0 :=
    funext fun d => Fin.ext <| by
      match d with
      | ⟨0, _⟩ => rfl
      | ⟨1, _⟩ => rfl
  refine congrArg x (funext fun d => Fin.ext ?_)
  match d with
  | ⟨0, _⟩ => exact congrArg (fun q => min (idx q).toInt.toNat 63) hsi
  | ⟨1, _⟩ => exact Nat.zero_add _
  | ⟨2, _⟩ => exact Nat.zero_add _

/-- An update lands on operand index `i` exactly when start plus window coordinate is `i` on every axis. -/
theorem resultIdx?_eq_some {s si su : Shape} (d : ScatterDims s si su) {w : ℕ} (j : su.Idx) (idx : IVec si w) (i : s.Idx) :
    d.resultIdx? j idx = some i ↔ ∀ e, d.start j idx e + d.window j e = ((i e).val : ℤ) := by
  unfold ScatterDims.resultIdx?
  constructor
  · intro h e
    split at h
    · next hall =>
      have := congrArg Fin.val (congrFun (Option.some.inj h) e)
      have := (hall e).1
      simp only at *
      omega
    · exact nomatch h
  · intro h
    rw [dif_pos fun e => by rw [h e]; exact ⟨Int.natCast_nonneg _, Int.ofNat_lt.2 (i e).isLt⟩]
    exact congrArg some (funext fun e => Fin.ext (by simp only [h e]; rfl))

/-- The scatter of `n` slabs `[4096, 128]` over the 16 output segments. -/
abbrev segScatter (n : ℕ) (wf : ScatterDims.WF S16x4096x128 (Sh2 n 1) (Sh3 n 4096 128) [1, 2] [0] [0] 1) :
    ScatterDims S16x4096x128 (Sh2 n 1) (Sh3 n 4096 128) := ⟨[1, 2], [0], [0], 1, wf⟩

/-- Slab `j 0` lands on `(s, z, u)` exactly when its index, which is not clamped, is the word of `s` and node and lane agree. -/
theorem segScatter_lands {wf} (idx : IVec (Sh2 n 1) 32) (j : (Sh3 n 4096 128).Idx) (s : Fin 16) (z : Fin 4096) (u : Fin 128) :
    (segScatter n wf).resultIdx? j idx = some (ix3 s z u)
      ↔ idx (ix2 (j 0) 0) = BitVec.ofNat 32 s.val ∧ (j 1).val = z.val ∧ (j 2).val = u.val := by
  have : (idx ((segScatter n wf).siIdx j ⟨0, Nat.zero_lt_one⟩)).toInt = (idx (ix2 (j 0) 0)).toInt :=
    congrArg (fun q => (idx q).toInt) <| funext fun d => Fin.ext <| by
      match d with
      | ⟨0, _⟩ => rfl
      | ⟨1, _⟩ => rfl
  rw [resultIdx?_eq_some, Fin.forall_fin_succ, Fin.forall_fin_two, ← toInt_eq_iff _ _ (by omega)]
  show (idx ((segScatter n wf).siIdx j ⟨0, Nat.zero_lt_one⟩)).toInt + ((0 : ℕ) : ℤ) = (s.val : ℤ)
    ∧ (0 : ℤ) + ((j 1).val : ℤ) = (z.val : ℤ) ∧ (0 : ℤ) + ((j 2).val : ℤ) = (u.val : ℤ) ↔ _
  omega

/-- The scatter-add read at `(s, z, u)`: the operand plus the slabs whose index is the word of `s`. -/
theorem segScatter_apply {wf} (x : FVec Ideal S16x4096x128 .f32) (idx : IVec (Sh2 n 1) 32) (upd : FVec Ideal (Sh3 n 4096 128) .f32)
    (s : Fin 16) (z : Fin 4096) (u : Fin 128) :
    Host.scatterAdd (F := Ideal) (segScatter n wf) x idx upd (ix3 s z u)
      = x (ix3 s z u) + ∑ p : Fin n, if idx (ix2 p 0) = BitVec.ofNat 32 s.val then upd (ix3 p z u) else 0 := by
  show Ideal.hostScatterAdd (segScatter n wf) x idx upd (ix3 s z u) = _
  unfold Ideal.hostScatterAdd
  rw [Finset.sum_filter]
  congr 1
  symm
  refine Fintype.sum_of_injective (fun p : Fin n => ix3 p z u) (fun _ _ e => congrFun e 0) _ _
    (fun j hj => if_neg fun h => hj ?_) fun p => if_congr ?_ rfl rfl
  · obtain ⟨_, h1, h2⟩ := (segScatter_lands idx j s z u).1 h
    obtain rfl : j 1 = z := Fin.ext h1
    obtain rfl : j 2 = u := Fin.ext h2
    exact ⟨j 0, (eq_ix3 j).symm⟩
  · exact ((segScatter_lands idx (ix3 p z u) s z u).trans (and_iff_left ⟨rfl, rfl⟩)).symm

variable {h0 : S_.BroadcastsInDim (Sh1 n) (![] : Fin 0 → Fin 1)} {h5 : (Sh1 n).BroadcastsInDim (Sh2 n 1) ![0]}
  {h6 : S_.BroadcastsInDim (Sh2 n 1) (![] : Fin 0 → Fin 2)} {h8 : S1.BroadcastsInDim S1x1 (![1] : Fin 1 → Fin 2)}
  {h9 : S1x1.BroadcastsInDim (Sh2 n 1) (![0, 1] : Fin 2 → Fin 2)} {hR : (Sh2 n 1).ReducesTo [1] (Sh1 n)} {hS : 0 < S_.numel}
  {hm : (Sh1 n).BroadcastsInDim (Sh3 a n c) ![1]} {hc : (Sh2 n 1).ShapeCasts (Sh1 n)}

theorem colvec_apply (i : (Sh1 n).Idx → α) (q : (Sh2 n 1).Idx) : broadcastInDim (Sh2 n 1) ![0] h5 i q = i (ix1 (q 0)) :=
  broadcastInDim_apply _ h5 i q _ fun d => match d with
    | ⟨0, _⟩ => bval (q 0)

theorem colvec_at (i : (Sh1 n).Idx → α) (p : Fin n) : broadcastInDim (Sh2 n 1) ![0] h5 i (ix2 p 0) = i (ix1 p) :=
  colvec_apply i _

theorem midvec_apply (v : (Sh1 n).Idx → α) (z : Fin a) (p : Fin n) (u : Fin c) :
    broadcastInDim (Sh3 a n c) ![1] hm v (ix3 z p u) = v (ix1 p) :=
  broadcastInDim_apply _ hm v _ _ fun d => match d with
    | ⟨0, _⟩ => bval p

theorem coef_apply (v : (Sh1 n).Idx → α) (h1 : (Sh1 n).BroadcastsInDim (Sh3 1 n 1) ![1])
    (h2 : (Sh3 1 n 1).BroadcastsInDim (Sh3 a n c) ![0, 1, 2]) (z : Fin a) (p : Fin n) (u : Fin c) :
    broadcastInDim (Sh3 a n c) ![0, 1, 2] h2 (broadcastInDim (Sh3 1 n 1) ![1] h1 v) (ix3 z p u) = v (ix1 p) :=
  (broadcastInDim_apply _ h2 _ (ix3 z p u) (ix3 0 p 0) fun d => match d with
    | ⟨0, _⟩ => rfl
    | ⟨1, _⟩ => bval p
    | ⟨2, _⟩ => rfl).trans (midvec_apply v 0 p 0)

/-- Column `k` of a table of `n` rows, cut out and flattened to a vector. -/
theorem tabcol_apply (t : (Sh2 n m).Idx → α) (k : ℕ) (hk : k < m) (h : (Sh2 n m).Slices ![0, k] (Sh2 n 1)) (p : Fin n) :
    shapeCast (Sh1 n) (extractStridedSlice (Sh2 n 1) ![0, k] t h) hc (ix1 p) = t (ix2 p ⟨k, hk⟩) := by
  refine (shapeCast_apply _ hc (ix1 p) (ix2 p (0 : Fin 1)) ?_).trans (extractStridedSlice_apply _ t h _ _ fun d => ?_)
  · rw [Shape.rowMajor_val_two, Shape.rowMajor_val_one]
    show p.val * 1 + 0 = p.val
    omega
  · match d with
    | ⟨0, _⟩ => exact (Nat.zero_add _).symm
    | ⟨1, _⟩ => rfl

/-- The range test `0 ≤ w ≤ 15`, reduced by `and` along the unit axis, holds where every word is in range. -/
theorem range_one (v : IVec (Sh2 n 1) 32) (hv : ∀ q, 0 ≤ (v q).toInt ∧ (v q).toInt ≤ 15) (j : (Sh1 n).Idx) :
    Host.reduce IntOp.andi
      (andi (cmpi .sge v (broadcastInDim (Sh2 n 1) ![] h6 (constantI S_ 32 0#32)))
        (cmpi .sle v (broadcastInDim (Sh2 n 1) ![0, 1] h9 (broadcastInDim S1x1 ![1] h8 (constantI S1 32 15#32)))))
      (constantI S_ 1 1#1) hR hS j = 1#1 := by
  have e0 : (0#32 : BitVec 32).toInt = 0 := by decide
  have e15 : (15#32 : BitVec 32).toInt = 15 := by decide
  rw [Host.reduce_eq_foldl]
  exact foldl_andi_one _ (fun q => (IntOp.andi_eq_one.mpr ⟨IntOp.cmpi_sge.mpr (e0.trans_le (hv q).1),
    IntOp.cmpi_sle.mpr ((hv q).2.trans_eq e15.symm)⟩ : IntOp.andi (IntOp.cmpi .sge (v q) 0#32) (IntOp.cmpi .sle (v q) 15#32) = 1#1)) _

/-- A column of start indices made from the words of numbers below `N`, negative ones wrapped first, reads signed as those numbers. -/
theorem idxcol_toInt {N : ℕ} (hN : N ≤ 2 ^ 31) (i y : IVec (Sh1 n) 32) {t : Fin n → Fin N}
    (ht : ∀ p, i (ix1 p) = BitVec.ofNat 32 (t p).val) (q : (Sh2 n 1).Idx) :
    (broadcastInDim (Sh2 n 1) ![0] h5 (select (cmpi .slt i (broadcastInDim (Sh1 n) ![] h0 (constantI S_ 32 0#32))) y i) q).toInt
      = ((t (q 0)).val : ℤ) := by
  have hi : ∀ q, (i q).toInt = ((t (q 0)).val : ℤ) := fun q => by
    rw [(congrArg i (eq_ix1 q)).trans (ht (q 0))]
    exact toInt_ofNat_small _ (by have := (t (q 0)).isLt; omega)
  rw [wrap_keep i y h0 fun q => by rw [hi]; omega, colvec_apply, hi]
  rfl

/-- The take of `n` segments whose numbers `t p < 16` are given as words: nothing is wrapped, fails the range test or is clamped. -/
theorem take_apply {F : FTy → Type} [FloatOps F] {hm : (Sh1 n).BroadcastsInDim (Sh3 4096 n 128) ![1]} {wf}
    (x : FVec F S4096x16x128 .f32) (y : FVec F (Sh3 4096 n 128) .f32) (i : IVec (Sh1 n) 32) {t : Fin n → Fin 16}
    (ht : ∀ p, i (ix1 p) = BitVec.ofNat 32 (t p).val) (z : Fin 4096) (p : Fin n) (u : Fin 128) :
    let v5 : IVec (Sh2 n 1) 32 := broadcastInDim (Sh2 n 1) ![0] h5 (select
      (cmpi .slt i (broadcastInDim (Sh1 n) ![] h0 (constantI S_ 32 0#32))) (addi i (broadcastInDim (Sh1 n) ![] h0 (constantI S_ 32 16#32))) i)
    select (broadcastInDim (Sh3 4096 n 128) ![1] hm (Host.reduce IntOp.andi
        (andi (cmpi .sge v5 (broadcastInDim (Sh2 n 1) ![] h6 (constantI S_ 32 0#32)))
          (cmpi .sle v5 (broadcastInDim (Sh2 n 1) ![0, 1] h9 (broadcastInDim S1x1 ![1] h8 (constantI S1 32 15#32)))))
        (constantI S_ 1 1#1) hR hS))
      (Host.gather (segGather n wf) x v5) y (ix3 z p u) = x (ix3 z (t p) u) := by
  intro v5
  have hv : ∀ q, (v5 q).toInt = ((t (q 0)).val : ℤ) := idxcol_toInt (by decide) i _ ht
  refine (select_of_one _ _ _ _ ?_).trans ((segGather_apply x v5 z p u).trans (congrArg (fun e => x (ix3 z e u)) (Fin.ext ?_)))
  · rw [midvec_apply]
    exact range_one _ (fun q => by rw [hv]; omega) _
  · show min (v5 (ix2 p 0)).toInt.toNat 15 = (t p).val
    rw [hv]
    show min ((t p).val : ℤ).toNat 15 = (t p).val
    omega

/-- Products `M`, scatter-added into zero by the ids in column `k` of the path table: `(z, s, u)` sums `M (z, p, u)` over the paths of id `s`. -/
theorem part_apply {hz : S_.BroadcastsInDim S16x4096x128 (![] : Fin 0 → Fin 3)}
    {hT : (Sh3 4096 n 128).Transposes [1, 0, 2] (Sh3 n 4096 128)} {hT' : S16x4096x128.Transposes [1, 0, 2] S4096x16x128} {wf}
    (M : FVec Ideal (Sh3 4096 n 128) .f32) (tab : IVec (Sh2 n m) 32) (k : ℕ) (hk : k < m) {hs : (Sh2 n m).Slices ![0, k] (Sh2 n 1)}
    (z : Fin 4096) (s : Fin 16) (u : Fin 128) :
    transpose S4096x16x128 [1, 0, 2] (Host.scatterAdd (F := Ideal) (segScatter n wf)
        (broadcastInDim S16x4096x128 ![] hz (constant (F := Ideal) S_ .f32 0x00000000#32))
        (broadcastInDim (Sh2 n 1) ![0] h5 (shapeCast (Sh1 n) (extractStridedSlice (Sh2 n 1) ![0, k] tab hs) hc))
        (transpose (Sh3 n 4096 128) [1, 0, 2] M hT)) hT' (ix3 z s u)
      = ∑ p : Fin n, if tab (ix2 p ⟨k, hk⟩) = BitVec.ofNat 32 s.val then M (ix3 z p u) else 0 := by
  rw [swap_apply, segScatter_apply]
  refine (congrArg (· + _) Ideal.ofBits_zero_f32).trans ((zero_add _).trans (Finset.sum_congr rfl fun p _ => ?_))
  rw [colvec_at, tabcol_apply _ k hk, swap_apply]

end Cert.ReferenceIdeal.RefValue

end
-- ==== Proof.RefValue.lean ====
import proofs.«426359_j52879637348696_1_alg».proof.Proof.RefValue.Ops

noncomputable section

namespace Cert.ReferenceIdeal.RefValue

open Idealize.ShloMosaic Idealize.ShloMosaic.ValueIdx
open Cert.ReferenceIdeal Cert.ReferenceIdeal.Facts₀ Cert.ReferenceIdeal.Facts Cert.Proof.Spec
open scoped BigOperators

section
variable {F : FTy → Type} [FloatOps F] [Facts] (x : FVec F S4096x16x128 .f32) (z : Fin 4096) (u : Fin 128)

theorem take32_apply {i : IVec S32 32} {t : Fin 32 → Fin 16} (ht : ∀ p, i (ix1 p) = BitVec.ofNat 32 (t p).val) (p : Fin 32) :
    RefTerm.take32 x i (ix3 z p u) = x (ix3 z (t p) u) := take_apply x _ i ht z p u

theorem take96_apply {i : IVec S96 32} {t : Fin 96 → Fin 16} (ht : ∀ p, i (ix1 p) = BitVec.ofNat 32 (t p).val) (p : Fin 96) :
    RefTerm.take96 x i (ix3 z p u) = x (ix3 z (t p) u) := take_apply x _ i ht z p u

theorem take128_apply {i : IVec S128 32} {t : Fin 128 → Fin 16} (ht : ∀ p, i (ix1 p) = BitVec.ofNat 32 (t p).val) (p : Fin 128) :
    RefTerm.take128 x i (ix3 z p u) = x (ix3 z (t p) u) := take_apply x _ i ht z p u

/-- With node `z`'s index the word of `r z < 64`, the gathered row of `x0` at `(z, s, u)` is column `128 s + u` of row `r z`. -/
theorem x0g_apply (a0 : FVec F S64x2048 .f32) (a5 : IVec S4096 32) (r : Fin 4096 → Fin 64)
    (hr : ∀ z, a5 (ix1 z) = BitVec.ofNat 32 (r z).val) (s : Fin 16) :
    RefTerm.x0g a0 a5 (ix3 z s u) = a0 (ix2 (r z) (col s u)) := by
  refine (rowGather_apply _ _ z s u).trans ((seg_apply a0 _ _ s u).trans (congrArg (fun e => a0 (ix2 e (col s u))) (Fin.ext ?_)))
  show min (_ : BitVec 32).toInt.toNat 63 = (r z).val
  rw [idxcol_toInt (by decide) a5 _ hr]
  show min ((r z).val : ℤ).toNat 63 = (r z).val
  omega

end

variable [Facts] {a5 : IVec S4096 32} {a6 : IVec S32x3 32} {a7 : IVec S96x4 32} {a8 : IVec S128x5 32} (T : Tables a5 a6 a7 a8)
  (a0 : FVec Ideal S64x2048 .f32) (a1 : FVec Ideal S4096x2048 .f32) (z : Fin 4096) (s : Fin 16) (u : Fin 128)

/-- Each degree of the reference, over the gathered `x0` rows and the `x1` rows as segments, is that degree of the specification. -/
theorem deg1_apply (a2 : FVec Ideal S32 .f32) :
    RefTerm.deg1 (RefTerm.x0g a0 a5) (shapeCast S4096x16x128 a1 shapeCasts_S4096x2048_S4096x16x128) a2 a6 (ix3 z s u)
      = out1 a0 a1 a2 T z s u := by
  refine (part_apply _ a6 2 (by decide) z s u).trans ?_
  unfold out1 part1 term1
  refine Finset.sum_congr rfl fun p _ => ?_
  rw [mulf_apply, mulf_apply, coef_apply, take32_apply _ z u fun q => (tabcol_apply a6 1 (by decide) _ q).trans (T.ht1 q 1),
    take32_apply _ z u fun q => (tabcol_apply a6 0 (by decide) _ q).trans (T.ht1 q 0), x0g_apply _ _ a0 a5 T.r T.hr, seg_apply]
  rfl

theorem deg2_apply (a3 : FVec Ideal S96 .f32) :
    RefTerm.deg2 (RefTerm.x0g a0 a5) (shapeCast S4096x16x128 a1 shapeCasts_S4096x2048_S4096x16x128) a3 a7 (ix3 z s u)
      = out2 a0 a1 a3 T z s u := by
  refine (part_apply _ a7 3 (by decide) z s u).trans ?_
  unfold out2 part2 term2
  refine Finset.sum_congr rfl fun p _ => ?_
  rw [mulf_apply, mulf_apply, mulf_apply, coef_apply, take96_apply _ z u fun q => (tabcol_apply a7 2 (by decide) _ q).trans (T.ht2 q 2),
    take96_apply _ z u fun q => (tabcol_apply a7 0 (by decide) _ q).trans (T.ht2 q 0),
    take96_apply _ z u fun q => (tabcol_apply a7 1 (by decide) _ q).trans (T.ht2 q 1), x0g_apply _ _ a0 a5 T.r T.hr, seg_apply, seg_apply]
  rfl

theorem deg3_apply (a4 : FVec Ideal S128 .f32) :
    RefTerm.deg3 (RefTerm.x0g a0 a5) (shapeCast S4096x16x128 a1 shapeCasts_S4096x2048_S4096x16x128) a4 a8 (ix3 z s u)
      = out3 a0 a1 a4 T z s u := by
  refine (part_apply _ a8 4 (by decide) z s u).trans ?_
  unfold out3 part3 term3
  refine Finset.sum_congr rfl fun p _ => ?_
  rw [mulf_apply, mulf_apply, mulf_apply, mulf_apply, coef_apply,
    take128_apply _ z u fun q => (tabcol_apply a8 3 (by decide) _ q).trans (T.ht3 q 3),
    take128_apply _ z u fun q => (tabcol_apply a8 0 (by decide) _ q).trans (T.ht3 q 0),
    take128_apply _ z u fun q => (tabcol_apply a8 1 (by decide) _ q).trans (T.ht3 q 1),
    take128_apply _ z u fun q => (tabcol_apply a8 2 (by decide) _ q).trans (T.ht3 q 2), x0g_apply _ _ a0 a5 T.r T.hr,
    seg_apply, seg_apply, seg_apply]
  rfl

/-- The reference's result read at `(z, 128 s + u)` is the specification's value: the three degrees' sums, added in order onto zero. -/
theorem refOut_apply [Cert.ReferenceIdeal.Facts] (a0 : FVec Ideal S64x2048 .f32) (a1 : FVec Ideal S4096x2048 .f32)
    (a2 : FVec Ideal S32 .f32) (a3 : FVec Ideal S96 .f32) (a4 : FVec Ideal S128 .f32) (a5 : IVec S4096 32)
    (a6 : IVec S32x3 32) (a7 : IVec S96x4 32) (a8 : IVec S128x5 32)
    (T : Cert.Proof.Spec.Tables a5 a6 a7 a8) (z : Fin 4096) (s : Fin 16) (u : Fin 128) :
    RefTerm.refOut (F := Ideal) a0 a1 a2 a3 a4 a5 a6 a7 a8 (ValueIdx.ix2 z (Cert.Proof.Spec.col s u))
      = Cert.Proof.Spec.out a0 a1 a2 a3 a4 T z s u := by
  have hz : broadcastInDim S4096x16x128 ![] bcast_S_S4096x16x128 (constant (F := Ideal) S_ .f32 0x00000000#32) (ix3 z s u) = 0 :=
    Ideal.ofBits_zero_f32
  unfold RefTerm.refOut
  dsimp only
  rw [unseg_apply, addf_apply, addf_apply, addf_apply, hz, zero_add, deg1_apply T, deg2_apply T, deg3_apply T]
  rfl

end Cert.ReferenceIdeal.RefValue

end
-- ==== Proof.PreRange.lean ====
import proofs.«426359_j52879637348696_1_alg».proof.Pre_finite_inputs
import proofs.«426359_j52879637348696_1_alg».proof.Proof.Spec
import Idealize.ShloMosaic.Lib.ReduceAll
import Idealize.ShloMosaic.Lib.Affine
import Idealize.ShloMosaic.Lib.StableHlo.Predicate

noncomputable section

namespace Cert.Proof.PreRange

open Idealize.ShloMosaic Idealize.ShloMosaic.ValueIdx
open Cert.Pre_finite_inputs

instance : Subsingleton S_.Idx := ⟨fun a b => funext fun d => d.elim0⟩

/-- A 32-bit word that reads signed in `[0, N)` is the word of some `k < N`. -/
theorem word_range (N : Nat) (hN : N < 2 ^ 31) (v : BitVec 32) (h0 : IntOp.cmpi .sge v 0#32 = 1#1)
    (h1 : IntOp.cmpi .slt v (BitVec.ofNat 32 N) = 1#1) : ∃ k : Fin N, v = BitVec.ofNat 32 k.val := by
  rw [IntOp.cmpi_sge, show (0#32 : BitVec 32).toInt = 0 from by decide] at h0
  rw [IntOp.cmpi_slt, StableHlo.Predicate.toInt_ofNat_small N hN] at h1
  have hv := v.isLt
  have hc := BitVec.toInt_eq_toNat_cond v
  have hlt : v.toNat < N := by
    split at hc <;> omega
  refine ⟨⟨v.toNat, hlt⟩, BitVec.eq_of_toNat_eq ?_⟩
  rw [BitVec.toNat_ofNat]
  exact (Nat.mod_eq_of_lt hv).symm

variable [Facts]

/-- Entry (p, k) of the leading columns of a table is entry (p, k) of the table. -/
theorem slice {a b b' : ℕ} (hb : b' ≤ b) (t : IVec ⟨2, ![a, b]⟩ 32) (h) (p : Fin a) (k : Fin b') :
    extractStridedSlice ⟨2, ![a, b']⟩ ![0, 0] t h (ix2 p k) = t (ix2 p (Fin.castLE hb k)) := by
  unfold extractStridedSlice
  congr 1
  funext i
  match i with
  | ⟨0, _⟩ => exact Fin.ext (Nat.zero_add _)
  | ⟨1, _⟩ => exact Fin.ext (Nat.zero_add _)

theorem rows_of_all (a5 : IVec S4096 32)
    (e : Host.reduce IntOp.andi
        (andi (cmpi .sge a5 (broadcastInDim S4096 ![] Facts.bcast_S_S4096 (constantI S_ 32 0#32)))
          (cmpi .slt a5 (broadcastInDim S4096 ![] Facts.bcast_S_S4096 (constantI S_ 32 64#32))))
        (constantI S_ 1 1#1) Facts.reducesTo_S4096_S_d0 Facts.h_S_ ix0 = 1#1)
    (z : Fin 4096) : ∃ k : Fin 64, a5 (ix1 z) = BitVec.ofNat 32 k.val := by
  obtain ⟨g0, g1⟩ := IntOp.andi_eq_one.1 (Host.reduce_andi_all (t := S_) _ _ _ _ _ e (ix1 z))
  exact word_range 64 (by decide) _ g0 g1

/-- Every word in the leading columns of a path table names a segment. -/
theorem segs_of_all {a b b' : ℕ} (hb : b' ≤ b) (t : IVec ⟨2, ![a, b]⟩ 32) (hs) (hc) (hr : (⟨2, ![a, b']⟩ : Shape).ReducesTo [0, 1] S_) (hS)
    (e : Host.reduce IntOp.andi
        (andi (cmpi .sge (extractStridedSlice ⟨2, ![a, b']⟩ ![0, 0] t hs) (broadcastInDim ⟨2, ![a, b']⟩ ![] hc (constantI S_ 32 0#32)))
          (cmpi .slt (extractStridedSlice ⟨2, ![a, b']⟩ ![0, 0] t hs) (broadcastInDim ⟨2, ![a, b']⟩ ![] hc (constantI S_ 32 16#32))))
        (constantI S_ 1 1#1) hr hS ix0 = 1#1)
    (p : Fin a) (k : Fin b') : ∃ s : Fin 16, t (ix2 p (Fin.castLE hb k)) = BitVec.ofNat 32 s.val := by
  obtain ⟨g0, g1⟩ := IntOp.andi_eq_one.1 (Host.reduce_andi_all (t := S_) _ _ _ _ _ e (ix2 p k))
  rw [← slice hb t hs p k]
  exact word_range 16 (by decide) _ g0 g1

/-- Under the precondition the four integer inputs decode. -/
theorem tables {F : FTy → Type} [FloatOps F] [Cert.Pre_finite_inputs.Facts]
    (a0 : FVec F Cert.Pre_finite_inputs.S64x2048 .f32) (a1 : FVec F Cert.Pre_finite_inputs.S4096x2048 .f32)
    (a2 : FVec F Cert.Pre_finite_inputs.S32 .f32) (a3 : FVec F Cert.Pre_finite_inputs.S96 .f32)
    (a4 : FVec F Cert.Pre_finite_inputs.S128 .f32)
    (a5 : IVec Cert.Pre_finite_inputs.S4096 32) (a6 : IVec Cert.Pre_finite_inputs.S32x3 32)
    (a7 : IVec Cert.Pre_finite_inputs.S96x4 32) (a8 : IVec Cert.Pre_finite_inputs.S128x5 32)
    (h : Cert.Pre_finite_inputs.fn (F := F) a0 a1 a2 a3 a4 a5 a6 a7 a8 = fun _ => 1#1) :
    Nonempty (Cert.Proof.Spec.Tables a5 a6 a7 a8) := by
  have e : Cert.Pre_finite_inputs.fn (F := F) a0 a1 a2 a3 a4 a5 a6 a7 a8 ix0 = 1#1 := congrFun h ix0
  obtain ⟨e48, e56⟩ := IntOp.andi_eq_one.1 e
  obtain ⟨e39, e47⟩ := IntOp.andi_eq_one.1 e48
  obtain ⟨e30, e38⟩ := IntOp.andi_eq_one.1 e39
  obtain ⟨-, e29⟩ := IntOp.andi_eq_one.1 e30
  clear e e48 e39 e30
  choose r hr using rows_of_all a5 e29
  choose t1 ht1 using segs_of_all (by decide) a6 _ _ _ _ e38
  choose t2 ht2 using segs_of_all (by decide) a7 _ _ _ _ e47
  choose t3 ht3 using segs_of_all (by decide) a8 _ _ _ _ e56
  exact ⟨⟨r, hr, t1, ht1, t2, ht2, t3, ht3⟩⟩

end Cert.Proof.PreRange

end
-- ==== Proof.lean ====
import proofs.«426359_j52879637348696_1_alg».proof.Defs
import proofs.«426359_j52879637348696_1_alg».proof.Proof.Gen.Kernel
import proofs.«426359_j52879637348696_1_alg».proof.Proof.Gen.KernelIdeal
import proofs.«426359_j52879637348696_1_alg».proof.Proof.Gen.ReferenceIdeal
import proofs.«426359_j52879637348696_1_alg».proof.Proof.Gen.Pre_finite_inputs
import proofs.«426359_j52879637348696_1_alg».proof.Proof.K.Inst
import proofs.«426359_j52879637348696_1_alg».proof.Proof.KI.Inst
import proofs.«426359_j52879637348696_1_alg».proof.Proof.KI.InstRun
import proofs.«426359_j52879637348696_1_alg».proof.Proof.KI.Value
import proofs.«426359_j52879637348696_1_alg».proof.Proof.RefRun
import proofs.«426359_j52879637348696_1_alg».proof.Proof.RefValue
import proofs.«426359_j52879637348696_1_alg».proof.Proof.PreRange
import proofs.«426359_j52879637348696_1_alg».proof.Proof.Spec
import Idealize.ShloMosaic.Adequacy
import Idealize.ShloMosaic.Init

noncomputable section

namespace Cert.Proof

open Idealize.ShloMosaic Idealize.ShloMosaic.TcCoe Idealize.ShloMosaic.ValueIdx Idealize.SL.Sem

theorem frame_K : Cert.frame_Kernel := fun m ρ _ => Cert.Kernel.Inst.frame m ρ

theorem frame_KI : Cert.frame_KernelIdeal := fun m ρ _ => Cert.KernelIdeal.Inst.frame m ρ

theorem frame_RI : Cert.frame_ReferenceIdeal := fun m ρ _ =>
  (θ_run Cert.ReferenceIdeal.defs _ _).mono (fun _ h c => (h c).2) (Cert.ReferenceIdeal.RefRun.run m ρ)

/-- Over the extended reals both programs end with the arguments unchanged and with one result: entry (z, 128·s + u) of each is `Spec.out`. -/
theorem algebraic : Cert.algebraic_KernelIdeal_ReferenceIdeal := by
  intro m ρ m' ρ' hpre hagree
  refine ⟨fun c => Cert.KernelIdeal.GenP.V54 m (Cert.KernelIdeal.Inst.outs m) c Cert.KernelIdeal.main_v105,
    Cert.KernelIdeal.Inst.run m ρ, ?_⟩
  refine (θ_run Cert.ReferenceIdeal.defs _ _).mono (fun _ h c => ⟨(h c).1.trans ?_, (h c).2⟩)
    (Cert.ReferenceIdeal.RefRun.run m' ρ')
  obtain ⟨T⟩ := Cert.Proof.PreRange.tables _ _ _ _ _ _ _ _ _ (hpre c)
  obtain ⟨h0, h1, h2, h3, h4, h5, h6, h7, h8⟩ := hagree c
  rw [h0, h1, h2, h3, h4, h5, h6, h7, h8]
  funext i
  obtain ⟨z, j, rfl⟩ : ∃ (z : Fin 4096) (j : Fin 2048), i = ix2 z j := ⟨i 0, i 1, eq_ix2 i⟩
  rw [← Cert.Proof.Spec.col_div_mod j]
  exact (Cert.ReferenceIdeal.RefValue.refOut_apply _ _ _ _ _ _ _ _ _ T z _ _).trans
    (Cert.KernelIdeal.Value.result_apply m c T z _ _).symm

theorem claim : Cert.Claim :=
  ⟨Cert.Kernel.Gen.facts, Cert.KernelIdeal.Gen.facts, Cert.ReferenceIdeal.Gen.facts, Cert.Pre_finite_inputs.Gen.facts,
    frame_K, frame_KI, frame_RI, trivial, algebraic⟩

end Cert.Proof

end
